-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v92)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S3200000 : Shape := ⟨1, ![3200000]⟩
abbrev S32x9 : Shape := ⟨2, ![32, 9]⟩
abbrev S9 : Shape := ⟨1, ![9]⟩
abbrev S9x9 : Shape := ⟨2, ![9, 9]⟩
abbrev S25x9 : Shape := ⟨2, ![25, 9]⟩
abbrev S9x16 : Shape := ⟨2, ![9, 16]⟩
abbrev S16 : Shape := ⟨1, ![16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S32x9 : S_.BroadcastsInDim S32x9 (![] : Fin 0 → Fin S32x9.rank)
  reducesTo_S32x9_S_d0_1 : S32x9.ReducesTo [0, 1] S_
  bcast_S_S9 : S_.BroadcastsInDim S9 (![] : Fin 0 → Fin S9.rank)
  reducesTo_S9_S_d0 : S9.ReducesTo [0] S_
  bcast_S_S9x9 : S_.BroadcastsInDim S9x9 (![] : Fin 0 → Fin S9x9.rank)
  reducesTo_S9x9_S_d0_1 : S9x9.ReducesTo [0, 1] S_
  bcast_S_S25x9 : S_.BroadcastsInDim S25x9 (![] : Fin 0 → Fin S25x9.rank)
  reducesTo_S25x9_S_d0_1 : S25x9.ReducesTo [0, 1] S_
  bcast_S_S9x16 : S_.BroadcastsInDim S9x16 (![] : Fin 0 → Fin S9x16.rank)
  reducesTo_S9x16_S_d0_1 : S9x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_arg13 : FVec F S9x16 .f32) (main_arg14 : FVec F S16 .f32) (main_v48 : IVec S_ 1) (main_v49 : FVec F S9 .f32) (main_v50 : FVec F S9 .f32) : IVec S_ 1 :=
  let main_v51 : IVec S9 1 := cmpf .olt main_v49 main_v50
  let main_c_19 : IVec S_ 1 := constantI S_ 1 1#1
  let main_v52 : IVec S_ 1 := (fun x v => Host.reduce IntOp.andi x v reducesTo_S9_S_d0 h_S_) main_v51 main_c_19
  let main_v53 : IVec S_ 1 := andi main_v48 main_v52
  let main_v54 : FVec F S9x16 .f32 := Host.absf main_arg13
  let main_cst_20 : FVec F S_ .f32 := constant S_ .f32 0x7F800000#32
  let main_v55 : FVec F S9x16 .f32 := broadcastInDim S9x16 ![] bcast_S_S9x16 main_cst_20
  let main_v56 : IVec S9x16 1 := cmpf .olt main_v54 main_v55
  let main_c_21 : IVec S_ 1 := constantI S_ 1 1#1
  let main_v57 : IVec S_ 1 := (fun x v => Host.reduce IntOp.andi x v reducesTo_S9x16_S_d0_1 h_S_) main_v56 main_c_21
  let main_v58 : IVec S_ 1 := andi main_v53 main_v57
  let main_v59 : FVec F S16 .f32 := Host.absf main_arg14
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg9 : FVec F S25x9 .f32) (main_arg10 : FVec F S9 .f32) (main_arg11 : FVec F S9x9 .f32) (main_arg12 : FVec F S9 .f32) (main_arg13 : FVec F S9x16 .f32) (main_arg14 : FVec F S16 .f32) (main_v33 : IVec S_ 1) : IVec S_ 1 :=
  let main_v34 : FVec F S25x9 .f32 := Host.absf main_arg9
  let main_cst_12 : FVec F S_ .f32 := constant S_ .f32 0x7F800000#32
  let main_v35 : FVec F S25x9 .f32 := broadcastInDim S25x9 ![] bcast_S_S25x9 main_cst_12
  let main_v36 : IVec S25x9 1 := cmpf .olt main_v34 main_v35
  let main_c_13 : IVec S_ 1 := constantI S_ 1 1#1
  let main_v37 : IVec S_ 1 := (fun x v => Host.reduce IntOp.andi x v reducesTo_S25x9_S_d0_1 h_S_) main_v36 main_c_13
  let main_v38 : IVec S_ 1 := andi main_v33 main_v37
  let main_v39 : FVec F S9 .f32 := Host.absf main_arg10
  let main_cst_14 : FVec F S_ .f32 := constant S_ .f32 0x7F800000#32
  let main_v40 : FVec F S9 .f32 := broadcastInDim S9 ![] bcast_S_S9 main_cst_14
  let main_v41 : IVec S9 1 := cmpf .olt main_v39 main_v40
  let main_c_15 : IVec S_ 1 := constantI S_ 1 1#1
  let main_v42 : IVec S_ 1 := (fun x v => Host.reduce IntOp.andi x v reducesTo_S9_S_d0 h_S_) main_v41 main_c_15
  let main_v43 : IVec S_ 1 := andi main_v38 main_v42
  let main_v44 : FVec F S9x9 .f32 := Host.absf main_arg11
  let main_cst_16 : FVec F S_ .f32 := constant S_ .f32 0x7F800000#32
  let main_v45 : FVec F S9x9 .f32 := broadcastInDim S9x9 ![] bcast_S_S9x9 main_cst_16
  let main_v46 : IVec S9x9 1 := cmpf .olt main_v44 main_v45
  let main_c_17 : IVec S_ 1 := constantI S_ 1 1#1
  let main_v47 : IVec S_ 1 := (fun x v => Host.reduce IntOp.andi x v reducesTo_S9x9_S_d0_1 h_S_) main_v46 main_c_17
  let main_v48 : IVec S_ 1 := andi main_v43 main_v47
  let main_v49 : FVec F S9 .f32 := Host.absf main_arg12
  let main_cst_18 : FVec F S_ .f32 := constant S_ .f32 0x7F800000#32
  let main_v50 : FVec F S9 .f32 := broadcastInDim S9 ![] bcast_S_S9 main_cst_18
  fn_part3 (F := F) main_arg13 main_arg14 main_v48 main_v49 main_v50

def fn_part1 {F : FTy → Type} [FloatOps F] (main_arg6 : FVec F S9 .f32) (main_arg7 : FVec F S9x9 .f32) (main_arg8 : FVec F S9 .f32) (main_arg9 : FVec F S25x9 .f32) (main_arg10 : FVec F S9 .f32) (main_arg11 : FVec F S9x9 .f32) (main_arg12 : FVec F S9 .f32) (main_arg13 : FVec F S9x16 .f32) (main_arg14 : FVec F S16 .f32) (main_v13 : IVec S_ 1) (main_v16 : IVec S9x9 1) : IVec S_ 1 :=
  let main_c_5 : IVec S_ 1 := constantI S_ 1 1#1
  let main_v17 : IVec S_ 1 := (fun x v => Host.reduce IntOp.andi x v reducesTo_S9x9_S_d0_1 h_S_) main_v16 main_c_5
  let main_v18 : IVec S_ 1 := andi main_v13 main_v17
  let main_v19 : FVec F S9 .f32 := Host.absf main_arg6
  let main_cst_6 : FVec F S_ .f32 := constant S_ .f32 0x7F800000#32
  let main_v20 : FVec F S9 .f32 := broadcastInDim S9 ![] bcast_S_S9 main_cst_6
  let main_v21 : IVec S9 1 := cmpf .olt main_v19 main_v20
  let main_c_7 : IVec S_ 1 := constantI S_ 1 1#1
  let main_v22 : IVec S_ 1 := (fun x v => Host.reduce IntOp.andi x v reducesTo_S9_S_d0 h_S_) main_v21 main_c_7
  let main_v23 : IVec S_ 1 := andi main_v18 main_v22
  let main_v24 : FVec F S9x9 .f32 := Host.absf main_arg7
  let main_cst_8 : FVec F S_ .f32 := constant S_ .f32 0x7F800000#32
  let main_v25 : FVec F S9x9 .f32 := broadcastInDim S9x9 ![] bcast_S_S9x9 main_cst_8
  let main_v26 : IVec S9x9 1 := cmpf .olt main_v24 main_v25
  let main_c_9 : IVec S_ 1 := constantI S_ 1 1#1
  let main_v27 : IVec S_ 1 := (fun x v => Host.reduce IntOp.andi x v reducesTo_S9x9_S_d0_1 h_S_) main_v26 main_c_9
  let main_v28 : IVec S_ 1 := andi main_v23 main_v27
  let main_v29 : FVec F S9 .f32 := Host.absf main_arg8
  let main_cst_10 : FVec F S_ .f32 := constant S_ .f32 0x7F800000#32
  let main_v30 : FVec F S9 .f32 := broadcastInDim S9 ![] bcast_S_S9 main_cst_10
  let main_v31 : IVec S9 1 := cmpf .olt main_v29 main_v30
  let main_c_11 : IVec S_ 1 := constantI S_ 1 1#1
  let main_v32 : IVec S_ 1 := (fun x v => Host.reduce IntOp.andi x v reducesTo_S9_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x16 .f32) (main_arg1 : IVec S3200000 32) (main_arg2 : IVec S3200000 32) (main_arg3 : FVec F S32x9 .f32) (main_arg4 : FVec F S9 .f32) (main_arg5 : FVec F S9x9 .f32) (main_arg6 : FVec F S9 .f32) (main_arg7 : FVec F S9x9 .f32) (main_arg8 : FVec F S9 .f32) (main_arg9 : FVec F S25x9 .f32) (main_arg10 : FVec F S9 .f32) (main_arg11 : FVec F S9x9 .f32) (main_arg12 : FVec F S9 .f32) (main_arg13 : FVec F S9x16 .f32) (main_arg14 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S32x9 .f32 := Host.absf main_arg3
  let main_cst_0 : FVec F S_ .f32 := constant S_ .f32 0x7F800000#32
  let main_v5 : FVec F S32x9 .f32 := broadcastInDim S32x9 ![] bcast_S_S32x9 main_cst_0
  let main_v6 : IVec S32x9 1 := cmpf .olt main_v4 main_v5
  let main_c_1 : IVec S_ 1 := constantI S_ 1 1#1
  let main_v7 : IVec S_ 1 := (fun x v => Host.reduce IntOp.andi x v reducesTo_S32x9_S_d0_1 h_S_) main_v6 main_c_1
  let main_v8 : IVec S_ 1 := andi main_v3 main_v7
  let main_v9 : FVec F S9 .f32 := Host.absf main_arg4
  let main_cst_2 : FVec F S_ .f32 := constant S_ .f32 0x7F800000#32
  let main_v10 : FVec F S9 .f32 := broadcastInDim S9 ![] bcast_S_S9 main_cst_2
  let main_v11 : IVec S9 1 := cmpf .olt main_v9 main_v10
  let main_c_3 : IVec S_ 1 := constantI S_ 1 1#1
  let main_v12 : IVec S_ 1 := (fun x v => Host.reduce IntOp.andi x v reducesTo_S9_S_d0 h_S_) main_v11 main_c_3
  let main_v13 : IVec S_ 1 := andi main_v8 main_v12
  let main_v14 : FVec F S9x9 .f32 := Host.absf main_arg5
  let main_cst_4 : FVec F S_ .f32 := constant S_ .f32 0x7F800000#32
  let main_v15 : FVec F S9x9 .f32 := broadcastInDim S9x9 ![] bcast_S_S9x9 main_cst_4
  let main_v16 : IVec S9x9 1 := cmpf .olt main_v14 main_v15
  fn_part1 (F := F) main_arg6 main_arg7 main_arg8 main_arg9 main_arg10 main_arg11 main_arg12 main_arg13 main_arg14 main_v13 main_v16
-- ==== Kernel.lean ====
abbrev S100000x16 : Shape := ⟨2, ![100000, 16]⟩
abbrev S3200000 : Shape := ⟨1, ![3200000]⟩
abbrev S32x9 : Shape := ⟨2, ![32, 9]⟩
abbrev S9 : Shape := ⟨1, ![9]⟩
abbrev S9x9 : Shape := ⟨2, ![9, 9]⟩
abbrev S25x9 : Shape := ⟨2, ![25, 9]⟩
abbrev S9x16 : Shape := ⟨2, ![9, 16]⟩
abbrev S16 : Shape := ⟨1, ![16]⟩
abbrev S9x32 : Shape := ⟨2, ![9, 32]⟩
abbrev S9x1 : Shape := ⟨2, ![9, 1]⟩
abbrev S9x25 : Shape := ⟨2, ![9, 25]⟩
abbrev S16x9 : Shape := ⟨2, ![16, 9]⟩
abbrev S16x1 : Shape := ⟨2, ![16, 1]⟩
abbrev S_ : Shape := ⟨0, ![]⟩
abbrev S3200000x1 : Shape := ⟨2, ![3200000, 1]⟩
abbrev S3200000x16 : Shape := ⟨2, ![3200000, 16]⟩
abbrev S3200000x32 : Shape := ⟨2, ![3200000, 32]⟩
abbrev S32x3200000 : Shape := ⟨2, ![32, 3200000]⟩
abbrev S9x3200000 : Shape := ⟨2, ![9, 3200000]⟩
abbrev S32x32000 : Shape := ⟨2, ![32, 32000]⟩
abbrev S9x32000 : Shape := ⟨2, ![9, 32000]⟩
abbrev S3200000x9 : Shape := ⟨2, ![3200000, 9]⟩
abbrev S100000x9 : Shape := ⟨2, ![100000, 9]⟩
abbrev S100000x25 : Shape := ⟨2, ![100000, 25]⟩
abbrev S25x100000 : Shape := ⟨2, ![25, 100000]⟩
abbrev S16x100000 : Shape := ⟨2, ![16, 100000]⟩
abbrev S25x25600 : Shape := ⟨2, ![25, 25600]⟩
abbrev S16x25600 : Shape := ⟨2, ![16, 25600]⟩
abbrev S9x25600 : Shape := ⟨2, ![9, 25600]⟩

abbrev nBuf : Space → Nat
  | .hbm => 123
  | .vmem => 60
  | .smem => 0
  | _ => 0

abbrev bufTy : (tb : Table) → Fin (tcTables nBuf tb) → BufTy
  | .hbm, ⟨0, _⟩ => ⟨S100000x16, .f32⟩
  | .hbm, ⟨1, _⟩ => ⟨S3200000, .i32⟩
  | .hbm, ⟨2, _⟩ => ⟨S3200000, .i32⟩
  | .hbm, ⟨3, _⟩ => ⟨S32x9, .f32⟩
  | .hbm, ⟨4, _⟩ => ⟨S9, .f32⟩
  | .hbm, ⟨5, _⟩ => ⟨S9x9, .f32⟩
  | .hbm, ⟨6, _⟩ => ⟨S9, .f32⟩
  | .hbm, ⟨7, _⟩ => ⟨S9x9, .f32⟩
  | .hbm, ⟨8, _⟩ => ⟨S9, .f32⟩
  | .hbm, ⟨9, _⟩ => ⟨S25x9, .f32⟩
  | .hbm, ⟨10, _⟩ => ⟨S9, .f32⟩
  | .hbm, ⟨11, _⟩ => ⟨S9x9, .f32⟩
  | .hbm, ⟨12, _⟩ => ⟨S9, .f32⟩
  | .hbm, ⟨13, _⟩ => ⟨S9x16, .f32⟩
  | .hbm, ⟨14, _⟩ => ⟨S16, .f32⟩
  | .hbm, ⟨15, _⟩ => ⟨S9x32, .f32⟩
  | .hbm, ⟨16, _⟩ => ⟨S9x32, .bf16⟩
  | .hbm, ⟨17, _⟩ => ⟨S9x1, .f32⟩
  | .hbm, ⟨18, _⟩ => ⟨S9x9, .f32⟩
  | .hbm, ⟨19, _⟩ => ⟨S9x9, .bf16⟩
  | .hbm, ⟨20, _⟩ => ⟨S9x1, .f32⟩
  | .hbm, ⟨21, _⟩ => ⟨S9x9, .f32⟩
  | .hbm, ⟨22, _⟩ => ⟨S9x9, .bf16⟩
  | .hbm, ⟨23, _⟩ => ⟨S9x1, .f32⟩
  | .hbm, ⟨24, _⟩ => ⟨S9x25, .f32⟩
  | .hbm, ⟨25, _⟩ => ⟨S9x25, .bf16⟩
  | .hbm, ⟨26, _⟩ => ⟨S9x1, .f32⟩
  | .hbm, ⟨27, _⟩ => ⟨S9x9, .f32⟩
  | .hbm, ⟨28, _⟩ => ⟨S9x9, .bf16⟩
  | .hbm, ⟨29, _⟩ => ⟨S9x1, .f32⟩
  | .hbm, ⟨30, _⟩ => ⟨S16x9, .f32⟩
  | .hbm, ⟨31, _⟩ => ⟨S16x9, .bf16⟩
  | .hbm, ⟨32, _⟩ => ⟨S16x1, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x16, .f32⟩
  | .hbm, ⟨42, _⟩ => ⟨S_, .i32⟩
  | .hbm, ⟨43, _⟩ => ⟨S3200000, .i32⟩
  | .hbm, ⟨44, _⟩ => ⟨S3200000, .i1⟩
  | .hbm, ⟨45, _⟩ => ⟨S_, .i32⟩
  | .hbm, ⟨46, _⟩ => ⟨S3200000, .i32⟩
  | .hbm, ⟨47, _⟩ => ⟨S3200000, .i32⟩
  | .hbm, ⟨48, _⟩ => ⟨S3200000, .i32⟩
  | .hbm, ⟨49, _⟩ => ⟨S3200000x1, .i32⟩
  | .hbm, ⟨50, _⟩ => ⟨S3200000x16, .f32⟩
  | .hbm, ⟨51, _⟩ => ⟨S3200000x32, .f32⟩
  | .hbm, ⟨52, _⟩ => ⟨S32x3200000, .f32⟩
  | .hbm, ⟨53, _⟩ => ⟨S9x3200000, .f32⟩
  | .hbm, ⟨54, _⟩ => ⟨S3200000x9, .f32⟩
  | .hbm, ⟨55, _⟩ => ⟨S_, .f32⟩
  | .hbm, ⟨56, _⟩ => ⟨S100000x9, .f32⟩
  | .hbm, ⟨57, _⟩ => ⟨S3200000x1, .i32⟩
  | .hbm, ⟨58, _⟩ => ⟨S100000x9, .f32⟩
  | .hbm, ⟨59, _⟩ => ⟨S100000x25, .f32⟩
  | .hbm, ⟨60, _⟩ => ⟨S25x100000, .f32⟩
  | .hbm, ⟨61, _⟩ => ⟨S16x100000, .f32⟩
  | .hbm, ⟨62, _⟩ => ⟨S100000x16, .f32⟩
  | .hbm, ⟨63, _⟩ => ⟨S_, .i32⟩
  | .hbm, ⟨64, _⟩ => ⟨S3200000, .i32⟩
  | .hbm, ⟨65, _⟩ => ⟨S3200000, .i1⟩
  | .hbm, ⟨66, _⟩ => ⟨S_, .i32⟩
  | .hbm, ⟨67, _⟩ => ⟨S3200000, .i32⟩
  | .hbm, ⟨68, _⟩ => ⟨S3200000, .i32⟩
  | .hbm, ⟨69, _⟩ => ⟨S3200000, .i32⟩
  | .hbm, ⟨70, _⟩ => ⟨S3200000x1, .i32⟩
  | .hbm, ⟨71, _⟩ => ⟨S3200000x16, .f32⟩
  | .hbm, ⟨72, _⟩ => ⟨S_, .i32⟩
  | .hbm, ⟨73, _⟩ => ⟨S3200000, .i32⟩
  | .hbm, ⟨74, _⟩ => ⟨S3200000, .i1⟩
  | .hbm, ⟨75, _⟩ => ⟨S_, .i32⟩
  | .hbm, ⟨76, _⟩ => ⟨S3200000, .i32⟩
  | .hbm, ⟨77, _⟩ => ⟨S3200000, .i32⟩
  | .hbm, ⟨78, _⟩ => ⟨S3200000, .i32⟩
  | .hbm, ⟨79, _⟩ => ⟨S3200000x1, .i32⟩
  | .hbm, ⟨80, _⟩ => ⟨S3200000x16, .f32⟩
  | .hbm, ⟨81, _⟩ => ⟨S3200000x32, .f32⟩
  | .hbm, ⟨82, _⟩ => ⟨S32x3200000, .f32⟩
  | .hbm, ⟨83, _⟩ => ⟨S9x3200000, .f32⟩
  | .hbm, ⟨84, _⟩ => ⟨S3200000x9, .f32⟩
  | .hbm, ⟨85, _⟩ => ⟨S_, .f32⟩
  | .hbm, ⟨86, _⟩ => ⟨S100000x9, .f32⟩
  | .hbm, ⟨87, _⟩ => ⟨S3200000x1, .i32⟩
  | .hbm, ⟨88, _⟩ => ⟨S100000x9, .f32⟩
  | .hbm, ⟨89, _⟩ => ⟨S100000x25, .f32⟩
  | .hbm, ⟨90, _⟩ => ⟨S25x100000, .f32⟩
  | .hbm, ⟨91, _⟩ => ⟨S16x100000, .f32⟩
  | .hbm, ⟨92, _⟩ => ⟨S100000x16, .f32⟩
  | .hbm, ⟨93, _⟩ => ⟨S_, .i32⟩
  | .hbm, ⟨94, _⟩ => ⟨S3200000, .i32⟩
  | .hbm, ⟨95, _⟩ => ⟨S3200000, .i1⟩
  | .hbm, ⟨96, _⟩ => ⟨S_, .i32⟩
  | .hbm, ⟨97, _⟩ => ⟨S3200000, .i32⟩
  | .hbm, ⟨98, _⟩ => ⟨S3200000, .i32⟩
  | .hbm, ⟨99, _⟩ => ⟨S3200000, .i32⟩
  | .hbm, ⟨100, _⟩ => ⟨S3200000x1, .i32⟩
  | .hbm, ⟨101, _⟩ => ⟨S3200000x16, .f32⟩
  | .hbm, ⟨102, _⟩ => ⟨S_, .i32⟩
  | .hbm, ⟨103, _⟩ => ⟨S3200000, .i32⟩
  | .hbm, ⟨104, _⟩ => ⟨S3200000, .i1⟩
  | .hbm, ⟨105, _⟩ => ⟨S_, .i32⟩
  | .hbm, ⟨106, _⟩ => ⟨S3200000, .i32⟩
  | .hbm, ⟨107, _⟩ => ⟨S3200000, .i32⟩
  | .hbm, ⟨108, _⟩ => ⟨S3200000, .i32⟩
  | .hbm, ⟨109, _⟩ => ⟨S3200000x1, .i32⟩
  | .hbm, ⟨110, _⟩ => ⟨S3200000x16, .f32⟩
  | .hbm, ⟨111, _⟩ => ⟨S3200000x32, .f32⟩
  | .hbm, ⟨112, _⟩ => ⟨S32x3200000, .f32⟩
  | .hbm, ⟨113, _⟩ => ⟨S9x3200000, .f32⟩
  | .hbm, ⟨114, _⟩ => ⟨S3200000x9, .f32⟩
  | .hbm, ⟨115, _⟩ => ⟨S_, .f32⟩
  | .hbm, ⟨116, _⟩ => ⟨S100000x9, .f32⟩
  | .hbm, ⟨117, _⟩ => ⟨S3200000x1, .i32⟩
  | .hbm, ⟨118, _⟩ => ⟨S100000x9, .f32⟩
  | .hbm, ⟨119, _⟩ => ⟨S100000x25, .f32⟩
  | .hbm, ⟨120, _⟩ => ⟨S25x100000, .f32⟩
  | .hbm, ⟨121, _⟩ => ⟨S16x100000, .f32⟩
  | .hbm, ⟨122, _⟩ => ⟨S100000x16, .f32⟩
  | .local _ .vmem, ⟨0, _⟩ => ⟨S32x32000, .f32⟩
  | .local _ .vmem, ⟨1, _⟩ => ⟨S32x32000, .f32⟩
  | .local _ .vmem, ⟨2, _⟩ => ⟨S9x32, .bf16⟩
  | .local _ .vmem, ⟨3, _⟩ => ⟨S9x1, .f32⟩
  | .local _ .vmem, ⟨4, _⟩ => ⟨S9x9, .bf16⟩
  | .local _ .vmem, ⟨5, _⟩ => ⟨S9x1, .f32⟩
  | .local _ .vmem, ⟨6, _⟩ => ⟨S9x9, .bf16⟩
  | .local _ .vmem, ⟨7, _⟩ => ⟨S9x1, .f32⟩
  | .local _ .vmem, ⟨8, _⟩ => ⟨S9x32000, .f32⟩
  | .local _ .vmem, ⟨9, _⟩ => ⟨S9x32000, .f32⟩
  | .local _ .vmem, ⟨10, _⟩ => ⟨S25x25600, .f32⟩
  | .local _ .vmem, ⟨11, _⟩ => ⟨S25x25600, .f32⟩
  | .local _ .vmem, ⟨12, _⟩ => ⟨S9x25, .bf16⟩
  | .local _ .vmem, ⟨13, _⟩ => ⟨S9x1, .f32⟩
  | .local _ .vmem, ⟨14, _⟩ => ⟨S9x9, .bf16⟩
  | .local _ .vmem, ⟨15, _⟩ => ⟨S9x1, .f32⟩
  | .local _ .vmem, ⟨16, _⟩ => ⟨S16x9, .bf16⟩
  | .local _ .vmem, ⟨17, _⟩ => ⟨S16x1, .f32⟩
  | .local _ .vmem, ⟨18, _⟩ => ⟨S16x25600, .f32⟩
  | .local _ .vmem, ⟨19, _⟩ => ⟨S16x25600, .f32⟩
  | .local _ .vmem, ⟨20, _⟩ => ⟨S32x32000, .f32⟩
  | .local _ .vmem, ⟨21, _⟩ => ⟨S32x32000, .f32⟩
  | .local _ .vmem, ⟨22, _⟩ => ⟨S9x32, .bf16⟩
  | .local _ .vmem, ⟨23, _⟩ => ⟨S9x1, .f32⟩
  | .local _ .vmem, ⟨24, _⟩ => ⟨S9x9, .bf16⟩
  | .local _ .vmem, ⟨25, _⟩ => ⟨S9x1, .f32⟩
  | .local _ .vmem, ⟨26, _⟩ => ⟨S9x9, .bf16⟩
  | .local _ .vmem, ⟨27, _⟩ => ⟨S9x1, .f32⟩
  | .local _ .vmem, ⟨28, _⟩ => ⟨S9x32000, .f32⟩
  | .local _ .vmem, ⟨29, _⟩ => ⟨S9x32000, .f32⟩
  | .local _ .vmem, ⟨30, _⟩ => ⟨S25x25600, .f32⟩
  | .local _ .vmem, ⟨31, _⟩ => ⟨S25x25600, .f32⟩
  | .local _ .vmem, ⟨32, _⟩ => ⟨S9x25, .bf16⟩
  | .local _ .vmem, ⟨33, _⟩ => ⟨S9x1, .f32⟩
  | .local _ .vmem, ⟨34, _⟩ => ⟨S9x9, .bf16⟩
  | .local _ .vmem, ⟨35, _⟩ => ⟨S9x1, .f32⟩
  | .local _ .vmem, ⟨36, _⟩ => ⟨S16x9, .bf16⟩
  | .local _ .vmem, ⟨37, _⟩ => ⟨S16x1, .f32⟩
  | .local _ .vmem, ⟨38, _⟩ => ⟨S16x25600, .f32⟩
  | .local _ .vmem, ⟨39, _⟩ => ⟨S16x25600, .f32⟩
  | .local _ .vmem, ⟨40, _⟩ => ⟨S32x32000, .f32⟩
  | .local _ .vmem, ⟨41, _⟩ => ⟨S32x32000, .f32⟩
  | .local _ .vmem, ⟨42, _⟩ => ⟨S9x32, .bf16⟩
  | .local _ .vmem, ⟨43, _⟩ => ⟨S9x1, .f32⟩
  | .local _ .vmem, ⟨44, _⟩ => ⟨S9x9, .bf16⟩
  | .local _ .vmem, ⟨45, _⟩ => ⟨S9x1, .f32⟩
  | .local _ .vmem, ⟨46, _⟩ => ⟨S9x9, .bf16⟩
  | .local _ .vmem, ⟨47, _⟩ => ⟨S9x1, .f32⟩
  | .local _ .vmem, ⟨48, _⟩ => ⟨S9x32000, .f32⟩
  | .local _ .vmem, ⟨49, _⟩ => ⟨S9x32000, .f32⟩
  | .local _ .vmem, ⟨50, _⟩ => ⟨S25x25600, .f32⟩
  | .local _ .vmem, ⟨51, _⟩ => ⟨S25x25600, .f32⟩
  | .local _ .vmem, ⟨52, _⟩ => ⟨S9x25, .bf16⟩
  | .local _ .vmem, ⟨53, _⟩ => ⟨S9x1, .f32⟩
  | .local _ .vmem, ⟨54, _⟩ => ⟨S9x9, .bf16⟩
  | .local _ .vmem, ⟨55, _⟩ => ⟨S9x1, .f32⟩
  | .local _ .vmem, ⟨56, _⟩ => ⟨S16x9, .bf16⟩
  | .local _ .vmem, ⟨57, _⟩ => ⟨S16x1, .f32⟩
  | .local _ .vmem, ⟨58, _⟩ => ⟨S16x25600, .f32⟩
  | .local _ .vmem, ⟨59, _⟩ => ⟨S16x25600, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_c_3 : Ref sig .tc := ⟨.hbm, 63, rfl⟩
abbrev main_v43 : Ref sig .tc := ⟨.hbm, 64, rfl⟩
abbrev main_v44 : Ref sig .tc := ⟨.hbm, 65, rfl⟩
abbrev main_c_4 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_5 : Ref sig .tc := ⟨.hbm, 72, rfl⟩
abbrev main_v50 : Ref sig .tc := ⟨.hbm, 73, rfl⟩
abbrev main_v51 : Ref sig .tc := ⟨.hbm, 74, rfl⟩
abbrev main_c_6 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_7 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_8 : Ref sig .tc := ⟨.hbm, 93, rfl⟩
abbrev main_v68 : Ref sig .tc := ⟨.hbm, 94, rfl⟩
abbrev main_v69 : Ref sig .tc := ⟨.hbm, 95, rfl⟩
abbrev main_c_9 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_c_10 : Ref sig .tc := ⟨.hbm, 102, rfl⟩
abbrev main_v75 : Ref sig .tc := ⟨.hbm, 103, rfl⟩
abbrev main_v76 : Ref sig .tc := ⟨.hbm, 104, rfl⟩
abbrev main_c_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_cst_12 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg6_0 : Ref sig .tc := ⟨.vmem, 47, rfl⟩
abbrev cc4_stg7_0 : Ref sig .tc := ⟨.vmem, 48, rfl⟩
abbrev cc4_stg7_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg3_0 : Ref sig .tc := ⟨.vmem, 54, rfl⟩
abbrev cc5_stg4_0 : Ref sig .tc := ⟨.vmem, 55, rfl⟩
abbrev cc5_stg5_0 : Ref sig .tc := ⟨.vmem, 56, rfl⟩
abbrev cc5_stg6_0 : Ref sig .tc := ⟨.vmem, 57, rfl⟩
abbrev cc5_stg7_0 : Ref sig .tc := ⟨.vmem, 58, rfl⟩
abbrev cc5_stg7_1 : Ref sig .tc := ⟨.vmem, 59, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem6_0 : DmaSem sig := 47
abbrev cc4_sem7_0 : DmaSem sig := 48
abbrev cc4_sem7_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem3_0 : DmaSem sig := 54
abbrev cc5_sem4_0 : DmaSem sig := 55
abbrev cc5_sem5_0 : DmaSem sig := 56
abbrev cc5_sem6_0 : DmaSem sig := 57
abbrev cc5_sem7_0 : DmaSem sig := 58
abbrev cc5_sem7_1 : DmaSem sig := 59

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S9x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x9 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S9x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x9 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S9x32000 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S25x25600 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S9x25 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S9x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S9x9 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S9x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x9 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S16x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S16x25600 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S32x32000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S9x32 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S9x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S9x9 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S9x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S9x9 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S9x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S9x32000 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![4], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage3_0 : Fin 2 → Memref sig .tc .vmem S25x25600 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S9x25 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S9x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S9x9 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S9x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S16x9 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S16x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S16x25600 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S32x32000 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S9x32 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S9x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S9x9 .bf16 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S9x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S9x9 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S9x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S9x32000 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![4], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage5_0 : Fin 2 → Memref sig .tc .vmem S25x25600 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S9x25 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S9x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S9x9 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S9x1 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S16x9 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S16x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S16x25600 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  transposes_S32x9_S9x32_1_0 : S32x9.Transposes [1, 0] S9x32
  bitsLt_bf16_f32 : FTy.bits .bf16 < FTy.bits .f32
  shapeCasts_S9_S9x1 : S9.ShapeCasts S9x1
  transposes_S9x9_S9x9_1_0 : S9x9.Transposes [1, 0] S9x9
  transposes_S25x9_S9x25_1_0 : S25x9.Transposes [1, 0] S9x25
  transposes_S9x16_S16x9_1_0 : S9x16.Transposes [1, 0] S16x9
  shapeCasts_S16_S16x1 : S16.ShapeCasts S16x1
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x16_S3200000x16_S3200000x32_d1 : Shape.Concatenates [S3200000x16, S3200000x16] S3200000x32 1
  transposes_S3200000x32_S32x3200000_1_0 : S3200000x32.Transposes [1, 0] S32x3200000
  inb_S32x32000_S32x32000_0_0 : ∀ a, (![0, 0] : Fin 2 → Nat) a + S32x32000.size a ≤ S32x32000.size a
  h_S32x32000 : 0 < S32x32000.numel
  shapeCasts_S32x32000_S32x32000 : S32x32000.ShapeCasts S32x32000
  inb_S9x32_S9x32_0_0 : ∀ a, (![0, 0] : Fin 2 → Nat) a + S9x32.size a ≤ S9x32.size a
  h_S9x32 : 0 < S9x32.numel
  shapeCasts_S9x32_S9x32 : S9x32.ShapeCasts S9x32
  inb_S9x1_S9x1_0_0 : ∀ a, (![0, 0] : Fin 2 → Nat) a + S9x1.size a ≤ S9x1.size a
  h_S9x1 : 0 < S9x1.numel
  shapeCasts_S9x1_S9x1 : S9x1.ShapeCasts S9x1
  broadcasts_S9x1_S9x32000 : S9x1.Broadcasts S9x32000
  inb_S9x9_S9x9_0_0 : ∀ a, (![0, 0] : Fin 2 → Nat) a + S9x9.size a ≤ S9x9.size a
  h_S9x9 : 0 < S9x9.numel
  shapeCasts_S9x9_S9x9 : S9x9.ShapeCasts S9x9
  inb_S9x32000_S9x32000_0_0 : ∀ a, (![0, 0] : Fin 2 → Nat) a + S9x32000.size a ≤ S9x32000.size a
  h_S9x32000 : 0 < S9x32000.numel
  transposes_S9x3200000_S3200000x9_1_0 : S9x3200000.Transposes [1, 0] S3200000x9
  bcast_S_S100000x9 : S_.BroadcastsInDim S100000x9 (![] : Fin 0 → Fin S100000x9.rank)
  concatenates_S100000x16_S100000x9_S100000x25_d1 : Shape.Concatenates [S100000x16, S100000x9] S100000x25 1
  transposes_S100000x25_S25x100000_1_0 : S100000x25.Transposes [1, 0] S25x100000
  inb_S25x25600_S25x25600_0_0 : ∀ a, (![0, 0] : Fin 2 → Nat) a + S25x25600.size a ≤ S25x25600.size a
  h_S25x25600 : 0 < S25x25600.numel
  shapeCasts_S25x25600_S25x25600 : S25x25600.ShapeCasts S25x25600
  inb_S9x25_S9x25_0_0 : ∀ a, (![0, 0] : Fin 2 → Nat) a + S9x25.size a ≤ S9x25.size a
  h_S9x25 : 0 < S9x25.numel
  shapeCasts_S9x25_S9x25 : S9x25.ShapeCasts S9x25
  broadcasts_S9x1_S9x25600 : S9x1.Broadcasts S9x25600
  inb_S16x9_S16x9_0_0 : ∀ a, (![0, 0] : Fin 2 → Nat) a + S16x9.size a ≤ S16x9.size a
  h_S16x9 : 0 < S16x9.numel
  shapeCasts_S16x9_S16x9 : S16x9.ShapeCasts S16x9
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x25600 : S16x1.Broadcasts S16x25600
  inb_S16x25600_S16x25600_0_0 : ∀ a, (![0, 0] : Fin 2 → Nat) a + S16x25600.size a ≤ S16x25600.size a
  h_S16x25600 : 0 < S16x25600.numel
  transposes_S16x100000_S100000x16_1_0 : S16x100000.Transposes [1, 0] S100000x16
  gather_S100000x16_S3200000x1_S3200000x16_1_0_n_n_0_1_116_wf : GatherDims.WF S100000x16 S3200000x1 S3200000x16 [1] [0] [] [0] [] 1 ![1, 16]
  dot_S9x32_S32x32000_S9x32000_1_0_0_1_n_n_wf : DotDims.WF S9x32 S32x32000 S9x32000 [1] [0] [0] [1] [] []
  dot_S9x9_S9x32000_S9x32000_1_0_0_1_n_n_wf : DotDims.WF S9x9 S9x32000 S9x32000 [1] [0] [0] [1] [] []
  scatter_S100000x9_S3200000x1_S3200000x9_1_0_0_1_wf : ScatterDims.WF S100000x9 S3200000x1 S3200000x9 [1] [0] [0] 1
  dot_S9x25_S25x25600_S9x25600_1_0_0_1_n_n_wf : DotDims.WF S9x25 S25x25600 S9x25600 [1] [0] [0] [1] [] []
  dot_S9x9_S9x25600_S9x25600_1_0_0_1_n_n_wf : DotDims.WF S9x9 S9x25600 S9x25600 [1] [0] [0] [1] [] []
  dot_S16x9_S9x25600_S16x25600_1_0_0_1_n_n_wf : DotDims.WF S16x9 S9x25600 S16x25600 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S32x3200000.size a
  hwx0_0 : ∀ i : grid0.Coords, EltTy.bits .f32 = 32 ∨ (Rect.block (s := S32x3200000) S32x32000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S9x32.size a ≤ S9x32.size a
  hwx0_1 : ∀ i : grid0.Coords, EltTy.bits .bf16 = 32 ∨ (Rect.block (s := S9x32) S9x32.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S9x1.size a ≤ S9x1.size a
  hwx0_2 : ∀ i : grid0.Coords, EltTy.bits .f32 = 32 ∨ (Rect.block (s := S9x1) S9x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x9.size a ≤ S9x9.size a
  hwx0_3 : ∀ i : grid0.Coords, EltTy.bits .bf16 = 32 ∨ (Rect.block (s := S9x9) S9x9.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S9x1.size a ≤ S9x1.size a
  hwx0_4 : ∀ i : grid0.Coords, EltTy.bits .f32 = 32 ∨ (Rect.block (s := S9x1) S9x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S9x9.size a ≤ S9x9.size a
  hwx0_5 : ∀ i : grid0.Coords, EltTy.bits .bf16 = 32 ∨ (Rect.block (s := S9x9) S9x9.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S9x1.size a ≤ S9x1.size a
  hwx0_6 : ∀ i : grid0.Coords, EltTy.bits .f32 = 32 ∨ (Rect.block (s := S9x1) S9x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S9x32000.size a ≤ S9x3200000.size a
  hwx0_7 : ∀ i : grid0.Coords, EltTy.bits .f32 = 32 ∨ (Rect.block (s := S9x3200000) S9x32000.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hstart1_0 : ∀ (i : grid1.Coords) a, cc1_transform_0 i a * S25x25600.size a < S25x100000.size a
  hwx1_0 : ∀ i : grid1.Coords, EltTy.bits .f32 = 32 ∨ (Rect.unit (s := S25x100000) (fun a => cc1_transform_0 i a * S25x25600.size a) (fun a => (Pipeline.Clip.of (cc1_transform_0 i a) (S25x25600.size a) (S25x100000.size a)).extent (S25x25600.size a)) fun a => Pipeline.Clip.inb (Pipeline.Clip.ok_of (hstart1_0 i a))).WholeWords (EltTy.packing .f32)
  hwxs1_0 : ∀ i : grid1.Coords, EltTy.bits .f32 = 32 ∨ (Rect.unit (s := S25x25600) (fun _ => 0) (fun a => (Pipeline.Clip.of (cc1_transform_0 i a) (S25x25600.size a) (S25x100000.size a)).extent (S25x25600.size a)) fun a => (Nat.zero_add _).trans_le (Pipeline.Clip.extent_le (Pipeline.Clip.ok_of (hstart1_0 i a)))).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S9x25.size a ≤ S9x25.size a
  hwx1_1 : ∀ i : grid1.Coords, EltTy.bits .bf16 = 32 ∨ (Rect.block (s := S9x25) S9x25.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S9x1.size a ≤ S9x1.size a
  hwx1_2 : ∀ i : grid1.Coords, EltTy.bits .f32 = 32 ∨ (Rect.block (s := S9x1) S9x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S9x9.size a ≤ S9x9.size a
  hwx1_3 : ∀ i : grid1.Coords, EltTy.bits .bf16 = 32 ∨ (Rect.block (s := S9x9) S9x9.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S9x1.size a ≤ S9x1.size a
  hwx1_4 : ∀ i : grid1.Coords, EltTy.bits .f32 = 32 ∨ (Rect.block (s := S9x1) S9x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x9.size a ≤ S16x9.size a
  hwx1_5 : ∀ i : grid1.Coords, EltTy.bits .bf16 = 32 ∨ (Rect.block (s := S16x9) S16x9.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x1.size a ≤ S16x1.size a
  hwx1_6 : ∀ i : grid1.Coords, EltTy.bits .f32 = 32 ∨ (Rect.block (s := S16x1) S16x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hstart1_7 : ∀ (i : grid1.Coords) a, cc1_transform_7 i a * S16x25600.size a < S16x100000.size a
  hwx1_7 : ∀ i : grid1.Coords, EltTy.bits .f32 = 32 ∨ (Rect.unit (s := S16x100000) (fun a => cc1_transform_7 i a * S16x25600.size a) (fun a => (Pipeline.Clip.of (cc1_transform_7 i a) (S16x25600.size a) (S16x100000.size a)).extent (S16x25600.size a)) fun a => Pipeline.Clip.inb (Pipeline.Clip.ok_of (hstart1_7 i a))).WholeWords (EltTy.packing .f32)
  hwxs1_7 : ∀ i : grid1.Coords, EltTy.bits .f32 = 32 ∨ (Rect.unit (s := S16x25600) (fun _ => 0) (fun a => (Pipeline.Clip.of (cc1_transform_7 i a) (S16x25600.size a) (S16x100000.size a)).extent (S16x25600.size a)) fun a => (Nat.zero_add _).trans_le (Pipeline.Clip.extent_le (Pipeline.Clip.ok_of (hstart1_7 i a)))).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x32000.size a ≤ S32x3200000.size a
  hwx2_0 : ∀ i : grid2.Coords, EltTy.bits .f32 = 32 ∨ (Rect.block (s := S32x3200000) S32x32000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S9x32.size a ≤ S9x32.size a
  hwx2_1 : ∀ i : grid2.Coords, EltTy.bits .bf16 = 32 ∨ (Rect.block (s := S9x32) S9x32.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S9x1.size a ≤ S9x1.size a
  hwx2_2 : ∀ i : grid2.Coords, EltTy.bits .f32 = 32 ∨ (Rect.block (s := S9x1) S9x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S9x9.size a ≤ S9x9.size a
  hwx2_3 : ∀ i : grid2.Coords, EltTy.bits .bf16 = 32 ∨ (Rect.block (s := S9x9) S9x9.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S9x1.size a ≤ S9x1.size a
  hwx2_4 : ∀ i : grid2.Coords, EltTy.bits .f32 = 32 ∨ (Rect.block (s := S9x1) S9x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S9x9.size a ≤ S9x9.size a
  hwx2_5 : ∀ i : grid2.Coords, EltTy.bits .bf16 = 32 ∨ (Rect.block (s := S9x9) S9x9.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S9x1.size a ≤ S9x1.size a
  hwx2_6 : ∀ i : grid2.Coords, EltTy.bits .f32 = 32 ∨ (Rect.block (s := S9x1) S9x1.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S9x32000.size a ≤ S9x3200000.size a
  hwx2_7 : ∀ i : grid2.Coords, EltTy.bits .f32 = 32 ∨ (Rect.block (s := S9x3200000) S9x32000.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hstart3_0 : ∀ (i : grid3.Coords) a, cc3_transform_0 i a * S25x25600.size a < S25x100000.size a
  hwx3_0 : ∀ i : grid3.Coords, EltTy.bits .f32 = 32 ∨ (Rect.unit (s := S25x100000) (fun a => cc3_transform_0 i a * S25x25600.size a) (fun a => (Pipeline.Clip.of (cc3_transform_0 i a) (S25x25600.size a) (S25x100000.size a)).extent (S25x25600.size a)) fun a => Pipeline.Clip.inb (Pipeline.Clip.ok_of (hstart3_0 i a))).WholeWords (EltTy.packing .f32)
  hwxs3_0 : ∀ i : grid3.Coords, EltTy.bits .f32 = 32 ∨ (Rect.unit (s := S25x25600) (fun _ => 0) (fun a => (Pipeline.Clip.of (cc3_transform_0 i a) (S25x25600.size a) (S25x100000.size a)).extent (S25x25600.size a)) fun a => (Nat.zero_add _).trans_le (Pipeline.Clip.extent_le (Pipeline.Clip.ok_of (hstart3_0 i a)))).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S9x25.size a ≤ S9x25.size a
  hwx3_1 : ∀ i : grid3.Coords, EltTy.bits .bf16 = 32 ∨ (Rect.block (s := S9x25) S9x25.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S9x1.size a ≤ S9x1.size a
  hwx3_2 : ∀ i : grid3.Coords, EltTy.bits .f32 = 32 ∨ (Rect.block (s := S9x1) S9x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S9x9.size a ≤ S9x9.size a
  hwx3_3 : ∀ i : grid3.Coords, EltTy.bits .bf16 = 32 ∨ (Rect.block (s := S9x9) S9x9.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S9x1.size a ≤ S9x1.size a
  hwx3_4 : ∀ i : grid3.Coords, EltTy.bits .f32 = 32 ∨ (Rect.block (s := S9x1) S9x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S16x9.size a ≤ S16x9.size a
  hwx3_5 : ∀ i : grid3.Coords, EltTy.bits .bf16 = 32 ∨ (Rect.block (s := S16x9) S16x9.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S16x1.size a ≤ S16x1.size a
  hwx3_6 : ∀ i : grid3.Coords, EltTy.bits .f32 = 32 ∨ (Rect.block (s := S16x1) S16x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hstart3_7 : ∀ (i : grid3.Coords) a, cc3_transform_7 i a * S16x25600.size a < S16x100000.size a
  hwx3_7 : ∀ i : grid3.Coords, EltTy.bits .f32 = 32 ∨ (Rect.unit (s := S16x100000) (fun a => cc3_transform_7 i a * S16x25600.size a) (fun a => (Pipeline.Clip.of (cc3_transform_7 i a) (S16x25600.size a) (S16x100000.size a)).extent (S16x25600.size a)) fun a => Pipeline.Clip.inb (Pipeline.Clip.ok_of (hstart3_7 i a))).WholeWords (EltTy.packing .f32)
  hwxs3_7 : ∀ i : grid3.Coords, EltTy.bits .f32 = 32 ∨ (Rect.unit (s := S16x25600) (fun _ => 0) (fun a => (Pipeline.Clip.of (cc3_transform_7 i a) (S16x25600.size a) (S16x100000.size a)).extent (S16x25600.size a)) fun a => (Nat.zero_add _).trans_le (Pipeline.Clip.extent_le (Pipeline.Clip.ok_of (hstart3_7 i a)))).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S32x32000.size a ≤ S32x3200000.size a
  hwx4_0 : ∀ i : grid4.Coords, EltTy.bits .f32 = 32 ∨ (Rect.block (s := S32x3200000) S32x32000.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S9x32.size a ≤ S9x32.size a
  hwx4_1 : ∀ i : grid4.Coords, EltTy.bits .bf16 = 32 ∨ (Rect.block (s := S9x32) S9x32.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S9x1.size a ≤ S9x1.size a
  hwx4_2 : ∀ i : grid4.Coords, EltTy.bits .f32 = 32 ∨ (Rect.block (s := S9x1) S9x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S9x9.size a ≤ S9x9.size a
  hwx4_3 : ∀ i : grid4.Coords, EltTy.bits .bf16 = 32 ∨ (Rect.block (s := S9x9) S9x9.size (cc4_transform_3 i) (hinb4_3 i)).WholeWords (EltTy.packing .bf16)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S9x1.size a ≤ S9x1.size a
  hwx4_4 : ∀ i : grid4.Coords, EltTy.bits .f32 = 32 ∨ (Rect.block (s := S9x1) S9x1.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S9x9.size a ≤ S9x9.size a
  hwx4_5 : ∀ i : grid4.Coords, EltTy.bits .bf16 = 32 ∨ (Rect.block (s := S9x9) S9x9.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S9x1.size a ≤ S9x1.size a
  hwx4_6 : ∀ i : grid4.Coords, EltTy.bits .f32 = 32 ∨ (Rect.block (s := S9x1) S9x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S9x32000.size a ≤ S9x3200000.size a
  hwx4_7 : ∀ i : grid4.Coords, EltTy.bits .f32 = 32 ∨ (Rect.block (s := S9x3200000) S9x32000.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hstart5_0 : ∀ (i : grid5.Coords) a, cc5_transform_0 i a * S25x25600.size a < S25x100000.size a
  hwx5_0 : ∀ i : grid5.Coords, EltTy.bits .f32 = 32 ∨ (Rect.unit (s := S25x100000) (fun a => cc5_transform_0 i a * S25x25600.size a) (fun a => (Pipeline.Clip.of (cc5_transform_0 i a) (S25x25600.size a) (S25x100000.size a)).extent (S25x25600.size a)) fun a => Pipeline.Clip.inb (Pipeline.Clip.ok_of (hstart5_0 i a))).WholeWords (EltTy.packing .f32)
  hwxs5_0 : ∀ i : grid5.Coords, EltTy.bits .f32 = 32 ∨ (Rect.unit (s := S25x25600) (fun _ => 0) (fun a => (Pipeline.Clip.of (cc5_transform_0 i a) (S25x25600.size a) (S25x100000.size a)).extent (S25x25600.size a)) fun a => (Nat.zero_add _).trans_le (Pipeline.Clip.extent_le (Pipeline.Clip.ok_of (hstart5_0 i a)))).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S9x25.size a ≤ S9x25.size a
  hwx5_1 : ∀ i : grid5.Coords, EltTy.bits .bf16 = 32 ∨ (Rect.block (s := S9x25) S9x25.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S9x1.size a ≤ S9x1.size a
  hwx5_2 : ∀ i : grid5.Coords, EltTy.bits .f32 = 32 ∨ (Rect.block (s := S9x1) S9x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S9x9.size a ≤ S9x9.size a
  hwx5_3 : ∀ i : grid5.Coords, EltTy.bits .bf16 = 32 ∨ (Rect.block (s := S9x9) S9x9.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S9x1.size a ≤ S9x1.size a
  hwx5_4 : ∀ i : grid5.Coords, EltTy.bits .f32 = 32 ∨ (Rect.block (s := S9x1) S9x1.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S16x9.size a ≤ S16x9.size a
  hwx5_5 : ∀ i : grid5.Coords, EltTy.bits .bf16 = 32 ∨ (Rect.block (s := S16x9) S16x9.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S16x1.size a ≤ S16x1.size a
  hwx5_6 : ∀ i : grid5.Coords, EltTy.bits .f32 = 32 ∨ (Rect.block (s := S16x1) S16x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hstart5_7 : ∀ (i : grid5.Coords) a, cc5_transform_7 i a * S16x25600.size a < S16x100000.size a
  hwx5_7 : ∀ i : grid5.Coords, EltTy.bits .f32 = 32 ∨ (Rect.unit (s := S16x100000) (fun a => cc5_transform_7 i a * S16x25600.size a) (fun a => (Pipeline.Clip.of (cc5_transform_7 i a) (S16x25600.size a) (S16x100000.size a)).extent (S16x25600.size a)) fun a => Pipeline.Clip.inb (Pipeline.Clip.ok_of (hstart5_7 i a))).WholeWords (EltTy.packing .f32)
  hwxs5_7 : ∀ i : grid5.Coords, EltTy.bits .f32 = 32 ∨ (Rect.unit (s := S16x25600) (fun _ => 0) (fun a => (Pipeline.Clip.of (cc5_transform_7 i a) (S16x25600.size a) (S16x100000.size a)).extent (S16x25600.size a)) fun a => (Nat.zero_add _).trans_le (Pipeline.Clip.extent_le (Pipeline.Clip.ok_of (hstart5_7 i a)))).WholeWords (EltTy.packing .f32)

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S9x32_S32x32000_S9x32000_1_0_0_1_n_n : DotDims S9x32 S32x32000 S9x32000 where
  lhsContracting := [1]
  rhsContracting := [0]
  lhsNonContracting := [0]
  rhsNonContracting := [1]
  lhsBatch := []
  rhsBatch := []
  wf := dot_S9x32_S32x32000_S9x32000_1_0_0_1_n_n_wf
def dot_S9x9_S9x32000_S9x32000_1_0_0_1_n_n : DotDims S9x9 S9x32000 S9x32000 where
  lhsContracting := [1]
  rhsContracting := [0]
  lhsNonContracting := [0]
  rhsNonContracting := [1]
  lhsBatch := []
  rhsBatch := []
  wf := dot_S9x9_S9x32000_S9x32000_1_0_0_1_n_n_wf
def scatter_S100000x9_S3200000x1_S3200000x9_1_0_0_1 : ScatterDims S100000x9 S3200000x1 S3200000x9 where
  updateWindowDims := [1]
  insertedWindowDims := [0]
  scatterDimsToOperandDims := [0]
  indexVectorDim := 1
  wf := scatter_S100000x9_S3200000x1_S3200000x9_1_0_0_1_wf
def dot_S9x25_S25x25600_S9x25600_1_0_0_1_n_n : DotDims S9x25 S25x25600 S9x25600 where
  lhsContracting := [1]
  rhsContracting := [0]
  lhsNonContracting := [0]
  rhsNonContracting := [1]
  lhsBatch := []
  rhsBatch := []
  wf := dot_S9x25_S25x25600_S9x25600_1_0_0_1_n_n_wf
def dot_S9x9_S9x25600_S9x25600_1_0_0_1_n_n : DotDims S9x9 S9x25600 S9x25600 where
  lhsContracting := [1]
  rhsContracting := [0]
  lhsNonContracting := [0]
  rhsNonContracting := [1]
  lhsBatch := []
  rhsBatch := []
  wf := dot_S9x9_S9x25600_S9x25600_1_0_0_1_n_n_wf
def dot_S16x9_S9x25600_S16x25600_1_0_0_1_n_n : DotDims S16x9 S9x25600 S16x25600 where
  lhsContracting := [1]
  rhsContracting := [0]
  lhsNonContracting := [0]
  rhsNonContracting := [1]
  lhsBatch := []
  rhsBatch := []
  wf := dot_S16x9_S9x25600_S16x25600_1_0_0_1_n_n_wf

abbrev win0_0 : Pipeline.Window sig grid0 :=
  Pipeline.Window.ofSpec (Memref.whole main_v33) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S9x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S9x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S9x9.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S9x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S9x9.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S9x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v34) S9x32000.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpecClip (Memref.whole main_v40) S25x25600.size cc1_transform_0 reads1_0 false false 2 stage1_0 sem1_0
    hrank1 hreads1_0 hstart1_0 nbuf1_0 (Memref.isWhole_whole _) hwx1_0 hwxs1_0 hstage1_0

abbrev win1_1 : Pipeline.Window sig grid1 :=
  Pipeline.Window.ofSpec (Memref.whole main_v10) S9x25.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S9x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v13) S9x9.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S9x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S16x9.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S16x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpecClip (Memref.whole main_v41) S16x25600.size cc1_transform_7 reads1_7 true false 2 stage1_7 sem1_7
    hrank1 hreads1_7 hstart1_7 nbuf1_7 (Memref.isWhole_whole _) hwx1_7 hwxs1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v58) S32x32000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S9x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S9x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S9x9.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S9x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S9x9.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v8) S9x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S9x32000.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpecClip (Memref.whole main_v65) S25x25600.size cc3_transform_0 reads3_0 false false 2 stage3_0 sem3_0
    hrank3 hreads3_0 hstart3_0 nbuf3_0 (Memref.isWhole_whole _) hwx3_0 hwxs3_0 hstage3_0

abbrev win3_1 : Pipeline.Window sig grid3 :=
  Pipeline.Window.ofSpec (Memref.whole main_v10) S9x25.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S9x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v13) S9x9.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v14) S9x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v16) S16x9.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v17) S16x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpecClip (Memref.whole main_v66) S16x25600.size cc3_transform_7 reads3_7 true false 2 stage3_7 sem3_7
    hrank3 hreads3_7 hstart3_7 nbuf3_7 (Memref.isWhole_whole _) hwx3_7 hwxs3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v83) S32x32000.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S9x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S9x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S9x9.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v5) S9x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v7) S9x9.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v8) S9x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v84) S9x32000.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpecClip (Memref.whole main_v90) S25x25600.size cc5_transform_0 reads5_0 false false 2 stage5_0 sem5_0
    hrank5 hreads5_0 hstart5_0 nbuf5_0 (Memref.isWhole_whole _) hwx5_0 hwxs5_0 hstage5_0

abbrev win5_1 : Pipeline.Window sig grid5 :=
  Pipeline.Window.ofSpec (Memref.whole main_v10) S9x25.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v11) S9x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v13) S9x9.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v14) S9x1.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v16) S16x9.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v17) S16x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpecClip (Memref.whole main_v91) S16x25600.size cc5_transform_7 reads5_7 true false 2 stage5_7 sem5_7
    hrank5 hreads5_7 hstart5_7 nbuf5_7 (Memref.isWhole_whole _) hwx5_7 hwxs5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x16 : Shape := ⟨2, ![100000, 16]⟩
abbrev S3200000 : Shape := ⟨1, ![3200000]⟩
abbrev S32x9 : Shape := ⟨2, ![32, 9]⟩
abbrev S9 : Shape := ⟨1, ![9]⟩
abbrev S9x9 : Shape := ⟨2, ![9, 9]⟩
abbrev S25x9 : Shape := ⟨2, ![25, 9]⟩
abbrev S9x16 : Shape := ⟨2, ![9, 16]⟩
abbrev S16 : Shape := ⟨1, ![16]⟩
abbrev S_ : Shape := ⟨0, ![]⟩
abbrev S3200000x1 : Shape := ⟨2, ![3200000, 1]⟩
abbrev S3200000x16 : Shape := ⟨2, ![3200000, 16]⟩
abbrev S3200000x32 : Shape := ⟨2, ![3200000, 32]⟩
abbrev S3200000x9 : Shape := ⟨2, ![3200000, 9]⟩
abbrev S1x9 : Shape := ⟨2, ![1, 9]⟩
abbrev S100000x9 : Shape := ⟨2, ![100000, 9]⟩
abbrev S100000x25 : Shape := ⟨2, ![100000, 25]⟩
abbrev S1x16 : Shape := ⟨2, ![1, 16]⟩

abbrev nBuf : Space → Nat
  | .hbm => 195
  | .vmem => 0
  | .smem => 0
  | _ => 0

abbrev hbmTy0_0 (i : Nat) : BufTy := match i % 128 with
  | 0 => ⟨S100000x16, .f32⟩
  | 1 => ⟨S3200000, .i32⟩
  | 2 => ⟨S3200000, .i32⟩
  | 3 => ⟨S32x9, .f32⟩
  | 4 => ⟨S9, .f32⟩
  | 5 => ⟨S9x9, .f32⟩
  | 6 => ⟨S9, .f32⟩
  | 7 => ⟨S9x9, .f32⟩
  | 8 => ⟨S9, .f32⟩
  | 9 => ⟨S25x9, .f32⟩
  | 10 => ⟨S9, .f32⟩
  | 11 => ⟨S9x9, .f32⟩
  | 12 => ⟨S9, .f32⟩
  | 13 => ⟨S9x16, .f32⟩
  | 14 => ⟨S16, .f32⟩
  | 15 => ⟨S_, .i32⟩
  | 16 => ⟨S3200000, .i32⟩
  | 17 => ⟨S3200000, .i1⟩
  | 18 => ⟨S_, .i32⟩
  | 19 => ⟨S3200000, .i32⟩
  | 20 => ⟨S3200000, .i32⟩
  | 21 => ⟨S3200000, .i32⟩
  | 22 => ⟨S3200000x1, .i32⟩
  | 23 => ⟨S3200000x16, .f32⟩
  | 24 => ⟨S_, .i32⟩
  | 25 => ⟨S3200000, .i32⟩
  | 26 => ⟨S3200000, .i1⟩
  | 27 => ⟨S_, .i32⟩
  | 28 => ⟨S3200000, .i32⟩
  | 29 => ⟨S3200000, .i32⟩
  | 30 => ⟨S3200000, .i32⟩
  | 31 => ⟨S3200000x1, .i32⟩
  | 32 => ⟨S3200000x16, .f32⟩
  | 33 => ⟨S3200000x32, .f32⟩
  | 34 => ⟨S3200000x9, .f32⟩
  | 35 => ⟨S1x9, .f32⟩
  | 36 => ⟨S3200000x9, .f32⟩
  | 37 => ⟨S3200000x9, .f32⟩
  | 38 => ⟨S_, .f32⟩
  | 39 => ⟨S3200000x9, .f32⟩
  | 40 => ⟨S3200000x9, .f32⟩
  | 41 => ⟨S3200000x9, .f32⟩
  | 42 => ⟨S1x9, .f32⟩
  | 43 => ⟨S3200000x9, .f32⟩
  | 44 => ⟨S3200000x9, .f32⟩
  | 45 => ⟨S_, .f32⟩
  | 46 => ⟨S3200000x9, .f32⟩
  | 47 => ⟨S3200000x9, .f32⟩
  | 48 => ⟨S3200000x9, .f32⟩
  | 49 => ⟨S1x9, .f32⟩
  | 50 => ⟨S3200000x9, .f32⟩
  | 51 => ⟨S3200000x9, .f32⟩
  | 52 => ⟨S_, .f32⟩
  | 53 => ⟨S100000x9, .f32⟩
  | 54 => ⟨S3200000x1, .i32⟩
  | 55 => ⟨S100000x9, .f32⟩
  | 56 => ⟨S100000x25, .f32⟩
  | 57 => ⟨S100000x9, .f32⟩
  | 58 => ⟨S1x9, .f32⟩
  | 59 => ⟨S100000x9, .f32⟩
  | 60 => ⟨S100000x9, .f32⟩
  | 61 => ⟨S_, .f32⟩
  | 62 => ⟨S100000x9, .f32⟩
  | 63 => ⟨S100000x9, .f32⟩
  | 64 => ⟨S100000x9, .f32⟩
  | 65 => ⟨S1x9, .f32⟩
  | 66 => ⟨S100000x9, .f32⟩
  | 67 => ⟨S100000x9, .f32⟩
  | 68 => ⟨S_, .f32⟩
  | 69 => ⟨S100000x9, .f32⟩
  | 70 => ⟨S100000x9, .f32⟩
  | 71 => ⟨S100000x16, .f32⟩
  | 72 => ⟨S1x16, .f32⟩
  | 73 => ⟨S100000x16, .f32⟩
  | 74 => ⟨S100000x16, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000x16, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000x16, .f32⟩
  | 93 => ⟨S3200000x32, .f32⟩
  | 94 => ⟨S3200000x9, .f32⟩
  | 95 => ⟨S1x9, .f32⟩
  | 96 => ⟨S3200000x9, .f32⟩
  | 97 => ⟨S3200000x9, .f32⟩
  | 98 => ⟨S_, .f32⟩
  | 99 => ⟨S3200000x9, .f32⟩
  | 100 => ⟨S3200000x9, .f32⟩
  | 101 => ⟨S3200000x9, .f32⟩
  | 102 => ⟨S1x9, .f32⟩
  | 103 => ⟨S3200000x9, .f32⟩
  | 104 => ⟨S3200000x9, .f32⟩
  | 105 => ⟨S_, .f32⟩
  | 106 => ⟨S3200000x9, .f32⟩
  | 107 => ⟨S3200000x9, .f32⟩
  | 108 => ⟨S3200000x9, .f32⟩
  | 109 => ⟨S1x9, .f32⟩
  | 110 => ⟨S3200000x9, .f32⟩
  | 111 => ⟨S3200000x9, .f32⟩
  | 112 => ⟨S_, .f32⟩
  | 113 => ⟨S100000x9, .f32⟩
  | 114 => ⟨S3200000x1, .i32⟩
  | 115 => ⟨S100000x9, .f32⟩
  | 116 => ⟨S100000x25, .f32⟩
  | 117 => ⟨S100000x9, .f32⟩
  | 118 => ⟨S1x9, .f32⟩
  | 119 => ⟨S100000x9, .f32⟩
  | 120 => ⟨S100000x9, .f32⟩
  | 121 => ⟨S_, .f32⟩
  | 122 => ⟨S100000x9, .f32⟩
  | 123 => ⟨S100000x9, .f32⟩
  | 124 => ⟨S100000x9, .f32⟩
  | 125 => ⟨S1x9, .f32⟩
  | 126 => ⟨S100000x9, .f32⟩
  | 127 => ⟨S100000x9, .f32⟩
  | _ => ⟨S100000x16, .f32⟩

abbrev hbmTy0_1 (i : Nat) : BufTy := match i % 128 with
  | 0 => ⟨S_, .f32⟩
  | 1 => ⟨S100000x9, .f32⟩
  | 2 => ⟨S100000x9, .f32⟩
  | 3 => ⟨S100000x16, .f32⟩
  | 4 => ⟨S1x16, .f32⟩
  | 5 => ⟨S100000x16, .f32⟩
  | 6 => ⟨S100000x16, .f32⟩
  | 7 => ⟨S_, .i32⟩
  | 8 => ⟨S3200000, .i32⟩
  | 9 => ⟨S3200000, .i1⟩
  | 10 => ⟨S_, .i32⟩
  | 11 => ⟨S3200000, .i32⟩
  | 12 => ⟨S3200000, .i32⟩
  | 13 => ⟨S3200000, .i32⟩
  | 14 => ⟨S3200000x1, .i32⟩
  | 15 => ⟨S3200000x16, .f32⟩
  | 16 => ⟨S_, .i32⟩
  | 17 => ⟨S3200000, .i32⟩
  | 18 => ⟨S3200000, .i1⟩
  | 19 => ⟨S_, .i32⟩
  | 20 => ⟨S3200000, .i32⟩
  | 21 => ⟨S3200000, .i32⟩
  | 22 => ⟨S3200000, .i32⟩
  | 23 => ⟨S3200000x1, .i32⟩
  | 24 => ⟨S3200000x16, .f32⟩
  | 25 => ⟨S3200000x32, .f32⟩
  | 26 => ⟨S3200000x9, .f32⟩
  | 27 => ⟨S1x9, .f32⟩
  | 28 => ⟨S3200000x9, .f32⟩
  | 29 => ⟨S3200000x9, .f32⟩
  | 30 => ⟨S_, .f32⟩
  | 31 => ⟨S3200000x9, .f32⟩
  | 32 => ⟨S3200000x9, .f32⟩
  | 33 => ⟨S3200000x9, .f32⟩
  | 34 => ⟨S1x9, .f32⟩
  | 35 => ⟨S3200000x9, .f32⟩
  | 36 => ⟨S3200000x9, .f32⟩
  | 37 => ⟨S_, .f32⟩
  | 38 => ⟨S3200000x9, .f32⟩
  | 39 => ⟨S3200000x9, .f32⟩
  | 40 => ⟨S3200000x9, .f32⟩
  | 41 => ⟨S1x9, .f32⟩
  | 42 => ⟨S3200000x9, .f32⟩
  | 43 => ⟨S3200000x9, .f32⟩
  | 44 => ⟨S_, .f32⟩
  | 45 => ⟨S100000x9, .f32⟩
  | 46 => ⟨S3200000x1, .i32⟩
  | 47 => ⟨S100000x9, .f32⟩
  | 48 => ⟨S100000x25, .f32⟩
  | 49 => ⟨S100000x9, .f32⟩
  | 50 => ⟨S1x9, .f32⟩
  | 51 => ⟨S100000x9, .f32⟩
  | 52 => ⟨S100000x9, .f32⟩
  | 53 => ⟨S_, .f32⟩
  | 54 => ⟨S100000x9, .f32⟩
  | 55 => ⟨S100000x9, .f32⟩
  | 56 => ⟨S100000x9, .f32⟩
  | 57 => ⟨S1x9, .f32⟩
  | 58 => ⟨S100000x9, .f32⟩
  | 59 => ⟨S100000x9, .f32⟩
  | 60 => ⟨S_, .f32⟩
  | 61 => ⟨S100000x9, .f32⟩
  | 62 => ⟨S100000x9, .f32⟩
  | 63 => ⟨S100000x16, .f32⟩
  | 64 => ⟨S1x16, .f32⟩
  | 65 => ⟨S100000x16, .f32⟩
  | 66 => ⟨S100000x16, .f32⟩
  | _ => ⟨S100000x16, .f32⟩

abbrev hbmTy (i : Nat) : BufTy := match i / 128 with
  | 0 => hbmTy0_0 i
  | 1 => hbmTy0_1 i
  | _ => ⟨S100000x16, .f32⟩

abbrev bufTy : (tb : Table) → Fin (tcTables nBuf tb) → BufTy
  | .hbm, ⟨i, _⟩ => hbmTy i
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_v0 : Ref sig .tc := ⟨.hbm, 16, rfl⟩
abbrev main_v1 : Ref sig .tc := ⟨.hbm, 17, rfl⟩
abbrev main_c_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_v8 : Ref sig .tc := ⟨.hbm, 26, rfl⟩
abbrev main_c_2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_call2_cst : Ref sig .tc := ⟨.hbm, 61, rfl⟩
abbrev main_call2_v0 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call3_cst : Ref sig .tc := ⟨.hbm, 68, rfl⟩
abbrev main_call3_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_c_3 : Ref sig .tc := ⟨.hbm, 75, rfl⟩
abbrev main_v47 : Ref sig .tc := ⟨.hbm, 76, rfl⟩
abbrev main_v48 : Ref sig .tc := ⟨.hbm, 77, rfl⟩
abbrev main_c_4 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_c_5 : Ref sig .tc := ⟨.hbm, 84, rfl⟩
abbrev main_v54 : Ref sig .tc := ⟨.hbm, 85, rfl⟩
abbrev main_v55 : Ref sig .tc := ⟨.hbm, 86, rfl⟩
abbrev main_c_6 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call4_cst : Ref sig .tc := ⟨.hbm, 98, rfl⟩
abbrev main_call4_v0 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_call5_cst : Ref sig .tc := ⟨.hbm, 105, rfl⟩
abbrev main_call5_v0 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_7 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_call6_cst : Ref sig .tc := ⟨.hbm, 121, rfl⟩
abbrev main_call6_v0 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_call7_cst : Ref sig .tc := ⟨.hbm, 128, rfl⟩
abbrev main_call7_v0 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_8 : Ref sig .tc := ⟨.hbm, 135, rfl⟩
abbrev main_v94 : Ref sig .tc := ⟨.hbm, 136, rfl⟩
abbrev main_v95 : Ref sig .tc := ⟨.hbm, 137, rfl⟩
abbrev main_c_9 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_c_10 : Ref sig .tc := ⟨.hbm, 144, rfl⟩
abbrev main_v101 : Ref sig .tc := ⟨.hbm, 145, rfl⟩
abbrev main_v102 : Ref sig .tc := ⟨.hbm, 146, rfl⟩
abbrev main_c_11 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_call8_cst : Ref sig .tc := ⟨.hbm, 158, rfl⟩
abbrev main_call8_v0 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_call9_cst : Ref sig .tc := ⟨.hbm, 165, rfl⟩
abbrev main_call9_v0 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_12 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_call10_cst : Ref sig .tc := ⟨.hbm, 181, rfl⟩
abbrev main_call10_v0 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_call11_cst : Ref sig .tc := ⟨.hbm, 188, rfl⟩
abbrev main_call11_v0 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩

abbrev nD : Nat := 1
abbrev τ : Topo := Topo.v7x

variable {F : FTy → Type} [FloatOps F]

class Facts₀ : Prop where
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x16_S3200000x16_S3200000x32_d1 : Shape.Concatenates [S3200000x16, S3200000x16] S3200000x32 1
  bcast_S9_S1x9_1 : S9.BroadcastsInDim S1x9 (![1] : Fin 1 → Fin S1x9.rank)
  bcast_S1x9_S3200000x9_0_1 : S1x9.BroadcastsInDim S3200000x9 (![0, 1] : Fin 2 → Fin S3200000x9.rank)
  bcast_S_S3200000x9 : S_.BroadcastsInDim S3200000x9 (![] : Fin 0 → Fin S3200000x9.rank)
  bcast_S_S100000x9 : S_.BroadcastsInDim S100000x9 (![] : Fin 0 → Fin S100000x9.rank)
  concatenates_S100000x16_S100000x9_S100000x25_d1 : Shape.Concatenates [S100000x16, S100000x9] S100000x25 1
  bcast_S1x9_S100000x9_0_1 : S1x9.BroadcastsInDim S100000x9 (![0, 1] : Fin 2 → Fin S100000x9.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x16_S3200000x1_S3200000x16_1_0_n_n_0_1_116_wf : GatherDims.WF S100000x16 S3200000x1 S3200000x16 [1] [0] [] [0] [] 1 ![1, 16]
  dot_S3200000x32_S32x9_S3200000x9_1_0_0_1_n_n_wf : DotDims.WF S3200000x32 S32x9 S3200000x9 [1] [0] [0] [1] [] []
  dot_S3200000x9_S9x9_S3200000x9_1_0_0_1_n_n_wf : DotDims.WF S3200000x9 S9x9 S3200000x9 [1] [0] [0] [1] [] []
  scatter_S100000x9_S3200000x1_S3200000x9_1_0_0_1_wf : ScatterDims.WF S100000x9 S3200000x1 S3200000x9 [1] [0] [0] 1
  dot_S100000x25_S25x9_S100000x9_1_0_0_1_n_n_wf : DotDims.WF S100000x25 S25x9 S100000x9 [1] [0] [0] [1] [] []
  dot_S100000x9_S9x9_S100000x9_1_0_0_1_n_n_wf : DotDims.WF S100000x9 S9x9 S100000x9 [1] [0] [0] [1] [] []
  dot_S100000x9_S9x16_S100000x16_1_0_0_1_n_n_wf : DotDims.WF S100000x9 S9x16 S100000x16 [1] [0] [0] [1] [] []

variable [Facts₀]

def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def dot_S3200000x32_S32x9_S3200000x9_1_0_0_1_n_n : DotDims S3200000x32 S32x9 S3200000x9 where
  lhsContracting := [1]
  rhsContracting := [0]
  lhsNonContracting := [0]
  rhsNonContracting := [1]
  lhsBatch := []
  rhsBatch := []
  wf := dot_S3200000x32_S32x9_S3200000x9_1_0_0_1_n_n_wf
def dot_S3200000x9_S9x9_S3200000x9_1_0_0_1_n_n : DotDims S3200000x9 S9x9 S3200000x9 where
  lhsContracting := [1]
  rhsContracting := [0]
  lhsNonContracting := [0]
  rhsNonContracting := [1]
  lhsBatch := []
  rhsBatch := []
  wf := dot_S3200000x9_S9x9_S3200000x9_1_0_0_1_n_n_wf
def scatter_S100000x9_S3200000x1_S3200000x9_1_0_0_1 : ScatterDims S100000x9 S3200000x1 S3200000x9 where
  updateWindowDims := [1]
  insertedWindowDims := [0]
  scatterDimsToOperandDims := [0]
  indexVectorDim := 1
  wf := scatter_S100000x9_S3200000x1_S3200000x9_1_0_0_1_wf
def dot_S100000x25_S25x9_S100000x9_1_0_0_1_n_n : DotDims S100000x25 S25x9 S100000x9 where
  lhsContracting := [1]
  rhsContracting := [0]
  lhsNonContracting := [0]
  rhsNonContracting := [1]
  lhsBatch := []
  rhsBatch := []
  wf := dot_S100000x25_S25x9_S100000x9_1_0_0_1_n_n_wf
def dot_S100000x9_S9x9_S100000x9_1_0_0_1_n_n : DotDims S100000x9 S9x9 S100000x9 where
  lhsContracting := [1]
  rhsContracting := [0]
  lhsNonContracting := [0]
  rhsNonContracting := [1]
  lhsBatch := []
  rhsBatch := []
  wf := dot_S100000x9_S9x9_S100000x9_1_0_0_1_n_n_wf
def dot_S100000x9_S9x16_S100000x16_1_0_0_1_n_n : DotDims S100000x9 S9x16 S100000x16 where
  lhsContracting := [1]
  rhsContracting := [0]
  lhsNonContracting := [0]
  rhsNonContracting := [1]
  lhsBatch := []
  rhsBatch := []
  wf := dot_S100000x9_S9x16_S100000x16_1_0_0_1_n_n_wf

class Facts : Prop extends Facts₀ where

variable [Facts]
-- ==== Proof.K.FrameCommon.lean ====
import proofs.«127178_j23579370455142_2_alg».proof.Proof.Gen.Kernel.Launch
import proofs.«127178_j23579370455142_2_alg».proof.Proof.Gen.Kernel.Skeleton
import proofs.«127178_j23579370455142_2_alg».proof.Proof.Gen.Kernel.Points
import proofs.«127178_j23579370455142_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

abbrev UU : Type := UR sig nD τ × UR sig nD τ

local notation "𝕄" => MT nD τ sig Unit (Elt F) ℕ UU ℕ

abbrev EPm : Emb (UR sig nD τ) (MT nD τ sig Unit (Elt F) ℕ UU ℕ) := embR

variable (m : (ℓ : Loc nD τ sig) → Buf (Elt F) ℓ)

abbrev 𝒱₀ : Variants := Variants.none
abbrev L : GSem nD τ sig → Finset Unit := fun _ => ∅
abbrev lv : GSem nD τ sig → Unit → ℕ := fun _ _ => 0

abbrev argRefs : List (Ref sig .tc) := [main_arg0, main_arg1, main_arg2, main_arg3, main_arg4, main_arg5, main_arg6, main_arg7, main_arg8, main_arg9, main_arg10, main_arg11, main_arg12, main_arg13, main_arg14]

def Keeps (c : Dev nD) (W : Valuation τ sig (Elt F)) : Prop := ∀ r ∈ argRefs, W (Proc.devRef .tc r) = m ((c : Thread nD τ).loc r)

def ghostOf (p : Fin 6) (c : Dev nD) : sProp 𝕄 :=
  iprop(Pipeline.cellsGhost (Pipeline.pin (pcfgs (F := F)) adm) (EPm (F := F)) p c ∗ Pipeline.toksInit (Pipeline.pin (pcfgs (F := F)) adm) (EPm (F := F)) p c)

def ghostOn (S : Finset (Fin 6)) (c : Dev nD) : sProp 𝕄 := bigSep S fun p => ghostOf (F := F) p c

theorem ghostOn_insert {S : Finset (Fin 6)} {p : Fin 6} (h : p ∉ S) (c : Dev nD) :
    (ghostOn (F := F) (insert p S) c : sProp 𝕄) = iprop(ghostOf (F := F) p c ∗ ghostOn (F := F) S c) := by
  unfold ghostOn; exact bigSep_insert h

abbrev Rr (c : Dev nD) : sProp 𝕄 := iprop((∃ r, prngReg c r) ∗ ∃ W, owes (c : Thread nD τ) (0 : CellTallies nD τ sig Unit) W)

def TS (S : Finset (Fin 6)) (c : Dev nD) : sProp 𝕄 :=
  iprop(∃ W : Valuation τ sig (Elt F), ⌜Keeps m c W⌝ ∗ StableHlo.held (c : Thread nD τ) (Pipeline.ucRefs τ sig) W ∗ Rr c ∗ ghostOn (F := F) S c)

abbrev pix0 : Fin 6 := 0
abbrev pix1 : Fin 6 := 1
abbrev pix2 : Fin 6 := 2
abbrev pix3 : Fin 6 := 3
abbrev pix4 : Fin 6 := 4
abbrev pix5 : Fin 6 := 5

set_option backward.isDefEq.respectTransparency.types false in
def hostSeg (S : Finset (Fin 6)) (ops : List (HloOp τ sig (Elt F))) (Wl : List (Ref sig .tc))
    (hsub : ops.Forall fun op => op.bufs ⊆ StableHlo.tcRefs τ sig) (hfresh : ops.Forall fun op => op.fresh = ∅)
    (hwr : ops.Forall fun op => op.writes ⊆ (Wl.map (Proc.devRef (τ := τ) .tc)).toFinset)
    (hargs : ∀ r ∈ argRefs, r ∉ Wl) :
    Pipeline.HostSeg (Name := ℕ) (U := UU) (pcfgs (F := F)) defs₀ 𝒱₀ L lv where
  prog := StableHlo.seq ops
  pre := TS m S
  post := TS m S
  run c {β} k K := by
    unfold TS
    iintro ⟨Hk, Hbd, Hpre, -⟩
    icases Hpre with ⟨%W, %hW, Hh, HR⟩
    have hseq := StableHlo.wp_seq (defs := Pipeline.defs (pcfgs (F := F)) defs₀) (Variants.lift 𝒱₀) none Set.univ c (Pipeline.ucRefs τ sig) k (K := K) ops
      (fun op h => Pipeline.sub_ucRefs op ((List.forall_iff_forall_mem.mp hsub) op h))
      (fun op h => (List.forall_iff_forall_mem.mp hfresh) op h) W
    iapply hseq $$ [Hbd Hh]
    · isplitl [Hbd] <;> iassumption
    iintro ⟨Hbd, Hh⟩
    iapply Hk
    isplitl [Hbd]; · iexact Hbd
    iexists (StableHlo.after ops W)
    isplitr
    · ipureintro; intro r hr
      exact (StableHlo.after_of_writes_sub ops _ hwr (hargs r hr)).trans (hW r hr)
    isplitl [Hh]; · iexact Hh
    iexact HR

end Cert.Kernel.Fr

end
-- ==== Proof.K.Reg.lean ====
import proofs.«127178_j23579370455142_2_alg».proof.Proof.K.FrameCommon

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (m : (ℓ : Loc nD τ sig) → Buf (Elt F) ℓ)

abbrev pc (F : FTy → Type) [FloatOps F] (p : Fin 6) : Cfg sig Λ₀ := Pipeline.pin (pcfgs (F := F)) adm p

-- Every pipeline's data at entry contents `W`: the arrays as found, nothing said of what a body leaves.
def rd (W : Valuation τ sig (Elt F)) (p : Fin 6) (c : Dev nD) : RDat τ (Elt F) Unit ℕ UU ℕ (pc F p) c where
  A w := W (Pipeline.arrRef (pc F p).spec w)
  after _ _ _ _ := True
  Φ _ := Pipeline.ΦA (pc F p).spec c
  q _ := fullShare
  owed _ := 0

set_option backward.isDefEq.respectTransparency.types false in
-- A kernel region entered from any contents that keep the arguments leaves such contents: no argument is one of its arrays.
def regRec (p : Fin 6) (lf : Pipeline.LaunchFacts (nD := nD) (τ := τ) cfgs p)
    (hbody : ∀ W c, (rd (F := F) W p c).BodyObligation (defs₀ (F := F)) 𝒱₀ () Set.univ)
    (hne : ∀ r ∈ argRefs, ∀ w, Pipeline.arrRef (pc F p).spec w ≠ r)
    (W : Valuation τ sig (Elt F)) (S : Finset (Fin 6)) :
    Pipeline.RDat.RegionSeg (pcfgs (F := F)) adm (rd W) () defs₀ 𝒱₀ L lv p where
  win := lf.win.to₀
  block_pos := lf.block_pos
  stage_whole := lf.stage_whole
  K := PEmpty
  osem k := k.elim
  ho := Pipeline.OwnSemFacts.none _
  hbody c := hbody W c
  hwaits := Pipeline.RDat.hwaits_of_owed_zero _ _ _ _ L lv p fun _ _ => rfl
  pre c := iprop(⌜Keeps m c W⌝ ∗ StableHlo.held (c : Thread nD τ) (Pipeline.ucRefs τ sig) W ∗ Rr c ∗ ghostOn (F := F) S c)
  post c := TS m S c
  X c := iprop(∃ r, prngReg c r)
  Y c := iprop(∃ r, prngReg c r)
  Z c := iprop(⌜Keeps m c W⌝ ∗ Pipeline.unscopedRest (Ix := Unit) (Name := ℕ) (U := UU) (Lvl := ℕ) (pc F p).spec c (fun b => W b) ∗ ghostOn (F := F) S c)
  hentry c := by
    rw [Pipeline.ownSems0_none]
    have hsplit := Pipeline.RDat.arrays_of_unscopedBufs (p := p) (pcfgs (F := F)) adm (rd W) lf.win lf.arr_whole c
      ((rd W p c).share_full fun _ => rfl) (fun b => W b) fun _ => rfl
    rw [Pipeline.unscopedBufs_held] at hsplit
    iintro ⟨Hpre, -, -⟩
    icases Hpre with ⟨%hW, Hub, HR, Hg⟩
    icases HR with ⟨Hp, HO⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W', HO⟩; iexists W'; isplitr; · ipureintro; exact fun _ _ => Or.inl trivial
      iexact HO
    isplitl [Hp]; · iexact Hp
    isplitr; · ipureintro; exact hW
    isplitl [Hrest]; · iexact Hrest
    iexact Hg
  hin c := by
    rw [show (rd W p c).Φ 0 = Pipeline.ΦA (pc F p).spec c from rfl]; unfold Pipeline.ΦA
    iintro ⟨Hp, -, Hr⟩
    isplitl [Hr]; · iexact Hr
    iexact Hp
  hout c := by
    rw [Pipeline.ownSems0_none, show (rd W p c).Φ (Fin.last _) = Pipeline.ΦA (pc F p).spec c from rfl]; unfold Pipeline.ΦA
    iintro ⟨Hr, Hp⟩
    isplitl [Hp]; · iexact Hp
    isplitr; · iempintro
    iexact Hr
  hexit c := by
    have harrAt : ((rd W p c).arraysAt (pc F p).N : sProp 𝕄)
        ⊢ iprop(∃ A, ⌜∀ w, (rd W p c).ArrAt w (pc F p).N (A w)⌝ ∗ Pipeline.arrPts (pc F p).spec c A) := by
      unfold RDat.arraysAt
      iintro Ha
      ihave Ha' := (BI.bigSep_exists_pi Finset.univ (fun w F' => iprop(⌜(rd W p c).ArrAt w (pc F p).N F'⌝
          ∗ ((pc F p).win w).arr.view.loc (c : Thread nD τ) ↦[((pc F p).win w).arr.view.set]{(rd W p c).share w} F'))) $$ Ha
      icases Ha' with ⟨%A, Ha⟩
      ihave Ha2 := (BI.bigSep_pure_sep Finset.univ (fun w => (rd W p c).ArrAt w (pc F p).N (A w))
          (fun w => ((pc F p).win w).arr.view.loc (c : Thread nD τ) ↦[((pc F p).win w).arr.view.set]{(rd W p c).share w} A w)) $$ Ha
      icases Ha2 with ⟨%hA', Ha⟩
      iexists A; isplitr; · ipureintro; exact fun w => hA' w (Finset.mem_univ w)
      unfold Pipeline.arrPts
      iapply (Entails.of_eq (bigSep_congr (fun w _ => by
            have h1 : ((pc F p).win w).arr.view.set = Finset.univ := (lf.arr_whole w).set_eq_univ
            have h2 : (rd W p c).share w = fullShare := (rd W p c).share_full (fun _ => rfl) w
            rw [h1, h2]) :
          (bigSep Finset.univ fun w => (((pc F p).win w).arr.view.loc (c : Thread nD τ) ↦[((pc F p).win w).arr.view.set]{(rd W p c).share w} A w : sProp 𝕄))
            = bigSep Finset.univ fun w => (((c : Thread nD τ).loc (Pipeline.arrRef (pc F p).spec w)) ↦{fullShare} A w : sProp 𝕄)))
      iexact Ha
    have hjoin : ∀ A0, iprop(Pipeline.arrPts (pc F p).spec c A0 ∗ Pipeline.unscopedRest (Ix := Unit) (Name := ℕ) (U := UU) (Lvl := ℕ) (pc F p).spec c (fun b => W b))
        ⊢ (StableHlo.held (c : Thread nD τ) (Pipeline.ucRefs τ sig) (Pipeline.withArrays (pc F p).spec c W A0) : sProp 𝕄) := fun A0 => by
      rw [← Pipeline.unscopedBufs_held, Pipeline.unscopedBufs_split cfgs p lf.win.arr_unscoped lf.win.arr_inj c]
      unfold Pipeline.arrPts
      refine sep_mono (Entails.of_eq (bigSep_congr fun w _ => ?_)) (Entails.of_eq ?_)
      · exact congrArg (fun x => (((c : Thread nD τ).loc (Pipeline.arrRef (pc F p).spec w)) ↦{fullShare} x : sProp 𝕄))
          (Pipeline.withArrays_arr (pc F p).spec lf.win.arr_inj c W A0 w).symm
      · unfold Pipeline.unscopedRest
        exact bigSep_congr fun b hb => congrArg (fun x => (((c : Thread nD τ).loc b) ↦{fullShare} x : sProp 𝕄))
          (Pipeline.withArrays_of_ne (pc F p).spec c W A0 b (fun w e => (Finset.mem_sdiff.mp hb).2 (Finset.mem_image.mpr ⟨w, Finset.mem_univ _, e⟩))).symm
    iintro ⟨Ha, HO, HY, HZ⟩
    icases HZ with ⟨%hW, Hrest, Hg⟩
    ihave Ha' := harrAt $$ Ha
    icases Ha' with ⟨%A, %hA', Ha⟩
    imodintro
    unfold TS
    iexists (Pipeline.withArrays (pc F p).spec c W A)
    isplitr
    · ipureintro; intro r hr
      exact (Pipeline.withArrays_of_ne (pc F p).spec c W A r (hne r hr)).trans (hW r hr)
    isplitl [Ha Hrest]
    · iapply (hjoin A)
      isplitl [Ha] <;> iassumption
    isplitl [HY HO]
    · isplitl [HY]; · iexact HY
      unfold Pipeline.RDat.owesAt Pipeline.owesWithin
      icases HO with ⟨%W', -, HO⟩; iexists W'; iexact HO
    iexact Hg

set_option backward.isDefEq.respectTransparency.types false in
def regSeg (p : Fin 6) (lf : Pipeline.LaunchFacts (nD := nD) (τ := τ) cfgs p)
    (hbody : ∀ W c, (rd (F := F) W p c).BodyObligation (defs₀ (F := F)) 𝒱₀ () Set.univ)
    (hne : ∀ r ∈ argRefs, ∀ w, Pipeline.arrRef (pc F p).spec w ≠ r) (S : Finset (Fin 6)) (h0 : p ∉ S) : Pipeline.HostSeg (Name := ℕ) (U := UU) (pcfgs (F := F)) defs₀ 𝒱₀ L lv where
  prog := Prog.lift (.customCall (Pipeline.entry p) ())
  pre := TS m (insert p S)
  post := TS m S
  run c {β} k K := by
    unfold TS
    rw [ghostOn_insert h0]
    iintro ⟨Hk, Hbd, Hpre, Hla⟩
    icases Hpre with ⟨%W, %hW, Hh, HR, Hg⟩
    icases Hg with ⟨Hg0, HgS⟩
    have hwp := (regRec m p lf hbody hne W S).wp (pcfgs (F := F)) adm (rd W) () cellOf_inj (EPm (F := F)) defs₀ 𝒱₀ L lv c none (fun u h => nomatch h) k K
    dsimp only [regRec] at hwp
    unfold TS at hwp
    rw [show (Prog.lift (.customCall (Pipeline.entry p) ()) >>= k : Prog (TpuEff nD τ sig (Elt F) (Pipeline.Sig Λ₀ (Fin 6) fun p => (pcfgs (F := F) p).Adm) .tc) β)
        = .op (.customCall (Pipeline.entry p) ()) k from rfl]
    iapply hwp
    isplitl [Hk]
    · iintro ⟨Hbd, Hpost⟩
      iapply Hk
      isplitl [Hbd]; · iexact Hbd
      iexact Hpost
    isplitl [Hbd]; · iexact Hbd
    isplitl [Hh HR HgS]
    · isplitr; · ipureintro; exact hW
      isplitl [Hh]; · iexact Hh
      isplitl [HR]; · iexact HR
      iexact HgS
    isplitl [Hla]; · iexact Hla
    unfold ghostOf
    iexact Hg0

end Cert.Kernel.Fr

end
-- ==== Proof.K.Edge0.lean ====
import proofs.«127178_j23579370455142_2_alg».proof.Proof.Gen.Kernel.Launch
import proofs.«127178_j23579370455142_2_alg».proof.Proof.Gen.Kernel.Skeleton
import proofs.«127178_j23579370455142_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {U : Type} [URA U]

local notation "𝕄" => MT nD τ sig Unit (Elt F) ℕ U ℕ

abbrev rX : Rect S32x32000 := Rect.unit (s := S32x32000) ![0, 0] S32x32000.size inb_S32x32000_S32x32000_0_0
abbrev rA : Rect S9x32 := Rect.unit (s := S9x32) ![0, 0] S9x32.size inb_S9x32_S9x32_0_0
abbrev rC : Rect S9x1 := Rect.unit (s := S9x1) ![0, 0] S9x1.size inb_S9x1_S9x1_0_0
abbrev rB : Rect S9x9 := Rect.unit (s := S9x9) ![0, 0] S9x9.size inb_S9x9_S9x9_0_0
abbrev rO : Rect S9x32000 := Rect.unit (s := S9x32000) ![0, 0] S9x32000.size inb_S9x32000_S9x32000_0_0

def out0_7 (x0 : Vec F S32x32000 .f32) (w1 : Vec F S9x32 .bf16) (c1 : Vec F S9x1 .f32) (w2 : Vec F S9x9 .bf16) (c2 : Vec F S9x1 .f32) (w3 : Vec F S9x9 .bf16) (c3 : Vec F S9x1 .f32) : Vec F S9x32000 .f32 :=
  View.canon [⟨rO, k0_pay1 (View.ld x0 rX) (View.ld w1 rA) (View.ld c1 rC) (View.ld w2 rB) (View.ld c2 rC) (View.ld w3 rB) (View.ld c3 rC)⟩]

theorem cover0_7 (p0 : Vec F S9x32000 .f32) (y : S9x32000.Idx) :
    ∃ pc ∈ ([⟨rO, p0⟩] : List (View.Piece (Elt F) S9x32000 .f32)), y ∈ pc.1.set :=
  View.cover_of_tiled [⟨rO, p0⟩] S9x32000.size (by rfl) y

-- Any function equal to this kernel (the three edge regions run one function under three names) computes the network of its seven inputs and changes none of them.
set_option maxHeartbeats 1000000 in
theorem sound_kernel0 {k : _} (hk : k = @cc0__edge_mlp_kernel F _) (c : Dev nD) (E : Set ℕ) (i : grid0.Coords)
    (arg1 : Memref sig .tc .vmem S32x32000 .f32) (harg1 : arg1.IsWhole) (arg2 : Memref sig .tc .vmem S9x32 .bf16) (harg2 : arg2.IsWhole)
    (arg3 : Memref sig .tc .vmem S9x1 .f32) (harg3 : arg3.IsWhole) (arg4 : Memref sig .tc .vmem S9x9 .bf16) (harg4 : arg4.IsWhole)
    (arg5 : Memref sig .tc .vmem S9x1 .f32) (harg5 : arg5.IsWhole) (arg6 : Memref sig .tc .vmem S9x9 .bf16) (harg6 : arg6.IsWhole)
    (arg7 : Memref sig .tc .vmem S9x1 .f32) (harg7 : arg7.IsWhole) (arg8 : Memref sig .tc .vmem S9x32000 .f32) (harg8 : arg8.IsWhole)
    (x0 : Vec F S32x32000 .f32) (w1 : Vec F S9x32 .bf16) (c1 : Vec F S9x1 .f32) (w2 : Vec F S9x9 .bf16) (c2 : Vec F S9x1 .f32) (w3 : Vec F S9x9 .bf16) (c3 : Vec F S9x1 .f32) (K : PUnit → sProp 𝕄) :
    iprop(owns (c : Thread nD τ) arg1 fullShare x0 ∗ owns (c : Thread nD τ) arg2 fullShare w1 ∗ owns (c : Thread nD τ) arg3 fullShare c1
        ∗ owns (c : Thread nD τ) arg4 fullShare w2 ∗ owns (c : Thread nD τ) arg5 fullShare c2 ∗ owns (c : Thread nD τ) arg6 fullShare w3
        ∗ owns (c : Thread nD τ) arg7 fullShare c3 ∗ (∃ d, owns (c : Thread nD τ) arg8 fullShare d)
        ∗ (iprop(owns (c : Thread nD τ) arg1 fullShare x0 ∗ owns (c : Thread nD τ) arg2 fullShare w1 ∗ owns (c : Thread nD τ) arg3 fullShare c1
            ∗ owns (c : Thread nD τ) arg4 fullShare w2 ∗ owns (c : Thread nD τ) arg5 fullShare c2 ∗ owns (c : Thread nD τ) arg6 fullShare w3
            ∗ owns (c : Thread nD τ) arg7 fullShare c3 ∗ owns (c : Thread nD τ) arg8 fullShare (out0_7 x0 w1 c1 w2 c2 w3 c3)) -∗ K ⟨⟩))
      ⊢ wp frame (wpE (defs₀ (F := F)) Variants.none c none) E
          (k i arg1 harg1 arg2 harg2 arg3 harg3 arg4 harg4 arg5 harg5 arg6 harg6 arg7 harg7 arg8 harg8) K := by
  subst hk
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

end Cert.Kernel.Hand

end
-- ==== Proof.K.Reg0.lean ====
import proofs.«127178_j23579370455142_2_alg».proof.Proof.K.Reg
import proofs.«127178_j23579370455142_2_alg».proof.Proof.K.Edge0

set_option maxRecDepth 16384

noncomputable section

namespace Cert.Kernel.Fr

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

theorem argRefs_ne0 : ∀ r ∈ argRefs, ∀ w, Pipeline.arrRef spec0 w ≠ r := by decide

-- The kernel's run from whatever the eight buffers hold: each is handed back at some contents.
theorem body0 (W : Valuation τ sig (Elt F)) (c : Dev nD) : (rd W pix0 c).BodyObligation (defs₀ (F := F)) 𝒱₀ () Set.univ := fun t Y _ => by
  rw [bigSep_W0, bigSep_W0]
  show _ ⊢ wp frame (wpE (defs₀ (F := F)) 𝒱₀ c none) Set.univ (bodyAt0 t) _
  rw [show (rd W pix0 c).Φ t.succ = (rd W pix0 c).Φ t.castSucc from rfl,
    show (rd W pix0 c).owesAt () t.succ = (rd W pix0 c).owesAt () t.castSucc from rfl]
  iintro ⟨HΦ, Ho, H0, H1, H2, H3, H4, H5, H6, H7⟩
  unfold bodyAt0
  iapply (sound_kernel0 (F := F) (U := UU) (k := @cc0__edge_mlp_kernel F _) rfl c Set.univ _ _ _ _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists (Y 7); iexact H7
  iintro ⟨H0, H1, H2, H3, H4, H5, H6, H7⟩
  isplitl [HΦ]; · iexact HΦ
  isplitl [Ho]; · iexact Ho
  isplitl [H0]; · iexists (Y 0); isplitr; · ipureintro; trivial
                  iexact H0
  isplitl [H1]; · iexists (Y 1); isplitr; · ipureintro; trivial
                  iexact H1
  isplitl [H2]; · iexists (Y 2); isplitr; · ipureintro; trivial
                  iexact H2
  isplitl [H3]; · iexists (Y 3); isplitr; · ipureintro; trivial
                  iexact H3
  isplitl [H4]; · iexists (Y 4); isplitr; · ipureintro; trivial
                  iexact H4
  isplitl [H5]; · iexists (Y 5); isplitr; · ipureintro; trivial
                  iexact H5
  isplitl [H6]; · iexists (Y 6); isplitr; · ipureintro; trivial
                  iexact H6
  iexists (out0_7 (Y 0) (Y 1) (Y 2) (Y 3) (Y 4) (Y 5) (Y 6)); isplitr; · ipureintro; trivial
  iexact H7

end Cert.Kernel.Fr

end
-- ==== Proof.K.Node1.lean ====
import proofs.«127178_j23579370455142_2_alg».proof.Proof.Gen.Kernel.Launch
import proofs.«127178_j23579370455142_2_alg».proof.Proof.Gen.Kernel.Skeleton
import proofs.«127178_j23579370455142_2_alg».proof.Proof.Gen.Kernel.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {U : Type} [URA U]

local notation "𝕄" => MT nD τ sig Unit (Elt F) ℕ U ℕ

abbrev r1_x : Rect S25x25600 := Rect.unit (s := S25x25600) ![0, 0] S25x25600.size inb_S25x25600_S25x25600_0_0
abbrev r1_w1 : Rect S9x25 := Rect.unit (s := S9x25) ![0, 0] S9x25.size inb_S9x25_S9x25_0_0
abbrev r1_c : Rect S9x1 := Rect.unit (s := S9x1) ![0, 0] S9x1.size inb_S9x1_S9x1_0_0
abbrev r1_w2 : Rect S9x9 := Rect.unit (s := S9x9) ![0, 0] S9x9.size inb_S9x9_S9x9_0_0
abbrev r1_w3 : Rect S16x9 := Rect.unit (s := S16x9) ![0, 0] S16x9.size inb_S16x9_S16x9_0_0
abbrev r1_c3 : Rect S16x1 := Rect.unit (s := S16x1) ![0, 0] S16x1.size inb_S16x1_S16x1_0_0
abbrev r1_o : Rect S16x25600 := Rect.unit (s := S16x25600) ![0, 0] S16x25600.size inb_S16x25600_S16x25600_0_0

def out1_7 (x0 : Vec F S25x25600 .f32) (w1 : Vec F S9x25 .bf16) (c1 : Vec F S9x1 .f32) (w2 : Vec F S9x9 .bf16)
    (c2 : Vec F S9x1 .f32) (w3 : Vec F S16x9 .bf16) (c3 : Vec F S16x1 .f32) : Vec F S16x25600 .f32 :=
  View.canon [⟨r1_o, k1_pay1 (View.ld x0 r1_x) (View.ld w1 r1_w1) (View.ld c1 r1_c) (View.ld w2 r1_w2) (View.ld c2 r1_c)
    (View.ld w3 r1_w3) (View.ld c3 r1_c3)⟩]

theorem cover1_7 (p0 : Vec F S16x25600 .f32) (y : S16x25600.Idx) :
    ∃ pc ∈ ([⟨r1_o, p0⟩] : List (View.Piece (Elt F) S16x25600 .f32)), y ∈ pc.1.set :=
  View.cover_of_tiled [⟨r1_o, p0⟩] S16x25600.size (by rfl) y

set_option maxHeartbeats 1000000 in

-- Any function equal to this kernel (the three node regions run one function under three names) computes the perceptron of its seven inputs and changes none of them.
theorem sound_kernel1 {k : _} (hk : k = @cc1__node_mlp_kernel F _) (c : Dev nD) (E : Set ℕ) (i : grid1.Coords)
    (arg1 : Memref sig .tc .vmem S25x25600 .f32) (harg1 : arg1.IsWhole) (arg2 : Memref sig .tc .vmem S9x25 .bf16) (harg2 : arg2.IsWhole)
    (arg3 : Memref sig .tc .vmem S9x1 .f32) (harg3 : arg3.IsWhole) (arg4 : Memref sig .tc .vmem S9x9 .bf16) (harg4 : arg4.IsWhole)
    (arg5 : Memref sig .tc .vmem S9x1 .f32) (harg5 : arg5.IsWhole) (arg6 : Memref sig .tc .vmem S16x9 .bf16) (harg6 : arg6.IsWhole)
    (arg7 : Memref sig .tc .vmem S16x1 .f32) (harg7 : arg7.IsWhole) (arg8 : Memref sig .tc .vmem S16x25600 .f32) (harg8 : arg8.IsWhole)
    (x0 : Vec F S25x25600 .f32) (w1 : Vec F S9x25 .bf16) (c1 : Vec F S9x1 .f32) (w2 : Vec F S9x9 .bf16)
    (c2 : Vec F S9x1 .f32) (w3 : Vec F S16x9 .bf16) (c3 : Vec F S16x1 .f32) (K : PUnit → sProp 𝕄) :
    iprop(owns (c : Thread nD τ) arg1 fullShare x0 ∗ owns (c : Thread nD τ) arg2 fullShare w1 ∗ owns (c : Thread nD τ) arg3 fullShare c1
        ∗ owns (c : Thread nD τ) arg4 fullShare w2 ∗ owns (c : Thread nD τ) arg5 fullShare c2 ∗ owns (c : Thread nD τ) arg6 fullShare w3
        ∗ owns (c : Thread nD τ) arg7 fullShare c3 ∗ (∃ d, owns (c : Thread nD τ) arg8 fullShare d)
        ∗ (iprop(owns (c : Thread nD τ) arg1 fullShare x0 ∗ owns (c : Thread nD τ) arg2 fullShare w1 ∗ owns (c : Thread nD τ) arg3 fullShare c1
            ∗ owns (c : Thread nD τ) arg4 fullShare w2 ∗ owns (c : Thread nD τ) arg5 fullShare c2 ∗ owns (c : Thread nD τ) arg6 fullShare w3
            ∗ owns (c : Thread nD τ) arg7 fullShare c3 ∗ owns (c : Thread nD τ) arg8 fullShare (out1_7 x0 w1 c1 w2 c2 w3 c3)) -∗ K ⟨⟩))
      ⊢ wp frame (wpE (defs₀ (F := F)) Variants.none c none) E
          (k i arg1 harg1 arg2 harg2 arg3 harg3 arg4 harg4 arg5 harg5 arg6 harg6 arg7 harg7 arg8 harg8) K := by
  subst hk
  simp only [cc1__node_mlp_kernel_eq_skeleton]; unfold cc1__node_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_7 _)

end Cert.Kernel.Hand

end
-- ==== Proof.K.Reg1.lean ====
import proofs.«127178_j23579370455142_2_alg».proof.Proof.K.Reg
import proofs.«127178_j23579370455142_2_alg».proof.Proof.K.Node1

set_option maxRecDepth 16384

noncomputable section

namespace Cert.Kernel.Fr

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

theorem argRefs_ne1 : ∀ r ∈ argRefs, ∀ w, Pipeline.arrRef spec1 w ≠ r := by decide

-- The kernel's run from whatever the eight buffers hold: each is handed back at some contents.
theorem body1 (W : Valuation τ sig (Elt F)) (c : Dev nD) : (rd W pix1 c).BodyObligation (defs₀ (F := F)) 𝒱₀ () Set.univ := fun t Y _ => by
  rw [bigSep_W1, bigSep_W1]
  show _ ⊢ wp frame (wpE (defs₀ (F := F)) 𝒱₀ c none) Set.univ (bodyAt1 t) _
  rw [show (rd W pix1 c).Φ t.succ = (rd W pix1 c).Φ t.castSucc from rfl,
    show (rd W pix1 c).owesAt () t.succ = (rd W pix1 c).owesAt () t.castSucc from rfl]
  iintro ⟨HΦ, Ho, H0, H1, H2, H3, H4, H5, H6, H7⟩
  unfold bodyAt1
  iapply (sound_kernel1 (F := F) (U := UU) (k := @cc1__node_mlp_kernel F _) rfl c Set.univ _ _ _ _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists (Y 7); iexact H7
  iintro ⟨H0, H1, H2, H3, H4, H5, H6, H7⟩
  isplitl [HΦ]; · iexact HΦ
  isplitl [Ho]; · iexact Ho
  isplitl [H0]; · iexists (Y 0); isplitr; · ipureintro; trivial
                  iexact H0
  isplitl [H1]; · iexists (Y 1); isplitr; · ipureintro; trivial
                  iexact H1
  isplitl [H2]; · iexists (Y 2); isplitr; · ipureintro; trivial
                  iexact H2
  isplitl [H3]; · iexists (Y 3); isplitr; · ipureintro; trivial
                  iexact H3
  isplitl [H4]; · iexists (Y 4); isplitr; · ipureintro; trivial
                  iexact H4
  isplitl [H5]; · iexists (Y 5); isplitr; · ipureintro; trivial
                  iexact H5
  isplitl [H6]; · iexists (Y 6); isplitr; · ipureintro; trivial
                  iexact H6
  iexists (out1_7 (Y 0) (Y 1) (Y 2) (Y 3) (Y 4) (Y 5) (Y 6)); isplitr; · ipureintro; trivial
  iexact H7

end Cert.Kernel.Fr

end
-- ==== Proof.K.Reg2.lean ====
import proofs.«127178_j23579370455142_2_alg».proof.Proof.K.Reg
import proofs.«127178_j23579370455142_2_alg».proof.Proof.K.Edge0

set_option maxRecDepth 16384

noncomputable section

namespace Cert.Kernel.Fr

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

theorem argRefs_ne2 : ∀ r ∈ argRefs, ∀ w, Pipeline.arrRef spec2 w ≠ r := by decide

-- The kernel's run from whatever the eight buffers hold: each is handed back at some contents.
theorem body2 (W : Valuation τ sig (Elt F)) (c : Dev nD) : (rd W pix2 c).BodyObligation (defs₀ (F := F)) 𝒱₀ () Set.univ := fun t Y _ => by
  rw [bigSep_W2, bigSep_W2]
  show _ ⊢ wp frame (wpE (defs₀ (F := F)) 𝒱₀ c none) Set.univ (bodyAt2 t) _
  rw [show (rd W pix2 c).Φ t.succ = (rd W pix2 c).Φ t.castSucc from rfl,
    show (rd W pix2 c).owesAt () t.succ = (rd W pix2 c).owesAt () t.castSucc from rfl]
  iintro ⟨HΦ, Ho, H0, H1, H2, H3, H4, H5, H6, H7⟩
  unfold bodyAt2
  iapply (sound_kernel0 (F := F) (U := UU) (k := @cc2__edge_mlp_kernel F _) rfl c Set.univ _ _ _ _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists (Y 7); iexact H7
  iintro ⟨H0, H1, H2, H3, H4, H5, H6, H7⟩
  isplitl [HΦ]; · iexact HΦ
  isplitl [Ho]; · iexact Ho
  isplitl [H0]; · iexists (Y 0); isplitr; · ipureintro; trivial
                  iexact H0
  isplitl [H1]; · iexists (Y 1); isplitr; · ipureintro; trivial
                  iexact H1
  isplitl [H2]; · iexists (Y 2); isplitr; · ipureintro; trivial
                  iexact H2
  isplitl [H3]; · iexists (Y 3); isplitr; · ipureintro; trivial
                  iexact H3
  isplitl [H4]; · iexists (Y 4); isplitr; · ipureintro; trivial
                  iexact H4
  isplitl [H5]; · iexists (Y 5); isplitr; · ipureintro; trivial
                  iexact H5
  isplitl [H6]; · iexists (Y 6); isplitr; · ipureintro; trivial
                  iexact H6
  iexists (out0_7 (Y 0) (Y 1) (Y 2) (Y 3) (Y 4) (Y 5) (Y 6)); isplitr; · ipureintro; trivial
  iexact H7

end Cert.Kernel.Fr

end
-- ==== Proof.K.Reg3.lean ====
import proofs.«127178_j23579370455142_2_alg».proof.Proof.K.Reg
import proofs.«127178_j23579370455142_2_alg».proof.Proof.K.Node1

set_option maxRecDepth 16384

noncomputable section

namespace Cert.Kernel.Fr

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

theorem argRefs_ne3 : ∀ r ∈ argRefs, ∀ w, Pipeline.arrRef spec3 w ≠ r := by decide

-- The kernel's run from whatever the eight buffers hold: each is handed back at some contents.
theorem body3 (W : Valuation τ sig (Elt F)) (c : Dev nD) : (rd W pix3 c).BodyObligation (defs₀ (F := F)) 𝒱₀ () Set.univ := fun t Y _ => by
  rw [bigSep_W3, bigSep_W3]
  show _ ⊢ wp frame (wpE (defs₀ (F := F)) 𝒱₀ c none) Set.univ (bodyAt3 t) _
  rw [show (rd W pix3 c).Φ t.succ = (rd W pix3 c).Φ t.castSucc from rfl,
    show (rd W pix3 c).owesAt () t.succ = (rd W pix3 c).owesAt () t.castSucc from rfl]
  iintro ⟨HΦ, Ho, H0, H1, H2, H3, H4, H5, H6, H7⟩
  unfold bodyAt3
  iapply (sound_kernel1 (F := F) (U := UU) (k := @cc3__node_mlp_kernel F _) rfl c Set.univ _ _ _ _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists (Y 7); iexact H7
  iintro ⟨H0, H1, H2, H3, H4, H5, H6, H7⟩
  isplitl [HΦ]; · iexact HΦ
  isplitl [Ho]; · iexact Ho
  isplitl [H0]; · iexists (Y 0); isplitr; · ipureintro; trivial
                  iexact H0
  isplitl [H1]; · iexists (Y 1); isplitr; · ipureintro; trivial
                  iexact H1
  isplitl [H2]; · iexists (Y 2); isplitr; · ipureintro; trivial
                  iexact H2
  isplitl [H3]; · iexists (Y 3); isplitr; · ipureintro; trivial
                  iexact H3
  isplitl [H4]; · iexists (Y 4); isplitr; · ipureintro; trivial
                  iexact H4
  isplitl [H5]; · iexists (Y 5); isplitr; · ipureintro; trivial
                  iexact H5
  isplitl [H6]; · iexists (Y 6); isplitr; · ipureintro; trivial
                  iexact H6
  iexists (out1_7 (Y 0) (Y 1) (Y 2) (Y 3) (Y 4) (Y 5) (Y 6)); isplitr; · ipureintro; trivial
  iexact H7

end Cert.Kernel.Fr

end
-- ==== Proof.K.Reg4.lean ====
import proofs.«127178_j23579370455142_2_alg».proof.Proof.K.Reg
import proofs.«127178_j23579370455142_2_alg».proof.Proof.K.Edge0

set_option maxRecDepth 16384

noncomputable section

namespace Cert.Kernel.Fr

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

theorem argRefs_ne4 : ∀ r ∈ argRefs, ∀ w, Pipeline.arrRef spec4 w ≠ r := by decide

-- The kernel's run from whatever the eight buffers hold: each is handed back at some contents.
theorem body4 (W : Valuation τ sig (Elt F)) (c : Dev nD) : (rd W pix4 c).BodyObligation (defs₀ (F := F)) 𝒱₀ () Set.univ := fun t Y _ => by
  rw [bigSep_W4, bigSep_W4]
  show _ ⊢ wp frame (wpE (defs₀ (F := F)) 𝒱₀ c none) Set.univ (bodyAt4 t) _
  rw [show (rd W pix4 c).Φ t.succ = (rd W pix4 c).Φ t.castSucc from rfl,
    show (rd W pix4 c).owesAt () t.succ = (rd W pix4 c).owesAt () t.castSucc from rfl]
  iintro ⟨HΦ, Ho, H0, H1, H2, H3, H4, H5, H6, H7⟩
  unfold bodyAt4
  iapply (sound_kernel0 (F := F) (U := UU) (k := @cc4__edge_mlp_kernel F _) rfl c Set.univ _ _ _ _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists (Y 7); iexact H7
  iintro ⟨H0, H1, H2, H3, H4, H5, H6, H7⟩
  isplitl [HΦ]; · iexact HΦ
  isplitl [Ho]; · iexact Ho
  isplitl [H0]; · iexists (Y 0); isplitr; · ipureintro; trivial
                  iexact H0
  isplitl [H1]; · iexists (Y 1); isplitr; · ipureintro; trivial
                  iexact H1
  isplitl [H2]; · iexists (Y 2); isplitr; · ipureintro; trivial
                  iexact H2
  isplitl [H3]; · iexists (Y 3); isplitr; · ipureintro; trivial
                  iexact H3
  isplitl [H4]; · iexists (Y 4); isplitr; · ipureintro; trivial
                  iexact H4
  isplitl [H5]; · iexists (Y 5); isplitr; · ipureintro; trivial
                  iexact H5
  isplitl [H6]; · iexists (Y 6); isplitr; · ipureintro; trivial
                  iexact H6
  iexists (out0_7 (Y 0) (Y 1) (Y 2) (Y 3) (Y 4) (Y 5) (Y 6)); isplitr; · ipureintro; trivial
  iexact H7

end Cert.Kernel.Fr

end
-- ==== Proof.K.Reg5.lean ====
import proofs.«127178_j23579370455142_2_alg».proof.Proof.K.Reg
import proofs.«127178_j23579370455142_2_alg».proof.Proof.K.Node1

set_option maxRecDepth 16384

noncomputable section

namespace Cert.Kernel.Fr

open Cert.Kernel Cert.Kernel.Gen Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

theorem argRefs_ne5 : ∀ r ∈ argRefs, ∀ w, Pipeline.arrRef spec5 w ≠ r := by decide

-- The kernel's run from whatever the eight buffers hold: each is handed back at some contents.
theorem body5 (W : Valuation τ sig (Elt F)) (c : Dev nD) : (rd W pix5 c).BodyObligation (defs₀ (F := F)) 𝒱₀ () Set.univ := fun t Y _ => by
  rw [bigSep_W5, bigSep_W5]
  show _ ⊢ wp frame (wpE (defs₀ (F := F)) 𝒱₀ c none) Set.univ (bodyAt5 t) _
  rw [show (rd W pix5 c).Φ t.succ = (rd W pix5 c).Φ t.castSucc from rfl,
    show (rd W pix5 c).owesAt () t.succ = (rd W pix5 c).owesAt () t.castSucc from rfl]
  iintro ⟨HΦ, Ho, H0, H1, H2, H3, H4, H5, H6, H7⟩
  unfold bodyAt5
  iapply (sound_kernel1 (F := F) (U := UU) (k := @cc5__node_mlp_kernel F _) rfl c Set.univ _ _ _ _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists (Y 7); iexact H7
  iintro ⟨H0, H1, H2, H3, H4, H5, H6, H7⟩
  isplitl [HΦ]; · iexact HΦ
  isplitl [Ho]; · iexact Ho
  isplitl [H0]; · iexists (Y 0); isplitr; · ipureintro; trivial
                  iexact H0
  isplitl [H1]; · iexists (Y 1); isplitr; · ipureintro; trivial
                  iexact H1
  isplitl [H2]; · iexists (Y 2); isplitr; · ipureintro; trivial
                  iexact H2
  isplitl [H3]; · iexists (Y 3); isplitr; · ipureintro; trivial
                  iexact H3
  isplitl [H4]; · iexists (Y 4); isplitr; · ipureintro; trivial
                  iexact H4
  isplitl [H5]; · iexists (Y 5); isplitr; · ipureintro; trivial
                  iexact H5
  isplitl [H6]; · iexists (Y 6); isplitr; · ipureintro; trivial
                  iexact H6
  iexists (out1_7 (Y 0) (Y 1) (Y 2) (Y 3) (Y 4) (Y 5) (Y 6)); isplitr; · ipureintro; trivial
  iexact H7

end Cert.Kernel.Fr

end
-- ==== Proof.K.Frame.lean ====
import proofs.«127178_j23579370455142_2_alg».proof.Proof.K.Reg0
import proofs.«127178_j23579370455142_2_alg».proof.Proof.K.Reg1
import proofs.«127178_j23579370455142_2_alg».proof.Proof.K.Reg2
import proofs.«127178_j23579370455142_2_alg».proof.Proof.K.Reg3
import proofs.«127178_j23579370455142_2_alg».proof.Proof.K.Reg4
import proofs.«127178_j23579370455142_2_alg».proof.Proof.K.Reg5

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (m : (ℓ : Loc nD τ sig) → Buf (Elt F) ℓ)

abbrev S6 : Finset (Fin 6) := ∅
abbrev S5 : Finset (Fin 6) := insert 5 S6
abbrev S4 : Finset (Fin 6) := insert 4 S5
abbrev S3 : Finset (Fin 6) := insert 3 S4
abbrev S2 : Finset (Fin 6) := insert 2 S3
abbrev S1 : Finset (Fin 6) := insert 1 S2
abbrev S0 : Finset (Fin 6) := insert 0 S1
theorem S0_univ : S0 = (Finset.univ : Finset (Fin 6)) := by decide

def jdat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

abbrev jdats : (p : Fin 6) → (c : Dev nD) → Dat τ (Elt F) Unit ℕ UU ℕ (Pipeline.pin (pcfgs (F := F)) adm p) c := fun _ c => jdat c

theorem args_notin0 : ∀ r ∈ argRefs, r ∉ hostOps0_W := by decide
theorem args_notin1 : ∀ r ∈ argRefs, r ∉ hostOps1_W := by decide
theorem args_notin2 : ∀ r ∈ argRefs, r ∉ hostOps2_W := by decide
theorem args_notin3 : ∀ r ∈ argRefs, r ∉ hostOps3_W := by decide
theorem args_notin4 : ∀ r ∈ argRefs, r ∉ hostOps4_W := by decide
theorem args_notin5 : ∀ r ∈ argRefs, r ∉ hostOps5_W := by decide
theorem args_notin6 : ∀ r ∈ argRefs, r ∉ hostOps6_W := by decide

abbrev segs : List (Pipeline.Seg (pcfgs (F := F)) adm (jdats (F := F)) () defs₀ 𝒱₀ L lv) :=
  [ .host (hostSeg m S0 hostOps0 hostOps0_W hostOps0_sub hostOps0_fresh hostOps0_writes args_notin0),
    .host (regSeg m pix0 launch0 body0 argRefs_ne0 S1 (by decide)),
    .host (hostSeg m S1 hostOps1 hostOps1_W hostOps1_sub hostOps1_fresh hostOps1_writes args_notin1),
    .host (regSeg m pix1 launch1 body1 argRefs_ne1 S2 (by decide)),
    .host (hostSeg m S2 hostOps2 hostOps2_W hostOps2_sub hostOps2_fresh hostOps2_writes args_notin2),
    .host (regSeg m pix2 launch2 body2 argRefs_ne2 S3 (by decide)),
    .host (hostSeg m S3 hostOps3 hostOps3_W hostOps3_sub hostOps3_fresh hostOps3_writes args_notin3),
    .host (regSeg m pix3 launch3 body3 argRefs_ne3 S4 (by decide)),
    .host (hostSeg m S4 hostOps4 hostOps4_W hostOps4_sub hostOps4_fresh hostOps4_writes args_notin4),
    .host (regSeg m pix4 launch4 body4 argRefs_ne4 S5 (by decide)),
    .host (hostSeg m S5 hostOps5 hostOps5_W hostOps5_sub hostOps5_fresh hostOps5_writes args_notin5),
    .host (regSeg m pix5 launch5 body5 argRefs_ne5 S6 (by decide)),
    .host (hostSeg m S6 hostOps6 hostOps6_W hostOps6_sub hostOps6_fresh hostOps6_writes args_notin6) ]

theorem main_run (c : Dev nD) : main (F := F) c = Pipeline.Seg.run (segs m) := (main_chain c).trans (by chain_rfl)

def Tn (c : Dev nD) : sProp 𝕄 :=
  iprop(∃ W : Valuation τ sig (Elt F), ⌜Keeps m c W⌝ ∗ StableHlo.held (c : Thread nD τ) (Pipeline.ucRefs τ sig) W ∗ ∃ r, prngReg c r)

theorem args_uc : ∀ r ∈ argRefs, (Proc.devRef .tc r : DevRef τ sig) ∈ Pipeline.ucRefs τ sig := fun r hr =>
  Finset.mem_filter.mpr ⟨StableHlo.devRef_mem_tcRefs r, (by revert r; decide : ∀ r ∈ argRefs, ¬ (Proc.devRef .tc r : DevRef τ sig).isScoped) r hr⟩

abbrev init₀ : UR sig nD τ := initOf (Pipeline.cells cfgs cellOf_inj) (Pipeline.launchToks cfgs cellOf_inj)

set_option backward.isDefEq.respectTransparency.types false in
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (jdats (F := F)) () cellOf_inj (embL : Emb (UR sig nD τ) 𝕄) defs₀ 𝒱₀ L lv m ρ main (segs m)
    (fun c Q => by rw [main_run m c])
    (by simp only [segs, Pipeline.Seg.pipes_host, Pipeline.Seg.pipes_nil]; exact List.nodup_nil)
    (O₀ := 0) (hL := fun _ _ => rfl) (G := fun c => ghostOn (F := F) S0 c)
    (u₀ := (init₀, init₀))
    (hu₀ := by
      have hghost : iprop((bigSep Finset.univ fun c : Dev nD => bigSep Finset.univ fun p => Pipeline.cellsGhost (Pipeline.pin (pcfgs (F := F)) adm) (EPm (F := F)) p c)
            ∗ (bigSep Finset.univ fun c : Dev nD => bigSep Finset.univ fun p => (Pipeline.toksInit (Pipeline.pin (pcfgs (F := F)) adm) (EPm (F := F)) p c : sProp 𝕄)))
          ⊢ bigSep Finset.univ fun c : Dev nD => ghostOn (F := F) S0 c := by
        rw [← bigSep_sep']
        exact bigSep_mono fun c _ => show iprop((bigSep Finset.univ fun p => Pipeline.cellsGhost (Pipeline.pin (pcfgs (F := F)) adm) (EPm (F := F)) p c)
              ∗ bigSep Finset.univ fun p => (Pipeline.toksInit (Pipeline.pin (pcfgs (F := F)) adm) (EPm (F := F)) p c : sProp 𝕄)) ⊢ ghostOn (F := F) S0 c
          from Entails.of_eq (by unfold ghostOn ghostOf; rw [S0_univ, bigSep_sep'])
      iintro Hu
      ihave Hu' := (ownU_pair init₀ init₀) $$ Hu
      icases Hu' with ⟨HuL, HuR⟩
      imod (Pipeline.fund_ghost (Pipeline.pin (pcfgs (F := F)) adm) (EPm (F := F)) cellOf_inj) $$ HuR with ⟨Hg, Ht⟩
      imodintro
      isplitl [HuL]; · iexact HuL
      iapply hghost
      isplitl [Hg] <;> iassumption)
    (T₀ := TS m S0) (Tₙ := Tn m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show TS m S6 c ⊢ iprop(Tn m c ∗ ∃ W, owes (c : Thread nD τ) (0 : CellTallies nD τ sig Unit) W)
      unfold TS Tn
      iintro ⟨%W, %hW, Hh, ⟨Hp, HO⟩, -⟩
      isplitr [HO]
      · iexists W; isplitr; · ipureintro; exact hW
        isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (fun b => m ((c : Dev nD), b))
        from Pipeline.unscopedBufs_held c (fun b => m ((c : Dev nD), b))]
      iintro ⟨⟨Hh, -, HO, -, Hp, HG⟩, -⟩
      imodintro
      unfold TS
      iexists (fun b => m ((c : Dev nD), b))
      isplitr; · ipureintro; exact fun _ _ => rfl
      isplitl [Hh]; · iexact Hh
      isplitl [Hp HO]
      · isplitl [Hp]; · iexists _; iexact Hp
        iexists ∅; iexact HO
      iexact HG)
    (QY := fun c s => ∀ r ∈ argRefs, s.mem ((c : Thread nD τ).loc r) = m ((c : Thread nD τ).loc r))
    (hfin := fun c s' => by
      unfold Tn
      iintro ⟨HT, HSI⟩
      icases HT with ⟨%W, %hW, Hh, -⟩
      unfold StableHlo.held
      ihave Hr := (pointsTo_read_all (Pipeline.ucRefs τ sig) (fun b => (((c : Thread nD τ)).1, b)) W s') $$ [Hh HSI]
      · isplitl [Hh] <;> iassumption
      icases Hr with ⟨%h, HSI⟩
      imodintro
      isplitr
      · ipureintro; intro r hr
        exact (h (Proc.devRef .tc r) (args_uc r hr)).trans (hW r hr)
      · iexact HSI)
    (hQ := fun s h c => ⟨h c main_arg0 (by decide), h c main_arg1 (by decide), h c main_arg2 (by decide), h c main_arg3 (by decide), h c main_arg4 (by decide), h c main_arg5 (by decide), h c main_arg6 (by decide), h c main_arg7 (by decide), h c main_arg8 (by decide), h c main_arg9 (by decide), h c main_arg10 (by decide), h c main_arg11 (by decide), h c main_arg12 (by decide), h c main_arg13 (by decide), h c main_arg14 (by decide)⟩)

end Cert.Kernel.Fr

end
-- ==== Proof.KI.Edge0.lean ====
import proofs.«127178_j23579370455142_2_alg».proof.Proof.Gen.KernelIdeal.Launch
import proofs.«127178_j23579370455142_2_alg».proof.Proof.Gen.KernelIdeal.Skeleton
import proofs.«127178_j23579370455142_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {U : Type} [URA U]

local notation "𝕄" => MT nD τ sig Unit (Elt F) ℕ U ℕ

abbrev rX : Rect S32x32000 := Rect.unit (s := S32x32000) ![0, 0] S32x32000.size inb_S32x32000_S32x32000_0_0
abbrev rA : Rect S9x32 := Rect.unit (s := S9x32) ![0, 0] S9x32.size inb_S9x32_S9x32_0_0
abbrev rC : Rect S9x1 := Rect.unit (s := S9x1) ![0, 0] S9x1.size inb_S9x1_S9x1_0_0
abbrev rB : Rect S9x9 := Rect.unit (s := S9x9) ![0, 0] S9x9.size inb_S9x9_S9x9_0_0
abbrev rO : Rect S9x32000 := Rect.unit (s := S9x32000) ![0, 0] S9x32000.size inb_S9x32000_S9x32000_0_0

def out0_7 (x0 : Vec F S32x32000 .f32) (w1 : Vec F S9x32 .bf16) (c1 : Vec F S9x1 .f32) (w2 : Vec F S9x9 .bf16) (c2 : Vec F S9x1 .f32) (w3 : Vec F S9x9 .bf16) (c3 : Vec F S9x1 .f32) : Vec F S9x32000 .f32 :=
  View.canon [⟨rO, k0_pay1 (View.ld x0 rX) (View.ld w1 rA) (View.ld c1 rC) (View.ld w2 rB) (View.ld c2 rC) (View.ld w3 rB) (View.ld c3 rC)⟩]

theorem cover0_7 (p0 : Vec F S9x32000 .f32) (y : S9x32000.Idx) :
    ∃ pc ∈ ([⟨rO, p0⟩] : List (View.Piece (Elt F) S9x32000 .f32)), y ∈ pc.1.set :=
  View.cover_of_tiled [⟨rO, p0⟩] S9x32000.size (by rfl) y

-- Any function equal to this kernel (the three edge regions run one function under three names) computes the network of its seven inputs and changes none of them.
set_option maxHeartbeats 1000000 in
theorem sound_kernel0 {k : _} (hk : k = @cc0__edge_mlp_kernel F _) (c : Dev nD) (E : Set ℕ) (i : grid0.Coords)
    (arg1 : Memref sig .tc .vmem S32x32000 .f32) (harg1 : arg1.IsWhole) (arg2 : Memref sig .tc .vmem S9x32 .bf16) (harg2 : arg2.IsWhole)
    (arg3 : Memref sig .tc .vmem S9x1 .f32) (harg3 : arg3.IsWhole) (arg4 : Memref sig .tc .vmem S9x9 .bf16) (harg4 : arg4.IsWhole)
    (arg5 : Memref sig .tc .vmem S9x1 .f32) (harg5 : arg5.IsWhole) (arg6 : Memref sig .tc .vmem S9x9 .bf16) (harg6 : arg6.IsWhole)
    (arg7 : Memref sig .tc .vmem S9x1 .f32) (harg7 : arg7.IsWhole) (arg8 : Memref sig .tc .vmem S9x32000 .f32) (harg8 : arg8.IsWhole)
    (x0 : Vec F S32x32000 .f32) (w1 : Vec F S9x32 .bf16) (c1 : Vec F S9x1 .f32) (w2 : Vec F S9x9 .bf16) (c2 : Vec F S9x1 .f32) (w3 : Vec F S9x9 .bf16) (c3 : Vec F S9x1 .f32) (K : PUnit → sProp 𝕄) :
    iprop(owns (c : Thread nD τ) arg1 fullShare x0 ∗ owns (c : Thread nD τ) arg2 fullShare w1 ∗ owns (c : Thread nD τ) arg3 fullShare c1
        ∗ owns (c : Thread nD τ) arg4 fullShare w2 ∗ owns (c : Thread nD τ) arg5 fullShare c2 ∗ owns (c : Thread nD τ) arg6 fullShare w3
        ∗ owns (c : Thread nD τ) arg7 fullShare c3 ∗ (∃ d, owns (c : Thread nD τ) arg8 fullShare d)
        ∗ (iprop(owns (c : Thread nD τ) arg1 fullShare x0 ∗ owns (c : Thread nD τ) arg2 fullShare w1 ∗ owns (c : Thread nD τ) arg3 fullShare c1
            ∗ owns (c : Thread nD τ) arg4 fullShare w2 ∗ owns (c : Thread nD τ) arg5 fullShare c2 ∗ owns (c : Thread nD τ) arg6 fullShare w3
            ∗ owns (c : Thread nD τ) arg7 fullShare c3 ∗ owns (c : Thread nD τ) arg8 fullShare (out0_7 x0 w1 c1 w2 c2 w3 c3)) -∗ K ⟨⟩))
      ⊢ wp frame (wpE (defs₀ (F := F)) Variants.none c none) E
          (k i arg1 harg1 arg2 harg2 arg3 harg3 arg4 harg4 arg5 harg5 arg6 harg6 arg7 harg7 arg8 harg8) K := by
  subst hk
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

theorem hz : (![0, 0] : Fin 2 → Nat) = fun _ => 0 := funext fun a => by
  match a with
  | ⟨0, _⟩ => rfl
  | ⟨1, _⟩ => rfl

theorem out0_7_eq (x0 : Vec F S32x32000 .f32) (w1 : Vec F S9x32 .bf16) (c1 : Vec F S9x1 .f32) (w2 : Vec F S9x9 .bf16) (c2 : Vec F S9x1 .f32) (w3 : Vec F S9x9 .bf16) (c3 : Vec F S9x1 .f32) :
    out0_7 x0 w1 c1 w2 c2 w3 c3 = k0_pay1 x0 w1 c1 w2 c2 w3 c3 := by
  unfold out0_7
  rw [View.canon_unit_zero hz]
  simp only [View.ld_unit_zero (S := S32x32000) hz, View.ld_unit_zero (S := S9x32) hz, View.ld_unit_zero (S := S9x1) hz,
    View.ld_unit_zero (S := S9x9) hz]

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def dat0 (c : Dev nD) : Dat τ (Elt F) Unit ℕ U ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

theorem A_eq0 (c : Dev nD) (w : Fin cfg0.W) : (dat0 (U := U) V c).A w = V c (Pipeline.arrRef spec0 w) := by
  dsimp only [dat0]

theorem after0_0 (c : Dev nD) (t : Fin cfg0.N) : (dat0 (U := U) V c).after 0 t = iblk0 V c 0 t := by dsimp only [dat0]
theorem after0_1 (c : Dev nD) (t : Fin cfg0.N) : (dat0 (U := U) V c).after 1 t = iblk0 V c 1 t := by dsimp only [dat0]
theorem after0_2 (c : Dev nD) (t : Fin cfg0.N) : (dat0 (U := U) V c).after 2 t = iblk0 V c 2 t := by dsimp only [dat0]
theorem after0_3 (c : Dev nD) (t : Fin cfg0.N) : (dat0 (U := U) V c).after 3 t = iblk0 V c 3 t := by dsimp only [dat0]
theorem after0_4 (c : Dev nD) (t : Fin cfg0.N) : (dat0 (U := U) V c).after 4 t = iblk0 V c 4 t := by dsimp only [dat0]
theorem after0_5 (c : Dev nD) (t : Fin cfg0.N) : (dat0 (U := U) V c).after 5 t = iblk0 V c 5 t := by dsimp only [dat0]
theorem after0_6 (c : Dev nD) (t : Fin cfg0.N) : (dat0 (U := U) V c).after 6 t = iblk0 V c 6 t := by dsimp only [dat0]
theorem after0_7 (c : Dev nD) (t : Fin cfg0.N) : (dat0 (U := U) V c).after 7 t = out0_7 (iblk0 V c 0 t) (iblk0 V c 1 t) (iblk0 V c 2 t) (iblk0 V c 3 t) (iblk0 V c 4 t) (iblk0 V c 5 t) (iblk0 V c 6 t) := by dsimp only [dat0]

theorem before0_0 (c : Dev nD) (t : Fin cfg0.N) (d) : (dat0 (U := U) V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 (U := U) V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 (U := U) V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 (U := U) V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 (U := U) V c).before 4 t d = iblk0 V c 4 t :=
  ((dat0 V c).before_in_eq_fetched 4 rfl (fun _ => rfl) (fun _ _ _ => rfl) (fun _ => rfl) t d).trans rfl
theorem before0_5 (c : Dev nD) (t : Fin cfg0.N) (d) : (dat0 (U := U) V c).before 5 t d = iblk0 V c 5 t :=
  ((dat0 V c).before_in_eq_fetched 5 rfl (fun _ => rfl) (fun _ _ _ => rfl) (fun _ => rfl) t d).trans rfl
theorem before0_6 (c : Dev nD) (t : Fin cfg0.N) (d) : (dat0 (U := U) V c).before 6 t d = iblk0 V c 6 t :=
  ((dat0 V c).before_in_eq_fetched 6 rfl (fun _ => rfl) (fun _ _ _ => rfl) (fun _ => rfl) t d).trans rfl

def bodyPre0 (c : Dev nD) (t : Fin cfg0.N) : sProp 𝕄 :=
  iprop((dat0 (U := U) V c).Φ t.castSucc ∗ (dat0 (U := U) V c).owesAt () t.castSucc
    ∗ (∃ d, owns (c : Thread nD τ) (st0_0 t) fullShare ((dat0 (U := U) V c).before 0 t d))
    ∗ (∃ d, owns (c : Thread nD τ) (st0_1 t) fullShare ((dat0 (U := U) V c).before 1 t d))
    ∗ (∃ d, owns (c : Thread nD τ) (st0_2 t) fullShare ((dat0 (U := U) V c).before 2 t d))
    ∗ (∃ d, owns (c : Thread nD τ) (st0_3 t) fullShare ((dat0 (U := U) V c).before 3 t d))
    ∗ (∃ d, owns (c : Thread nD τ) (st0_4 t) fullShare ((dat0 (U := U) V c).before 4 t d))
    ∗ (∃ d, owns (c : Thread nD τ) (st0_5 t) fullShare ((dat0 (U := U) V c).before 5 t d))
    ∗ (∃ d, owns (c : Thread nD τ) (st0_6 t) fullShare ((dat0 (U := U) V c).before 6 t d))
    ∗ (∃ d, owns (c : Thread nD τ) (st0_7 t) fullShare ((dat0 (U := U) V c).before 7 t d)))

def bodyPost0 (c : Dev nD) (t : Fin cfg0.N) : sProp 𝕄 :=
  iprop((dat0 (U := U) V c).Φ t.succ ∗ (dat0 (U := U) V c).owesAt () t.succ
    ∗ owns (c : Thread nD τ) (st0_0 t) fullShare ((dat0 (U := U) V c).after 0 t)
    ∗ owns (c : Thread nD τ) (st0_1 t) fullShare ((dat0 (U := U) V c).after 1 t)
    ∗ owns (c : Thread nD τ) (st0_2 t) fullShare ((dat0 (U := U) V c).after 2 t)
    ∗ owns (c : Thread nD τ) (st0_3 t) fullShare ((dat0 (U := U) V c).after 3 t)
    ∗ owns (c : Thread nD τ) (st0_4 t) fullShare ((dat0 (U := U) V c).after 4 t)
    ∗ owns (c : Thread nD τ) (st0_5 t) fullShare ((dat0 (U := U) V c).after 5 t)
    ∗ owns (c : Thread nD τ) (st0_6 t) fullShare ((dat0 (U := U) V c).after 6 t)
    ∗ owns (c : Thread nD τ) (st0_7 t) fullShare ((dat0 (U := U) V c).after 7 t))

theorem sound_body0 (c : Dev nD) (t : Fin cfg0.N) :
    bodyPre0 (U := U) V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 (U := U) V c).Φ t.succ = (dat0 V c).Φ t.castSucc from rfl,
    show (dat0 (U := U) V c).owesAt () t.succ = (dat0 V c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 (k := @cc0__edge_mlp_kernel F _) rfl c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation0 (c : Dev nD) : BodyObligation (dat0 (F := F) (U := U) V c) (defs₀ (F := F)) Variants.none () Set.univ := fun t => by
  rw [bigSep_W0, bigSep_W0]
  exact sound_body0 V c t

end Cert.KernelIdeal.Hand

end
-- ==== Proof.KI.Edge2.lean ====
import proofs.«127178_j23579370455142_2_alg».proof.Proof.KI.Edge0
import proofs.«127178_j23579370455142_2_alg».proof.Proof.Gen.KernelIdeal.Launch
import proofs.«127178_j23579370455142_2_alg».proof.Proof.Gen.KernelIdeal.Skeleton
import proofs.«127178_j23579370455142_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand2

open Cert.KernelIdeal.Hand (out0_7 out0_7_eq sound_kernel0)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {U : Type} [URA U]

local notation "𝕄" => MT nD τ sig Unit (Elt F) ℕ U ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def dat2 (c : Dev nD) : Dat τ (Elt F) Unit ℕ U ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out0_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 (U := U) V c).A w = V c (Pipeline.arrRef spec2 w) := by
  dsimp only [dat2]

theorem after2_0 (c : Dev nD) (t : Fin cfg2.N) : (dat2 (U := U) V c).after 0 t = iblk2 V c 0 t := by dsimp only [dat2]
theorem after2_1 (c : Dev nD) (t : Fin cfg2.N) : (dat2 (U := U) V c).after 1 t = iblk2 V c 1 t := by dsimp only [dat2]
theorem after2_2 (c : Dev nD) (t : Fin cfg2.N) : (dat2 (U := U) V c).after 2 t = iblk2 V c 2 t := by dsimp only [dat2]
theorem after2_3 (c : Dev nD) (t : Fin cfg2.N) : (dat2 (U := U) V c).after 3 t = iblk2 V c 3 t := by dsimp only [dat2]
theorem after2_4 (c : Dev nD) (t : Fin cfg2.N) : (dat2 (U := U) V c).after 4 t = iblk2 V c 4 t := by dsimp only [dat2]
theorem after2_5 (c : Dev nD) (t : Fin cfg2.N) : (dat2 (U := U) V c).after 5 t = iblk2 V c 5 t := by dsimp only [dat2]
theorem after2_6 (c : Dev nD) (t : Fin cfg2.N) : (dat2 (U := U) V c).after 6 t = iblk2 V c 6 t := by dsimp only [dat2]
theorem after2_7 (c : Dev nD) (t : Fin cfg2.N) : (dat2 (U := U) V c).after 7 t = out0_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 (U := U) V c).before 0 t d = iblk2 V c 0 t :=
  ((dat2 V c).before_in_eq_fetched 0 rfl (fun _ => rfl) (fun _ _ _ => rfl) (fun _ => rfl) t d).trans rfl
theorem before2_1 (c : Dev nD) (t : Fin cfg2.N) (d) : (dat2 (U := U) V c).before 1 t d = iblk2 V c 1 t :=
  ((dat2 V c).before_in_eq_fetched 1 rfl (fun _ => rfl) (fun _ _ _ => rfl) (fun _ => rfl) t d).trans rfl
theorem before2_2 (c : Dev nD) (t : Fin cfg2.N) (d) : (dat2 (U := U) V c).before 2 t d = iblk2 V c 2 t :=
  ((dat2 V c).before_in_eq_fetched 2 rfl (fun _ => rfl) (fun _ _ _ => rfl) (fun _ => rfl) t d).trans rfl
theorem before2_3 (c : Dev nD) (t : Fin cfg2.N) (d) : (dat2 (U := U) V c).before 3 t d = iblk2 V c 3 t :=
  ((dat2 V c).before_in_eq_fetched 3 rfl (fun _ => rfl) (fun _ _ _ => rfl) (fun _ => rfl) t d).trans rfl
theorem before2_4 (c : Dev nD) (t : Fin cfg2.N) (d) : (dat2 (U := U) V c).before 4 t d = iblk2 V c 4 t :=
  ((dat2 V c).before_in_eq_fetched 4 rfl (fun _ => rfl) (fun _ _ _ => rfl) (fun _ => rfl) t d).trans rfl
theorem before2_5 (c : Dev nD) (t : Fin cfg2.N) (d) : (dat2 (U := U) V c).before 5 t d = iblk2 V c 5 t :=
  ((dat2 V c).before_in_eq_fetched 5 rfl (fun _ => rfl) (fun _ _ _ => rfl) (fun _ => rfl) t d).trans rfl
theorem before2_6 (c : Dev nD) (t : Fin cfg2.N) (d) : (dat2 (U := U) V c).before 6 t d = iblk2 V c 6 t :=
  ((dat2 V c).before_in_eq_fetched 6 rfl (fun _ => rfl) (fun _ _ _ => rfl) (fun _ => rfl) t d).trans rfl

def bodyPre2 (c : Dev nD) (t : Fin cfg2.N) : sProp 𝕄 :=
  iprop((dat2 (U := U) V c).Φ t.castSucc ∗ (dat2 (U := U) V c).owesAt () t.castSucc
    ∗ (∃ d, owns (c : Thread nD τ) (st2_0 t) fullShare ((dat2 (U := U) V c).before 0 t d))
    ∗ (∃ d, owns (c : Thread nD τ) (st2_1 t) fullShare ((dat2 (U := U) V c).before 1 t d))
    ∗ (∃ d, owns (c : Thread nD τ) (st2_2 t) fullShare ((dat2 (U := U) V c).before 2 t d))
    ∗ (∃ d, owns (c : Thread nD τ) (st2_3 t) fullShare ((dat2 (U := U) V c).before 3 t d))
    ∗ (∃ d, owns (c : Thread nD τ) (st2_4 t) fullShare ((dat2 (U := U) V c).before 4 t d))
    ∗ (∃ d, owns (c : Thread nD τ) (st2_5 t) fullShare ((dat2 (U := U) V c).before 5 t d))
    ∗ (∃ d, owns (c : Thread nD τ) (st2_6 t) fullShare ((dat2 (U := U) V c).before 6 t d))
    ∗ (∃ d, owns (c : Thread nD τ) (st2_7 t) fullShare ((dat2 (U := U) V c).before 7 t d)))

def bodyPost2 (c : Dev nD) (t : Fin cfg2.N) : sProp 𝕄 :=
  iprop((dat2 (U := U) V c).Φ t.succ ∗ (dat2 (U := U) V c).owesAt () t.succ
    ∗ owns (c : Thread nD τ) (st2_0 t) fullShare ((dat2 (U := U) V c).after 0 t)
    ∗ owns (c : Thread nD τ) (st2_1 t) fullShare ((dat2 (U := U) V c).after 1 t)
    ∗ owns (c : Thread nD τ) (st2_2 t) fullShare ((dat2 (U := U) V c).after 2 t)
    ∗ owns (c : Thread nD τ) (st2_3 t) fullShare ((dat2 (U := U) V c).after 3 t)
    ∗ owns (c : Thread nD τ) (st2_4 t) fullShare ((dat2 (U := U) V c).after 4 t)
    ∗ owns (c : Thread nD τ) (st2_5 t) fullShare ((dat2 (U := U) V c).after 5 t)
    ∗ owns (c : Thread nD τ) (st2_6 t) fullShare ((dat2 (U := U) V c).after 6 t)
    ∗ owns (c : Thread nD τ) (st2_7 t) fullShare ((dat2 (U := U) V c).after 7 t))

theorem sound_body2 (c : Dev nD) (t : Fin cfg2.N) :
    bodyPre2 (U := U) V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 (U := U) V c).Φ t.succ = (dat2 V c).Φ t.castSucc from rfl,
    show (dat2 (U := U) V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 (k := @cc2__edge_mlp_kernel F _) rfl c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation2 (c : Dev nD) : BodyObligation (dat2 (F := F) (U := U) V c) (defs₀ (F := F)) Variants.none () Set.univ := fun t => by
  rw [bigSep_W2, bigSep_W2]
  exact sound_body2 V c t

end Cert.KernelIdeal.Hand2

end
-- ==== Proof.KI.Edge4.lean ====
import proofs.«127178_j23579370455142_2_alg».proof.Proof.KI.Edge0
import proofs.«127178_j23579370455142_2_alg».proof.Proof.Gen.KernelIdeal.Launch
import proofs.«127178_j23579370455142_2_alg».proof.Proof.Gen.KernelIdeal.Skeleton
import proofs.«127178_j23579370455142_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Hand4

open Cert.KernelIdeal.Hand (out0_7 out0_7_eq sound_kernel0)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]
variable {U : Type} [URA U]

local notation "𝕄" => MT nD τ sig Unit (Elt F) ℕ U ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

def dat4 (c : Dev nD) : Dat τ (Elt F) Unit ℕ U ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => out0_7 (iblk4 V c 0 t) (iblk4 V c 1 t) (iblk4 V c 2 t) (iblk4 V c 3 t) (iblk4 V c 4 t) (iblk4 V c 5 t) (iblk4 V c 6 t)
  Φ _ := Pipeline.ΦA spec4 c
  q _ := fullShare
  owed _ := 0

theorem A_eq4 (c : Dev nD) (w : Fin cfg4.W) : (dat4 (U := U) V c).A w = V c (Pipeline.arrRef spec4 w) := by
  dsimp only [dat4]

theorem after4_0 (c : Dev nD) (t : Fin cfg4.N) : (dat4 (U := U) V c).after 0 t = iblk4 V c 0 t := by dsimp only [dat4]
theorem after4_1 (c : Dev nD) (t : Fin cfg4.N) : (dat4 (U := U) V c).after 1 t = iblk4 V c 1 t := by dsimp only [dat4]
theorem after4_2 (c : Dev nD) (t : Fin cfg4.N) : (dat4 (U := U) V c).after 2 t = iblk4 V c 2 t := by dsimp only [dat4]
theorem after4_3 (c : Dev nD) (t : Fin cfg4.N) : (dat4 (U := U) V c).after 3 t = iblk4 V c 3 t := by dsimp only [dat4]
theorem after4_4 (c : Dev nD) (t : Fin cfg4.N) : (dat4 (U := U) V c).after 4 t = iblk4 V c 4 t := by dsimp only [dat4]
theorem after4_5 (c : Dev nD) (t : Fin cfg4.N) : (dat4 (U := U) V c).after 5 t = iblk4 V c 5 t := by dsimp only [dat4]
theorem after4_6 (c : Dev nD) (t : Fin cfg4.N) : (dat4 (U := U) V c).after 6 t = iblk4 V c 6 t := by dsimp only [dat4]
theorem after4_7 (c : Dev nD) (t : Fin cfg4.N) : (dat4 (U := U) V c).after 7 t = out0_7 (iblk4 V c 0 t) (iblk4 V c 1 t) (iblk4 V c 2 t) (iblk4 V c 3 t) (iblk4 V c 4 t) (iblk4 V c 5 t) (iblk4 V c 6 t) := by dsimp only [dat4]

theorem before4_0 (c : Dev nD) (t : Fin cfg4.N) (d) : (dat4 (U := U) V c).before 0 t d = iblk4 V c 0 t :=
  ((dat4 V c).before_in_eq_fetched 0 rfl (fun _ => rfl) (fun _ _ _ => rfl) (fun _ => rfl) t d).trans rfl
theorem before4_1 (c : Dev nD) (t : Fin cfg4.N) (d) : (dat4 (U := U) V c).before 1 t d = iblk4 V c 1 t :=
  ((dat4 V c).before_in_eq_fetched 1 rfl (fun _ => rfl) (fun _ _ _ => rfl) (fun _ => rfl) t d).trans rfl
theorem before4_2 (c : Dev nD) (t : Fin cfg4.N) (d) : (dat4 (U := U) V c).before 2 t d = iblk4 V c 2 t :=
  ((dat4 V c).before_in_eq_fetched 2 rfl (fun _ => rfl) (fun _ _ _ => rfl) (fun _ => rfl) t d).trans rfl
theorem before4_3 (c : Dev nD) (t : Fin cfg4.N) (d) : (dat4 (U := U) V c).before 3 t d = iblk4 V c 3 t :=
  ((dat4 V c).before_in_eq_fetched 3 rfl (fun _ => rfl) (fun _ _ _ => rfl) (fun _ => rfl) t d).trans rfl
theorem before4_4 (c : Dev nD) (t : Fin cfg4.N) (d) : (dat4 (U := U) V c).before 4 t d = iblk4 V c 4 t :=
  ((dat4 V c).before_in_eq_fetched 4 rfl (fun _ => rfl) (fun _ _ _ => rfl) (fun _ => rfl) t d).trans rfl
theorem before4_5 (c : Dev nD) (t : Fin cfg4.N) (d) : (dat4 (U := U) V c).before 5 t d = iblk4 V c 5 t :=
  ((dat4 V c).before_in_eq_fetched 5 rfl (fun _ => rfl) (fun _ _ _ => rfl) (fun _ => rfl) t d).trans rfl
theorem before4_6 (c : Dev nD) (t : Fin cfg4.N) (d) : (dat4 (U := U) V c).before 6 t d = iblk4 V c 6 t :=
  ((dat4 V c).before_in_eq_fetched 6 rfl (fun _ => rfl) (fun _ _ _ => rfl) (fun _ => rfl) t d).trans rfl

def bodyPre4 (c : Dev nD) (t : Fin cfg4.N) : sProp 𝕄 :=
  iprop((dat4 (U := U) V c).Φ t.castSucc ∗ (dat4 (U := U) V c).owesAt () t.castSucc
    ∗ (∃ d, owns (c : Thread nD τ) (st4_0 t) fullShare ((dat4 (U := U) V c).before 0 t d))
    ∗ (∃ d, owns (c : Thread nD τ) (st4_1 t) fullShare ((dat4 (U := U) V c).before 1 t d))
    ∗ (∃ d, owns (c : Thread nD τ) (st4_2 t) fullShare ((dat4 (U := U) V c).before 2 t d))
    ∗ (∃ d, owns (c : Thread nD τ) (st4_3 t) fullShare ((dat4 (U := U) V c).before 3 t d))
    ∗ (∃ d, owns (c : Thread nD τ) (st4_4 t) fullShare ((dat4 (U := U) V c).before 4 t d))
    ∗ (∃ d, owns (c : Thread nD τ) (st4_5 t) fullShare ((dat4 (U := U) V c).before 5 t d))
    ∗ (∃ d, owns (c : Thread nD τ) (st4_6 t) fullShare ((dat4 (U := U) V c).before 6 t d))
    ∗ (∃ d, owns (c : Thread nD τ) (st4_7 t) fullShare ((dat4 (U := U) V c).before 7 t d)))

def bodyPost4 (c : Dev nD) (t : Fin cfg4.N) : sProp 𝕄 :=
  iprop((dat4 (U := U) V c).Φ t.succ ∗ (dat4 (U := U) V c).owesAt () t.succ
    ∗ owns (c : Thread nD τ) (st4_0 t) fullShare ((dat4 (U := U) V c).after 0 t)
    ∗ owns (c : Thread nD τ) (st4_1 t) fullShare ((dat4 (U := U) V c).after 1 t)
    ∗ owns (c : Thread nD τ) (st4_2 t) fullShare ((dat4 (U := U) V c).after 2 t)
    ∗ owns (c : Thread nD τ) (st4_3 t) fullShare ((dat4 (U := U) V c).after 3 t)
    ∗ owns (c : Thread nD τ) (st4_4 t) fullShare ((dat4 (U := U) V c).after 4 t)
    ∗ owns (c : Thread nD τ) (st4_5 t) fullShare ((dat4 (U := U) V c).after 5 t)
    ∗ owns (c : Thread nD τ) (st4_6 t) fullShare ((dat4 (U := U) V c).after 6 t)
    ∗ owns (c : Thread nD τ) (st4_7 t) fullShare ((dat4 (U := U) V c).after 7 t))

theorem sound_body4 (c : Dev nD) (t : Fin cfg4.N) :
    bodyPre4 (U := U) V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6]
  rw [show (dat4 (U := U) V c).Φ t.succ = (dat4 V c).Φ t.castSucc from rfl,
    show (dat4 (U := U) V c).owesAt () t.succ = (dat4 V c).owesAt () t.castSucc from rfl,
    after4_0, after4_1, after4_2, after4_3, after4_4, after4_5, after4_6, after4_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 (k := @cc4__edge_mlp_kernel F _) rfl c Set.univ _ _ _ _ _ _ _ _ _ _ _ _ _ _ _ _ _ (iblk4 V c 0 t) (iblk4 V c 1 t) (iblk4 V c 2 t) (iblk4 V c 3 t) (iblk4 V c 4 t) (iblk4 V c 5 t) (iblk4 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation4 (c : Dev nD) : BodyObligation (dat4 (F := F) (U := U) V c) (defs₀ (F := F)) Variants.none () Set.univ := fun t => by
  rw [bigSep_W4, bigSep_W4]
  exact sound_body4 V c t

end Cert.KernelIdeal.Hand4

end
-- ==== Proof.KI.Node1.lean ====
import proofs.«127178_j23579370455142_2_alg».proof.Proof.Gen.KernelIdeal.Launch
import proofs.«127178_j23579370455142_2_alg».proof.Proof.Gen.KernelIdeal.Skeleton
import proofs.«127178_j23579370455142_2_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {U : Type} [URA U]

local notation "𝕄" => MT nD τ sig Unit (Elt F) ℕ U ℕ

abbrev r1_x : Rect S25x25600 := Rect.unit (s := S25x25600) ![0, 0] S25x25600.size inb_S25x25600_S25x25600_0_0
abbrev r1_w1 : Rect S9x25 := Rect.unit (s := S9x25) ![0, 0] S9x25.size inb_S9x25_S9x25_0_0
abbrev r1_c : Rect S9x1 := Rect.unit (s := S9x1) ![0, 0] S9x1.size inb_S9x1_S9x1_0_0
abbrev r1_w2 : Rect S9x9 := Rect.unit (s := S9x9) ![0, 0] S9x9.size inb_S9x9_S9x9_0_0
abbrev r1_w3 : Rect S16x9 := Rect.unit (s := S16x9) ![0, 0] S16x9.size inb_S16x9_S16x9_0_0
abbrev r1_c3 : Rect S16x1 := Rect.unit (s := S16x1) ![0, 0] S16x1.size inb_S16x1_S16x1_0_0
abbrev r1_o : Rect S16x25600 := Rect.unit (s := S16x25600) ![0, 0] S16x25600.size inb_S16x25600_S16x25600_0_0

def out1_7 (x0 : Vec F S25x25600 .f32) (w1 : Vec F S9x25 .bf16) (c1 : Vec F S9x1 .f32) (w2 : Vec F S9x9 .bf16)
    (c2 : Vec F S9x1 .f32) (w3 : Vec F S16x9 .bf16) (c3 : Vec F S16x1 .f32) : Vec F S16x25600 .f32 :=
  View.canon [⟨r1_o, k1_pay1 (View.ld x0 r1_x) (View.ld w1 r1_w1) (View.ld c1 r1_c) (View.ld w2 r1_w2) (View.ld c2 r1_c)
    (View.ld w3 r1_w3) (View.ld c3 r1_c3)⟩]

theorem cover1_7 (p0 : Vec F S16x25600 .f32) (y : S16x25600.Idx) :
    ∃ pc ∈ ([⟨r1_o, p0⟩] : List (View.Piece (Elt F) S16x25600 .f32)), y ∈ pc.1.set :=
  View.cover_of_tiled [⟨r1_o, p0⟩] S16x25600.size (by rfl) y

set_option maxHeartbeats 1000000 in

-- Any function equal to this kernel (the three node regions run one function under three names) computes the perceptron of its seven inputs and changes none of them.
theorem sound_kernel1 {k : _} (hk : k = @cc1__node_mlp_kernel F _) (c : Dev nD) (E : Set ℕ) (i : grid1.Coords)
    (arg1 : Memref sig .tc .vmem S25x25600 .f32) (harg1 : arg1.IsWhole) (arg2 : Memref sig .tc .vmem S9x25 .bf16) (harg2 : arg2.IsWhole)
    (arg3 : Memref sig .tc .vmem S9x1 .f32) (harg3 : arg3.IsWhole) (arg4 : Memref sig .tc .vmem S9x9 .bf16) (harg4 : arg4.IsWhole)
    (arg5 : Memref sig .tc .vmem S9x1 .f32) (harg5 : arg5.IsWhole) (arg6 : Memref sig .tc .vmem S16x9 .bf16) (harg6 : arg6.IsWhole)
    (arg7 : Memref sig .tc .vmem S16x1 .f32) (harg7 : arg7.IsWhole) (arg8 : Memref sig .tc .vmem S16x25600 .f32) (harg8 : arg8.IsWhole)
    (x0 : Vec F S25x25600 .f32) (w1 : Vec F S9x25 .bf16) (c1 : Vec F S9x1 .f32) (w2 : Vec F S9x9 .bf16)
    (c2 : Vec F S9x1 .f32) (w3 : Vec F S16x9 .bf16) (c3 : Vec F S16x1 .f32) (K : PUnit → sProp 𝕄) :
    iprop(owns (c : Thread nD τ) arg1 fullShare x0 ∗ owns (c : Thread nD τ) arg2 fullShare w1 ∗ owns (c : Thread nD τ) arg3 fullShare c1
        ∗ owns (c : Thread nD τ) arg4 fullShare w2 ∗ owns (c : Thread nD τ) arg5 fullShare c2 ∗ owns (c : Thread nD τ) arg6 fullShare w3
        ∗ owns (c : Thread nD τ) arg7 fullShare c3 ∗ (∃ d, owns (c : Thread nD τ) arg8 fullShare d)
        ∗ (iprop(owns (c : Thread nD τ) arg1 fullShare x0 ∗ owns (c : Thread nD τ) arg2 fullShare w1 ∗ owns (c : Thread nD τ) arg3 fullShare c1
            ∗ owns (c : Thread nD τ) arg4 fullShare w2 ∗ owns (c : Thread nD τ) arg5 fullShare c2 ∗ owns (c : Thread nD τ) arg6 fullShare w3
            ∗ owns (c : Thread nD τ) arg7 fullShare c3 ∗ owns (c : Thread nD τ) arg8 fullShare (out1_7 x0 w1 c1 w2 c2 w3 c3)) -∗ K ⟨⟩))
      ⊢ wp frame (wpE (defs₀ (F := F)) Variants.none c none) E
          (k i arg1 harg1 arg2 harg2 arg3 harg3 arg4 harg4 arg5 harg5 arg6 harg6 arg7 harg7 arg8 harg8) K := by
  subst hk
  simp only [cc1__node_mlp_kernel_eq_skeleton]; unfold cc1__node_mlp_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf1 hf2 hf3 hf4 hf5 hf6 hf7
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  exact View.read_writes_eq_canon _ _ _ (cover1_7 _)

theorem out1_7_eq (x0 : Vec F S25x25600 .f32) (w1 : Vec F S9x25 .bf16) (c1 : Vec F S9x1 .f32) (w2 : Vec F S9x9 .bf16)
    (c2 : Vec F S9x1 .f32) (w3 : Vec F S16x9 .bf16) (c3 : Vec F S16x1 .f32) :
    out1_7 x0 w1 c1 w2 c2 w3 c3 = k1_pay1 x0 w1 c1 w2 c2 w3 c3 := by
  have hz : (![0, 0] : Fin 2 → Nat) = fun _ => 0 := funext fun a => by fin_cases a <;> rfl
  unfold out1_7
  rw [View.canon_unit_zero hz]
  simp only [View.ld_unit_zero (S := S25x25600) hz, View.ld_unit_zero (S := S9x25) hz, View.ld_unit_zero (S := S9x1) hz,
    View.ld_unit_zero (S := S9x9) hz, View.ld_unit_zero (S := S16x9) hz, View.ld_unit_zero (S := S16x1) hz]

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dat1 (c : Dev nD) : Dat τ (Elt F) Unit ℕ U ℕ cfg1 c where
  A w := V c (Pipeline.arrRef spec1 w)
  after w t := match w with
    | ⟨0, _⟩ => win1_0.fill (grid1.coords t) (fun _ => Scalar.ofBits .f32 0#32) (iblk1 V c 0 t)
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (win1_0.fill (grid1.coords t) (fun _ => Scalar.ofBits .f32 0#32) (iblk1 V c 0 t)) (iblk1 V c 1 t)
        (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 (U := U) V c).A w = V c (Pipeline.arrRef spec1 w) := by
  dsimp only [dat1]

theorem after1_0 (c : Dev nD) (t : Fin cfg1.N) : (dat1 (U := U) V c).after 0 t
    = win1_0.fill (grid1.coords t) (fun _ => Scalar.ofBits .f32 0#32) (iblk1 V c 0 t) := by dsimp only [dat1]
theorem after1_1 (c : Dev nD) (t : Fin cfg1.N) : (dat1 (U := U) V c).after 1 t = iblk1 V c 1 t := by dsimp only [dat1]
theorem after1_2 (c : Dev nD) (t : Fin cfg1.N) : (dat1 (U := U) V c).after 2 t = iblk1 V c 2 t := by dsimp only [dat1]
theorem after1_3 (c : Dev nD) (t : Fin cfg1.N) : (dat1 (U := U) V c).after 3 t = iblk1 V c 3 t := by dsimp only [dat1]
theorem after1_4 (c : Dev nD) (t : Fin cfg1.N) : (dat1 (U := U) V c).after 4 t = iblk1 V c 4 t := by dsimp only [dat1]
theorem after1_5 (c : Dev nD) (t : Fin cfg1.N) : (dat1 (U := U) V c).after 5 t = iblk1 V c 5 t := by dsimp only [dat1]
theorem after1_6 (c : Dev nD) (t : Fin cfg1.N) : (dat1 (U := U) V c).after 6 t = iblk1 V c 6 t := by dsimp only [dat1]
theorem after1_7 (c : Dev nD) (t : Fin cfg1.N) : (dat1 (U := U) V c).after 7 t
    = out1_7 (win1_0.fill (grid1.coords t) (fun _ => Scalar.ofBits .f32 0#32) (iblk1 V c 0 t)) (iblk1 V c 1 t)
        (iblk1 V c 2 t) (iblk1 V c 3 t) (iblk1 V c 4 t) (iblk1 V c 5 t) (iblk1 V c 6 t) := by dsimp only [dat1]

theorem before1_0 (c : Dev nD) (t : Fin cfg1.N) (d) :
    (dat1 (U := U) V c).before 0 t d = win1_0.fill (grid1.coords t) d (iblk1 V c 0 t) := by
  unfold Dat.before; rw [if_pos (fetch1_0 t)]
  unfold Dat.fetched Dat.blockOf iblk1; rw [A_eq1]; try rfl

theorem before1_1 (c : Dev nD) (t : Fin cfg1.N) (d) : (dat1 (U := U) V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 (U := U) V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 (U := U) V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 (U := U) V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 (U := U) V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 (U := U) V c).before 6 t d = iblk1 V c 6 t :=
  ((dat1 V c).before_in_eq_fetched 6 rfl (fun _ => rfl) (fun _ _ _ => rfl) (fun _ => rfl) t d).trans rfl

theorem before1_7 (c : Dev nD) (t : Fin cfg1.N) (d) : (dat1 (U := U) V c).before 7 t d = d :=
  (dat1 (U := U) V c).before_out_reset 7 rfl t (by
    by_cases h : t.val = 0
    · exact .inl h
    · exact .inr ⟨h, flush1_7 _⟩) d

variable (hloc : ∀ (x0 x0' : Vec F S25x25600 .f32) (w1 : Vec F S9x25 .bf16) (c1 : Vec F S9x1 .f32) (w2 : Vec F S9x9 .bf16)
    (c2 : Vec F S9x1 .f32) (w3 : Vec F S16x9 .bf16) (c3 : Vec F S16x1 .f32) (q : Fin 25600),
    (∀ k : Fin 25, x0 (ValueIdx.ix2 k q) = x0' (ValueIdx.ix2 k q)) →
    ∀ p : Fin 16, k1_pay1 x0 w1 c1 w2 c2 w3 c3 (ValueIdx.ix2 p q) = k1_pay1 x0' w1 c1 w2 c2 w3 c3 (ValueIdx.ix2 p q))

theorem xsize1_0_0 (i : grid1.Coords) : win1_0.xsize i 0 = 25 := rfl
theorem xsize1_0_1 (i : grid1.Coords) : win1_0.xsize i 1 = win1_7.xsize i 1 := rfl

include hloc in

-- A column of the result depends on the same column of x only, so the columns inside the array do not depend on what lies past its end.
theorem cut_pay_fill (i : grid1.Coords) (d d' : S25x25600.Idx → Elt F .f32) (g : (win1_0.xblock i).Idx → Elt F .f32)
    (w1 : Vec F S9x25 .bf16) (c1 : Vec F S9x1 .f32) (w2 : Vec F S9x9 .bf16)
    (c2 : Vec F S9x1 .f32) (w3 : Vec F S16x9 .bf16) (c3 : Vec F S16x1 .f32) :
    win1_7.cut i (k1_pay1 (win1_0.fill i d g) w1 c1 w2 c2 w3 c3) = win1_7.cut i (k1_pay1 (win1_0.fill i d' g) w1 c1 w2 c2 w3 c3) := by
  funext j
  have h0 : (j 0).val < 16 := Nat.lt_of_lt_of_le (j 0).isLt (win1_7.xsize_le i 0)
  have h1 : (j 1).val < 25600 := Nat.lt_of_lt_of_le (j 1).isLt (win1_7.xsize_le i 1)
  have hx : win1_7.xinj i j = ValueIdx.ix2 (⟨(j 0).val, h0⟩ : Fin 16) (⟨(j 1).val, h1⟩ : Fin 25600) :=
    funext fun a => by match a with | ⟨0, _⟩ => rfl | ⟨1, _⟩ => rfl
  show k1_pay1 (win1_0.fill i d g) w1 c1 w2 c2 w3 c3 (win1_7.xinj i j) = k1_pay1 (win1_0.fill i d' g) w1 c1 w2 c2 w3 c3 (win1_7.xinj i j)
  rw [hx]
  refine hloc _ _ w1 c1 w2 c2 w3 c3 ⟨(j 1).val, h1⟩ (fun k => ?_) ⟨(j 0).val, h0⟩
  have hm : win1_0.moved i (ValueIdx.ix2 k (⟨(j 1).val, h1⟩ : Fin 25600)) = true := (win1_0.moved_iff i _).mpr fun a => by
    match a with
    | ⟨0, _⟩ => show k.val < win1_0.xsize i 0; rw [xsize1_0_0]; exact k.isLt
    | ⟨1, _⟩ => show (j 1).val < win1_0.xsize i 1; rw [xsize1_0_1]; exact (j 1).isLt
  unfold Window.fill; rw [dif_pos hm, dif_pos hm]

def bodyPre1 (c : Dev nD) (t : Fin cfg1.N) : sProp 𝕄 :=
  iprop((dat1 (U := U) V c).Φ t.castSucc ∗ (dat1 (U := U) V c).owesAt () t.castSucc
    ∗ (∃ d, owns (c : Thread nD τ) (st1_0 t) fullShare ((dat1 (U := U) V c).before 0 t d))
    ∗ (∃ d, owns (c : Thread nD τ) (st1_1 t) fullShare ((dat1 (U := U) V c).before 1 t d))
    ∗ (∃ d, owns (c : Thread nD τ) (st1_2 t) fullShare ((dat1 (U := U) V c).before 2 t d))
    ∗ (∃ d, owns (c : Thread nD τ) (st1_3 t) fullShare ((dat1 (U := U) V c).before 3 t d))
    ∗ (∃ d, owns (c : Thread nD τ) (st1_4 t) fullShare ((dat1 (U := U) V c).before 4 t d))
    ∗ (∃ d, owns (c : Thread nD τ) (st1_5 t) fullShare ((dat1 (U := U) V c).before 5 t d))
    ∗ (∃ d, owns (c : Thread nD τ) (st1_6 t) fullShare ((dat1 (U := U) V c).before 6 t d))
    ∗ (∃ d, owns (c : Thread nD τ) (st1_7 t) fullShare ((dat1 (U := U) V c).before 7 t d)))

def bodyPost1 (c : Dev nD) (t : Fin cfg1.N) : sProp 𝕄 :=
  iprop((dat1 (U := U) V c).Φ t.succ ∗ (dat1 (U := U) V c).owesAt () t.succ
    ∗ (∃ d, owns (c : Thread nD τ) (st1_0 t) fullShare
        (win1_0.fill (grid1.coords t) d (win1_0.cut (grid1.coords t) ((dat1 (U := U) V c).after 0 t))))
    ∗ owns (c : Thread nD τ) (st1_1 t) fullShare ((dat1 (U := U) V c).after 1 t)
    ∗ owns (c : Thread nD τ) (st1_2 t) fullShare ((dat1 (U := U) V c).after 2 t)
    ∗ owns (c : Thread nD τ) (st1_3 t) fullShare ((dat1 (U := U) V c).after 3 t)
    ∗ owns (c : Thread nD τ) (st1_4 t) fullShare ((dat1 (U := U) V c).after 4 t)
    ∗ owns (c : Thread nD τ) (st1_5 t) fullShare ((dat1 (U := U) V c).after 5 t)
    ∗ owns (c : Thread nD τ) (st1_6 t) fullShare ((dat1 (U := U) V c).after 6 t)
    ∗ (∃ d, owns (c : Thread nD τ) (st1_7 t) fullShare
        (win1_7.fill (grid1.coords t) d (win1_7.cut (grid1.coords t) ((dat1 (U := U) V c).after 7 t)))))

include hloc in

theorem sound_body1 (c : Dev nD) (t : Fin cfg1.N) :
    bodyPre1 (U := U) V c t ⊢ wp frame (wpE (defs₀ (F := F)) Variants.none c none) Set.univ (bodyAt1 t) (fun _ => bodyPost1 (U := U) V c t) := by
  unfold bodyPre1 bodyPost1 bodyAt1
  simp only [before1_0, before1_1, before1_2, before1_3, before1_4, before1_5, before1_6, before1_7]
  rw [show (dat1 (U := U) V c).Φ t.succ = (dat1 (U := U) V c).Φ t.castSucc from rfl,
    show (dat1 (U := U) V c).owesAt () t.succ = (dat1 (U := U) V c).owesAt () t.castSucc from rfl,
    after1_0, after1_1, after1_2, after1_3, after1_4, after1_5, after1_6, after1_7, win1_0.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 (U := U) (k := @cc1__node_mlp_kernel F _) rfl c Set.univ _ _ _ _ _ _ _ _ _ _ _ _ _ _ _ _ _
    (win1_0.fill (grid1.coords t) d0 (iblk1 V c 0 t)) (iblk1 V c 1 t) (iblk1 V c 2 t) (iblk1 V c 3 t) (iblk1 V c 4 t)
    (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  iexists (out1_7 (win1_0.fill (grid1.coords t) d0 (iblk1 V c 0 t)) (iblk1 V c 1 t) (iblk1 V c 2 t) (iblk1 V c 3 t)
    (iblk1 V c 4 t) (iblk1 V c 5 t) (iblk1 V c 6 t))
  rw [win1_7.fill_congr_cut (grid1.coords t) (by
    rw [out1_7_eq, out1_7_eq]
    exact cut_pay_fill hloc (grid1.coords t) _ _ _ _ _ _ _ _ _)]
  iexact H7

include hloc in

theorem body_obligation1 (c : Dev nD) :
    BodyObligationLoose (dat1 (F := F) (U := U) V c) (defs₀ (F := F)) Variants.none () Set.univ := fun t => by
  rw [bigSep_W1, bigSep_W1]
  exact sound_body1 V hloc c t

omit hloc

def res1 (c : Dev nD) (t : Fin cfg1.N) : Vec F S16x25600 .f32 :=
  k1_pay1 (win1_0.fill (grid1.coords t) (fun _ => Scalar.ofBits .f32 0#32) (iblk1 V c 0 t)) (iblk1 V c 1 t)
    (iblk1 V c 2 t) (iblk1 V c 3 t) (iblk1 V c 4 t) (iblk1 V c 5 t) (iblk1 V c 6 t)

theorem after1_7_res (c : Dev nD) (t : Fin cfg1.N) : (dat1 (U := U) V c).after 7 t = res1 V c t := by
  rw [after1_7, out1_7_eq]; rfl

def pt1 (n : Fin 100000) : Fin cfg1.N :=
  ⟨n.val / 25600, Nat.lt_of_lt_of_eq (by have := n.isLt; omega : n.val / 25600 < 4) N_1.symm⟩

def col1 (n : Fin 100000) : Fin 25600 := ⟨n.val % 25600, Nat.mod_lt _ (by decide)⟩

def G1 (c : Dev nD) : S16x100000.Idx → Elt F .f32 := fun i =>
  res1 V c (pt1 ⟨(i 1).val, ValueIdx.idx2_lt1 i⟩)
    (ValueIdx.ix2 (⟨(i 0).val, ValueIdx.idx2_lt0 i⟩ : Fin 16) (col1 ⟨(i 1).val, ValueIdx.idx2_lt1 i⟩))

theorem G1_at (c : Dev nD) (t : Fin cfg1.N) (i : S16x100000.Idx) (p : Fin 16) (q : Fin 25600)
    (h0 : (i 0).val = p.val) (h1 : (i 1).val = t.val * 25600 + q.val) : G1 V c i = res1 V c t (ValueIdx.ix2 p q) := by
  unfold G1
  have hp : pt1 ⟨(i 1).val, ValueIdx.idx2_lt1 i⟩ = t :=
    Fin.ext (by show (i 1).val / 25600 = t.val; have := q.isLt; omega)
  have hq : col1 ⟨(i 1).val, ValueIdx.idx2_lt1 i⟩ = q :=
    Fin.ext (by show (i 1).val % 25600 = q.val; have := q.isLt; omega)
  have hp0 : (⟨(i 0).val, ValueIdx.idx2_lt0 i⟩ : Fin 16) = p := Fin.ext h0
  rw [hp, hq, hp0]

theorem idx1_7 : ∀ t : Fin cfg1.N, win1_7.index t (0 : Fin 2) = 0 ∧ win1_7.index t (1 : Fin 2) = t.val
    ∧ win1_7.xsize (grid1.coords t) (0 : Fin 2) = 16
    ∧ ((t.val + 1) * 25600 ≤ 100000 → win1_7.xsize (grid1.coords t) (1 : Fin 2) = 25600)
    ∧ (100000 < (t.val + 1) * 25600 → t.val * 25600 + win1_7.xsize (grid1.coords t) (1 : Fin 2) = 100000) :=
  (by decide +kernel : ∀ t : Fin grid1.N, _)

-- What point t writes back is block t, cut at the array's end, of one function of the index.
theorem flushed1_7 (c : Dev nD) (t : Fin cfg1.N) :
    (dat1 (U := U) V c).flushed 7 t = ((cfg1.win 7).blk t).view.read (Elt F) (G1 V c) := by
  show (cfg1.win 7).cut (grid1.coords t) ((dat1 (U := U) V c).after 7 t) = _
  rw [after1_7_res]
  obtain ⟨e0, e1, -, -, -⟩ := idx1_7 t
  funext j
  have h0 : (j 0).val < 16 := Nat.lt_of_lt_of_le (j 0).isLt (win1_7.xsize_le (grid1.coords t) 0)
  have h1 : (j 1).val < 25600 := Nat.lt_of_lt_of_le (j 1).isLt (win1_7.xsize_le (grid1.coords t) 1)
  have hx : win1_7.xinj (grid1.coords t) j = ValueIdx.ix2 (⟨(j 0).val, h0⟩ : Fin 16) (⟨(j 1).val, h1⟩ : Fin 25600) :=
    funext fun a => by match a with | ⟨0, _⟩ => rfl | ⟨1, _⟩ => rfl
  show res1 V c t (win1_7.xinj (grid1.coords t) j) = G1 V c (((cfg1.win 7).blk t).view.emb j)
  have a0 : ((((cfg1.win 7).blk t).view.emb j) 0).val = (j 0).val := by
    show win1_7.index t (0 : Fin 2) * 16 + 1 * (j 0).val = (j 0).val; rw [e0]; omega
  have a1 : ((((cfg1.win 7).blk t).view.emb j) 1).val = t.val * 25600 + (j 1).val := by
    show win1_7.index t (1 : Fin 2) * 25600 + 1 * (j 1).val = t.val * 25600 + (j 1).val; rw [e1]; omega
  rw [hx]
  exact (G1_at V c t _ ⟨(j 0).val, h0⟩ ⟨(j 1).val, h1⟩ a0 a1).symm

theorem mem_blk1_7 (t : Fin cfg1.N) (i : S16x100000.Idx) :
    i ∈ ((cfg1.win 7).blk t).view.set
      ↔ t.val * 25600 ≤ (i 1).val ∧ (i 1).val < t.val * 25600 + win1_7.xsize (grid1.coords t) (1 : Fin 2) := by
  show i ∈ ((View.whole main_v41).slice (win1_7.rect t)).set ↔ _
  rw [View.set_slice_whole, Rect.mem_set_unit]
  obtain ⟨e0, e1, x0, -, -⟩ := idx1_7 t
  have hi0 : (i 0).val < 16 := ValueIdx.idx2_lt0 i
  constructor
  · intro h
    have b1 : win1_7.index t (1 : Fin 2) * 25600 ≤ (i 1).val
        ∧ (i 1).val < win1_7.index t (1 : Fin 2) * 25600 + win1_7.xsize (grid1.coords t) (1 : Fin 2) := h 1
    rw [e1] at b1; exact b1
  · intro h a
    match a with
    | ⟨0, _⟩ =>
      show win1_7.index t (0 : Fin 2) * 16 ≤ (i 0).val
        ∧ (i 0).val < win1_7.index t (0 : Fin 2) * 16 + win1_7.xsize (grid1.coords t) (0 : Fin 2)
      rw [e0, x0]; omega
    | ⟨1, _⟩ =>
      show win1_7.index t (1 : Fin 2) * 25600 ≤ (i 1).val
        ∧ (i 1).val < win1_7.index t (1 : Fin 2) * 25600 + win1_7.xsize (grid1.coords t) (1 : Fin 2)
      rw [e1]; exact h

theorem final1 (c : Dev nD) (p : Fin 16) (n : Fin 100000) :
    (dat1 (U := U) V c).arrAt 7 cfg1.N (ValueIdx.ix2 p n)
      = k1_pay1 (win1_0.fill (grid1.coords (pt1 n)) (fun _ => Scalar.ofBits .f32 0#32) (iblk1 V c 0 (pt1 n)))
          (iblk1 V c 1 (pt1 n)) (iblk1 V c 2 (pt1 n)) (iblk1 V c 3 (pt1 n)) (iblk1 V c 4 (pt1 n)) (iblk1 V c 5 (pt1 n))
          (iblk1 V c 6 (pt1 n)) (ValueIdx.ix2 p (col1 n)) := by
  have hmem : (ValueIdx.ix2 p n : S16x100000.Idx) ∈ ((cfg1.win 7).blk (pt1 n)).view.set := by
    rw [mem_blk1_7]
    obtain ⟨-, -, -, x1, x1'⟩ := idx1_7 (pt1 n)
    have hn : n.val < 100000 := n.isLt
    show (pt1 n).val * 25600 ≤ n.val ∧ n.val < (pt1 n).val * 25600 + win1_7.xsize (grid1.coords (pt1 n)) (1 : Fin 2)
    have hv : (pt1 n).val = n.val / 25600 := rfl
    rcases Nat.lt_or_ge 100000 (((pt1 n).val + 1) * 25600) with hc | hc
    · have := x1' hc; omega
    · have := x1 hc; omega
  refine ((dat1 (U := U) V c).arrAt_apply_of_mem 7 (G1 V c) (fun t _ => flushed1_7 V c t) cfg1.N (pt1 n)
    (ValueIdx.ix2 p n) (pt1 n).isLt (flush1_7 _) hmem).trans ?_
  exact G1_at V c (pt1 n) _ p (col1 n) rfl (by
    show n.val = n.val / 25600 * 25600 + n.val % 25600
    omega)

theorem iblk1_1 (c : Dev nD) (t : Fin cfg1.N) : iblk1 V c 1 t = V c main_v10 := by
  funext j
  exact congrArg (V c main_v10) (funext fun a => Fin.ext (by
    match a with
    | ⟨0, _⟩ | ⟨1, _⟩ => (show 0 * _ + 1 * _ = _); omega))
theorem iblk1_2 (c : Dev nD) (t : Fin cfg1.N) : iblk1 V c 2 t = V c main_v11 := by
  funext j
  exact congrArg (V c main_v11) (funext fun a => Fin.ext (by
    match a with
    | ⟨0, _⟩ | ⟨1, _⟩ => (show 0 * _ + 1 * _ = _); omega))
theorem iblk1_3 (c : Dev nD) (t : Fin cfg1.N) : iblk1 V c 3 t = V c main_v13 := by
  funext j
  exact congrArg (V c main_v13) (funext fun a => Fin.ext (by
    match a with
    | ⟨0, _⟩ | ⟨1, _⟩ => (show 0 * _ + 1 * _ = _); omega))
theorem iblk1_4 (c : Dev nD) (t : Fin cfg1.N) : iblk1 V c 4 t = V c main_v14 := by
  funext j
  exact congrArg (V c main_v14) (funext fun a => Fin.ext (by
    match a with
    | ⟨0, _⟩ | ⟨1, _⟩ => (show 0 * _ + 1 * _ = _); omega))
theorem iblk1_5 (c : Dev nD) (t : Fin cfg1.N) : iblk1 V c 5 t = V c main_v16 := by
  funext j
  exact congrArg (V c main_v16) (funext fun a => Fin.ext (by
    match a with
    | ⟨0, _⟩ | ⟨1, _⟩ => (show 0 * _ + 1 * _ = _); omega))
theorem iblk1_6 (c : Dev nD) (t : Fin cfg1.N) : iblk1 V c 6 t = V c main_v17 := by
  funext j
  exact congrArg (V c main_v17) (funext fun a => Fin.ext (by
    match a with
    | ⟨0, _⟩ | ⟨1, _⟩ => (show 0 * _ + 1 * _ = _); omega))

theorem x_at (c : Dev nD) (k : Fin 25) (n : Fin 100000) :
    win1_0.fill (grid1.coords (pt1 n)) (fun _ => Scalar.ofBits .f32 0#32) (iblk1 V c 0 (pt1 n)) (ValueIdx.ix2 k (col1 n))
      = V c main_v40 (ValueIdx.ix2 k n) := by
  obtain ⟨-, e1, -, x1, x1'⟩ := idx1_7 (pt1 n)
  have hn : n.val < 100000 := n.isLt
  have hv : (pt1 n).val = n.val / 25600 := rfl
  have hcol : (col1 n).val = n.val % 25600 := rfl
  have hlt : (col1 n).val < win1_7.xsize (grid1.coords (pt1 n)) (1 : Fin 2) := by
    rcases Nat.lt_or_ge 100000 (((pt1 n).val + 1) * 25600) with hc | hc
    · have := x1' hc; omega
    · have := x1 hc; omega
  have hm : win1_0.moved (grid1.coords (pt1 n)) (ValueIdx.ix2 k (col1 n)) = true :=
    (win1_0.moved_iff _ _).mpr fun a => by
      match a with
      | ⟨0, _⟩ => show k.val < win1_0.xsize (grid1.coords (pt1 n)) 0; rw [xsize1_0_0]; exact k.isLt
      | ⟨1, _⟩ => show (col1 n).val < win1_0.xsize (grid1.coords (pt1 n)) 1; rw [xsize1_0_1]; exact hlt
  unfold Window.fill; rw [dif_pos hm]
  show V c main_v40 (((cfg1.win 0).blk (pt1 n)).view.emb _) = V c main_v40 (ValueIdx.ix2 k n)
  refine congrArg _ (funext fun a => Fin.ext ?_)
  match a with
  | ⟨0, _⟩ =>
    show win1_0.index (pt1 n) (0 : Fin 2) * 25 + 1 * k.val = k.val
    rw [show win1_0.index (pt1 n) (0 : Fin 2) = 0 from rfl]; omega
  | ⟨1, _⟩ =>
    show win1_0.index (pt1 n) (1 : Fin 2) * 25600 + 1 * (col1 n).val = n.val
    rw [show win1_0.index (pt1 n) (1 : Fin 2) = win1_7.index (pt1 n) (1 : Fin 2) from rfl, e1]; omega

-- Row p, column n of the result array is the perceptron of column n of x at the weights as the region finds them.
theorem final1_arrays (c : Dev nD) (p : Fin 16) (n : Fin 100000) :
    (dat1 (U := U) V c).arrAt 7 cfg1.N (ValueIdx.ix2 p n)
      = k1_pay1 (win1_0.fill (grid1.coords (pt1 n)) (fun _ => Scalar.ofBits .f32 0#32) (iblk1 V c 0 (pt1 n)))
          (V c main_v10) (V c main_v11) (V c main_v13) (V c main_v14) (V c main_v16) (V c main_v17)
          (ValueIdx.ix2 p (col1 n)) := by
  rw [final1, iblk1_1, iblk1_2, iblk1_3, iblk1_4, iblk1_5, iblk1_6]

end Cert.KernelIdeal.Hand

end
-- ==== Proof.KI.Node3.lean ====
import proofs.«127178_j23579370455142_2_alg».proof.Proof.KI.Node1
import proofs.«127178_j23579370455142_2_alg».proof.Proof.Gen.KernelIdeal.Launch
import proofs.«127178_j23579370455142_2_alg».proof.Proof.Gen.KernelIdeal.Skeleton
import proofs.«127178_j23579370455142_2_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand3

open Cert.KernelIdeal.Hand (out1_7 out1_7_eq sound_kernel1)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {U : Type} [URA U]

local notation "𝕄" => MT nD τ sig Unit (Elt F) ℕ U ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def dat3 (c : Dev nD) : Dat τ (Elt F) Unit ℕ U ℕ cfg3 c where
  A w := V c (Pipeline.arrRef spec3 w)
  after w t := match w with
    | ⟨0, _⟩ => win3_0.fill (grid3.coords t) (fun _ => Scalar.ofBits .f32 0#32) (iblk3 V c 0 t)
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => out1_7 (win3_0.fill (grid3.coords t) (fun _ => Scalar.ofBits .f32 0#32) (iblk3 V c 0 t)) (iblk3 V c 1 t)
        (iblk3 V c 2 t) (iblk3 V c 3 t) (iblk3 V c 4 t) (iblk3 V c 5 t) (iblk3 V c 6 t)
  Φ _ := Pipeline.ΦA spec3 c
  q _ := fullShare
  owed _ := 0

theorem A_eq3 (c : Dev nD) (w : Fin cfg3.W) : (dat3 (U := U) V c).A w = V c (Pipeline.arrRef spec3 w) := by
  dsimp only [dat3]

theorem after3_0 (c : Dev nD) (t : Fin cfg3.N) : (dat3 (U := U) V c).after 0 t
    = win3_0.fill (grid3.coords t) (fun _ => Scalar.ofBits .f32 0#32) (iblk3 V c 0 t) := by dsimp only [dat3]
theorem after3_1 (c : Dev nD) (t : Fin cfg3.N) : (dat3 (U := U) V c).after 1 t = iblk3 V c 1 t := by dsimp only [dat3]
theorem after3_2 (c : Dev nD) (t : Fin cfg3.N) : (dat3 (U := U) V c).after 2 t = iblk3 V c 2 t := by dsimp only [dat3]
theorem after3_3 (c : Dev nD) (t : Fin cfg3.N) : (dat3 (U := U) V c).after 3 t = iblk3 V c 3 t := by dsimp only [dat3]
theorem after3_4 (c : Dev nD) (t : Fin cfg3.N) : (dat3 (U := U) V c).after 4 t = iblk3 V c 4 t := by dsimp only [dat3]
theorem after3_5 (c : Dev nD) (t : Fin cfg3.N) : (dat3 (U := U) V c).after 5 t = iblk3 V c 5 t := by dsimp only [dat3]
theorem after3_6 (c : Dev nD) (t : Fin cfg3.N) : (dat3 (U := U) V c).after 6 t = iblk3 V c 6 t := by dsimp only [dat3]
theorem after3_7 (c : Dev nD) (t : Fin cfg3.N) : (dat3 (U := U) V c).after 7 t
    = out1_7 (win3_0.fill (grid3.coords t) (fun _ => Scalar.ofBits .f32 0#32) (iblk3 V c 0 t)) (iblk3 V c 1 t)
        (iblk3 V c 2 t) (iblk3 V c 3 t) (iblk3 V c 4 t) (iblk3 V c 5 t) (iblk3 V c 6 t) := by dsimp only [dat3]

theorem before3_0 (c : Dev nD) (t : Fin cfg3.N) (d) :
    (dat3 (U := U) V c).before 0 t d = win3_0.fill (grid3.coords t) d (iblk3 V c 0 t) := by
  unfold Dat.before; rw [if_pos (fetch3_0 t)]
  unfold Dat.fetched Dat.blockOf iblk3; rw [A_eq3]; try rfl

theorem before3_1 (c : Dev nD) (t : Fin cfg3.N) (d) : (dat3 (U := U) V c).before 1 t d = iblk3 V c 1 t :=
  ((dat3 V c).before_in_eq_fetched 1 rfl (fun _ => rfl) (fun _ _ _ => rfl) (fun _ => rfl) t d).trans rfl
theorem before3_2 (c : Dev nD) (t : Fin cfg3.N) (d) : (dat3 (U := U) V c).before 2 t d = iblk3 V c 2 t :=
  ((dat3 V c).before_in_eq_fetched 2 rfl (fun _ => rfl) (fun _ _ _ => rfl) (fun _ => rfl) t d).trans rfl
theorem before3_3 (c : Dev nD) (t : Fin cfg3.N) (d) : (dat3 (U := U) V c).before 3 t d = iblk3 V c 3 t :=
  ((dat3 V c).before_in_eq_fetched 3 rfl (fun _ => rfl) (fun _ _ _ => rfl) (fun _ => rfl) t d).trans rfl
theorem before3_4 (c : Dev nD) (t : Fin cfg3.N) (d) : (dat3 (U := U) V c).before 4 t d = iblk3 V c 4 t :=
  ((dat3 V c).before_in_eq_fetched 4 rfl (fun _ => rfl) (fun _ _ _ => rfl) (fun _ => rfl) t d).trans rfl
theorem before3_5 (c : Dev nD) (t : Fin cfg3.N) (d) : (dat3 (U := U) V c).before 5 t d = iblk3 V c 5 t :=
  ((dat3 V c).before_in_eq_fetched 5 rfl (fun _ => rfl) (fun _ _ _ => rfl) (fun _ => rfl) t d).trans rfl
theorem before3_6 (c : Dev nD) (t : Fin cfg3.N) (d) : (dat3 (U := U) V c).before 6 t d = iblk3 V c 6 t :=
  ((dat3 V c).before_in_eq_fetched 6 rfl (fun _ => rfl) (fun _ _ _ => rfl) (fun _ => rfl) t d).trans rfl

theorem before3_7 (c : Dev nD) (t : Fin cfg3.N) (d) : (dat3 (U := U) V c).before 7 t d = d :=
  (dat3 (U := U) V c).before_out_reset 7 rfl t (by
    by_cases h : t.val = 0
    · exact .inl h
    · exact .inr ⟨h, flush3_7 _⟩) d

variable (hloc : ∀ (x0 x0' : Vec F S25x25600 .f32) (w1 : Vec F S9x25 .bf16) (c1 : Vec F S9x1 .f32) (w2 : Vec F S9x9 .bf16)
    (c2 : Vec F S9x1 .f32) (w3 : Vec F S16x9 .bf16) (c3 : Vec F S16x1 .f32) (q : Fin 25600),
    (∀ k : Fin 25, x0 (ValueIdx.ix2 k q) = x0' (ValueIdx.ix2 k q)) →
    ∀ p : Fin 16, k1_pay1 x0 w1 c1 w2 c2 w3 c3 (ValueIdx.ix2 p q) = k1_pay1 x0' w1 c1 w2 c2 w3 c3 (ValueIdx.ix2 p q))

theorem xsize3_0_0 (i : grid3.Coords) : win3_0.xsize i 0 = 25 := rfl
theorem xsize3_0_1 (i : grid3.Coords) : win3_0.xsize i 1 = win3_7.xsize i 1 := rfl

include hloc in

-- A column of the result depends on the same column of x only, so the columns inside the array do not depend on what lies past its end.
theorem cut_pay_fill (i : grid3.Coords) (d d' : S25x25600.Idx → Elt F .f32) (g : (win3_0.xblock i).Idx → Elt F .f32)
    (w1 : Vec F S9x25 .bf16) (c1 : Vec F S9x1 .f32) (w2 : Vec F S9x9 .bf16)
    (c2 : Vec F S9x1 .f32) (w3 : Vec F S16x9 .bf16) (c3 : Vec F S16x1 .f32) :
    win3_7.cut i (k1_pay1 (win3_0.fill i d g) w1 c1 w2 c2 w3 c3) = win3_7.cut i (k1_pay1 (win3_0.fill i d' g) w1 c1 w2 c2 w3 c3) := by
  funext j
  have h0 : (j 0).val < 16 := Nat.lt_of_lt_of_le (j 0).isLt (win3_7.xsize_le i 0)
  have h1 : (j 1).val < 25600 := Nat.lt_of_lt_of_le (j 1).isLt (win3_7.xsize_le i 1)
  have hx : win3_7.xinj i j = ValueIdx.ix2 (⟨(j 0).val, h0⟩ : Fin 16) (⟨(j 1).val, h1⟩ : Fin 25600) :=
    funext fun a => by match a with | ⟨0, _⟩ => rfl | ⟨1, _⟩ => rfl
  show k1_pay1 (win3_0.fill i d g) w1 c1 w2 c2 w3 c3 (win3_7.xinj i j) = k1_pay1 (win3_0.fill i d' g) w1 c1 w2 c2 w3 c3 (win3_7.xinj i j)
  rw [hx]
  refine hloc _ _ w1 c1 w2 c2 w3 c3 ⟨(j 1).val, h1⟩ (fun k => ?_) ⟨(j 0).val, h0⟩
  have hm : win3_0.moved i (ValueIdx.ix2 k (⟨(j 1).val, h1⟩ : Fin 25600)) = true := (win3_0.moved_iff i _).mpr fun a => by
    match a with
    | ⟨0, _⟩ => show k.val < win3_0.xsize i 0; rw [xsize3_0_0]; exact k.isLt
    | ⟨1, _⟩ => show (j 1).val < win3_0.xsize i 1; rw [xsize3_0_1]; exact (j 1).isLt
  unfold Window.fill; rw [dif_pos hm, dif_pos hm]

def bodyPre3 (c : Dev nD) (t : Fin cfg3.N) : sProp 𝕄 :=
  iprop((dat3 (U := U) V c).Φ t.castSucc ∗ (dat3 (U := U) V c).owesAt () t.castSucc
    ∗ (∃ d, owns (c : Thread nD τ) (st3_0 t) fullShare ((dat3 (U := U) V c).before 0 t d))
    ∗ (∃ d, owns (c : Thread nD τ) (st3_1 t) fullShare ((dat3 (U := U) V c).before 1 t d))
    ∗ (∃ d, owns (c : Thread nD τ) (st3_2 t) fullShare ((dat3 (U := U) V c).before 2 t d))
    ∗ (∃ d, owns (c : Thread nD τ) (st3_3 t) fullShare ((dat3 (U := U) V c).before 3 t d))
    ∗ (∃ d, owns (c : Thread nD τ) (st3_4 t) fullShare ((dat3 (U := U) V c).before 4 t d))
    ∗ (∃ d, owns (c : Thread nD τ) (st3_5 t) fullShare ((dat3 (U := U) V c).before 5 t d))
    ∗ (∃ d, owns (c : Thread nD τ) (st3_6 t) fullShare ((dat3 (U := U) V c).before 6 t d))
    ∗ (∃ d, owns (c : Thread nD τ) (st3_7 t) fullShare ((dat3 (U := U) V c).before 7 t d)))

def bodyPost3 (c : Dev nD) (t : Fin cfg3.N) : sProp 𝕄 :=
  iprop((dat3 (U := U) V c).Φ t.succ ∗ (dat3 (U := U) V c).owesAt () t.succ
    ∗ (∃ d, owns (c : Thread nD τ) (st3_0 t) fullShare
        (win3_0.fill (grid3.coords t) d (win3_0.cut (grid3.coords t) ((dat3 (U := U) V c).after 0 t))))
    ∗ owns (c : Thread nD τ) (st3_1 t) fullShare ((dat3 (U := U) V c).after 1 t)
    ∗ owns (c : Thread nD τ) (st3_2 t) fullShare ((dat3 (U := U) V c).after 2 t)
    ∗ owns (c : Thread nD τ) (st3_3 t) fullShare ((dat3 (U := U) V c).after 3 t)
    ∗ owns (c : Thread nD τ) (st3_4 t) fullShare ((dat3 (U := U) V c).after 4 t)
    ∗ owns (c : Thread nD τ) (st3_5 t) fullShare ((dat3 (U := U) V c).after 5 t)
    ∗ owns (c : Thread nD τ) (st3_6 t) fullShare ((dat3 (U := U) V c).after 6 t)
    ∗ (∃ d, owns (c : Thread nD τ) (st3_7 t) fullShare
        (win3_7.fill (grid3.coords t) d (win3_7.cut (grid3.coords t) ((dat3 (U := U) V c).after 7 t)))))

include hloc in

theorem sound_body3 (c : Dev nD) (t : Fin cfg3.N) :
    bodyPre3 (U := U) V c t ⊢ wp frame (wpE (defs₀ (F := F)) Variants.none c none) Set.univ (bodyAt3 t) (fun _ => bodyPost3 (U := U) V c t) := by
  unfold bodyPre3 bodyPost3 bodyAt3
  simp only [before3_0, before3_1, before3_2, before3_3, before3_4, before3_5, before3_6, before3_7]
  rw [show (dat3 (U := U) V c).Φ t.succ = (dat3 (U := U) V c).Φ t.castSucc from rfl,
    show (dat3 (U := U) V c).owesAt () t.succ = (dat3 (U := U) V c).owesAt () t.castSucc from rfl,
    after3_0, after3_1, after3_2, after3_3, after3_4, after3_5, after3_6, after3_7, win3_0.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 (U := U) (k := @cc3__node_mlp_kernel F _) rfl c Set.univ _ _ _ _ _ _ _ _ _ _ _ _ _ _ _ _ _
    (win3_0.fill (grid3.coords t) d0 (iblk3 V c 0 t)) (iblk3 V c 1 t) (iblk3 V c 2 t) (iblk3 V c 3 t) (iblk3 V c 4 t)
    (iblk3 V c 5 t) (iblk3 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  iexists (out1_7 (win3_0.fill (grid3.coords t) d0 (iblk3 V c 0 t)) (iblk3 V c 1 t) (iblk3 V c 2 t) (iblk3 V c 3 t)
    (iblk3 V c 4 t) (iblk3 V c 5 t) (iblk3 V c 6 t))
  rw [win3_7.fill_congr_cut (grid3.coords t) (by
    rw [out1_7_eq, out1_7_eq]
    exact cut_pay_fill hloc (grid3.coords t) _ _ _ _ _ _ _ _ _)]
  iexact H7

include hloc in

theorem body_obligation3 (c : Dev nD) :
    BodyObligationLoose (dat3 (F := F) (U := U) V c) (defs₀ (F := F)) Variants.none () Set.univ := fun t => by
  rw [bigSep_W3, bigSep_W3]
  exact sound_body3 V hloc c t

omit hloc

def res3 (c : Dev nD) (t : Fin cfg3.N) : Vec F S16x25600 .f32 :=
  k1_pay1 (win3_0.fill (grid3.coords t) (fun _ => Scalar.ofBits .f32 0#32) (iblk3 V c 0 t)) (iblk3 V c 1 t)
    (iblk3 V c 2 t) (iblk3 V c 3 t) (iblk3 V c 4 t) (iblk3 V c 5 t) (iblk3 V c 6 t)

theorem after3_7_res (c : Dev nD) (t : Fin cfg3.N) : (dat3 (U := U) V c).after 7 t = res3 V c t := by
  rw [after3_7, out1_7_eq]; rfl

def pt3 (n : Fin 100000) : Fin cfg3.N :=
  ⟨n.val / 25600, Nat.lt_of_lt_of_eq (by have := n.isLt; omega : n.val / 25600 < 4) N_3.symm⟩

def col3 (n : Fin 100000) : Fin 25600 := ⟨n.val % 25600, Nat.mod_lt _ (by decide)⟩

def G3 (c : Dev nD) : S16x100000.Idx → Elt F .f32 := fun i =>
  res3 V c (pt3 ⟨(i 1).val, ValueIdx.idx2_lt1 i⟩)
    (ValueIdx.ix2 (⟨(i 0).val, ValueIdx.idx2_lt0 i⟩ : Fin 16) (col3 ⟨(i 1).val, ValueIdx.idx2_lt1 i⟩))

theorem G3_at (c : Dev nD) (t : Fin cfg3.N) (i : S16x100000.Idx) (p : Fin 16) (q : Fin 25600)
    (h0 : (i 0).val = p.val) (h1 : (i 1).val = t.val * 25600 + q.val) : G3 V c i = res3 V c t (ValueIdx.ix2 p q) := by
  unfold G3
  have hp : pt3 ⟨(i 1).val, ValueIdx.idx2_lt1 i⟩ = t :=
    Fin.ext (by show (i 1).val / 25600 = t.val; have := q.isLt; omega)
  have hq : col3 ⟨(i 1).val, ValueIdx.idx2_lt1 i⟩ = q :=
    Fin.ext (by show (i 1).val % 25600 = q.val; have := q.isLt; omega)
  have hp0 : (⟨(i 0).val, ValueIdx.idx2_lt0 i⟩ : Fin 16) = p := Fin.ext h0
  rw [hp, hq, hp0]

theorem idx3_7 : ∀ t : Fin cfg3.N, win3_7.index t (0 : Fin 2) = 0 ∧ win3_7.index t (1 : Fin 2) = t.val
    ∧ win3_7.xsize (grid3.coords t) (0 : Fin 2) = 16
    ∧ ((t.val + 1) * 25600 ≤ 100000 → win3_7.xsize (grid3.coords t) (1 : Fin 2) = 25600)
    ∧ (100000 < (t.val + 1) * 25600 → t.val * 25600 + win3_7.xsize (grid3.coords t) (1 : Fin 2) = 100000) :=
  (by decide +kernel : ∀ t : Fin grid3.N, _)

-- What point t writes back is block t, cut at the array's end, of one function of the index.
theorem flushed3_7 (c : Dev nD) (t : Fin cfg3.N) :
    (dat3 (U := U) V c).flushed 7 t = ((cfg3.win 7).blk t).view.read (Elt F) (G3 V c) := by
  show (cfg3.win 7).cut (grid3.coords t) ((dat3 (U := U) V c).after 7 t) = _
  rw [after3_7_res]
  obtain ⟨e0, e1, -, -, -⟩ := idx3_7 t
  funext j
  have h0 : (j 0).val < 16 := Nat.lt_of_lt_of_le (j 0).isLt (win3_7.xsize_le (grid3.coords t) 0)
  have h1 : (j 1).val < 25600 := Nat.lt_of_lt_of_le (j 1).isLt (win3_7.xsize_le (grid3.coords t) 1)
  have hx : win3_7.xinj (grid3.coords t) j = ValueIdx.ix2 (⟨(j 0).val, h0⟩ : Fin 16) (⟨(j 1).val, h1⟩ : Fin 25600) :=
    funext fun a => by match a with | ⟨0, _⟩ => rfl | ⟨1, _⟩ => rfl
  show res3 V c t (win3_7.xinj (grid3.coords t) j) = G3 V c (((cfg3.win 7).blk t).view.emb j)
  have a0 : ((((cfg3.win 7).blk t).view.emb j) 0).val = (j 0).val := by
    show win3_7.index t (0 : Fin 2) * 16 + 1 * (j 0).val = (j 0).val; rw [e0]; omega
  have a1 : ((((cfg3.win 7).blk t).view.emb j) 1).val = t.val * 25600 + (j 1).val := by
    show win3_7.index t (1 : Fin 2) * 25600 + 1 * (j 1).val = t.val * 25600 + (j 1).val; rw [e1]; omega
  rw [hx]
  exact (G3_at V c t _ ⟨(j 0).val, h0⟩ ⟨(j 1).val, h1⟩ a0 a1).symm

theorem mem_blk3_7 (t : Fin cfg3.N) (i : S16x100000.Idx) :
    i ∈ ((cfg3.win 7).blk t).view.set
      ↔ t.val * 25600 ≤ (i 1).val ∧ (i 1).val < t.val * 25600 + win3_7.xsize (grid3.coords t) (1 : Fin 2) := by
  show i ∈ ((View.whole main_v66).slice (win3_7.rect t)).set ↔ _
  rw [View.set_slice_whole, Rect.mem_set_unit]
  obtain ⟨e0, e1, x0, -, -⟩ := idx3_7 t
  have hi0 : (i 0).val < 16 := ValueIdx.idx2_lt0 i
  constructor
  · intro h
    have b1 : win3_7.index t (1 : Fin 2) * 25600 ≤ (i 1).val
        ∧ (i 1).val < win3_7.index t (1 : Fin 2) * 25600 + win3_7.xsize (grid3.coords t) (1 : Fin 2) := h 1
    rw [e1] at b1; exact b1
  · intro h a
    match a with
    | ⟨0, _⟩ =>
      show win3_7.index t (0 : Fin 2) * 16 ≤ (i 0).val
        ∧ (i 0).val < win3_7.index t (0 : Fin 2) * 16 + win3_7.xsize (grid3.coords t) (0 : Fin 2)
      rw [e0, x0]; omega
    | ⟨1, _⟩ =>
      show win3_7.index t (1 : Fin 2) * 25600 ≤ (i 1).val
        ∧ (i 1).val < win3_7.index t (1 : Fin 2) * 25600 + win3_7.xsize (grid3.coords t) (1 : Fin 2)
      rw [e1]; exact h

theorem final3 (c : Dev nD) (p : Fin 16) (n : Fin 100000) :
    (dat3 (U := U) V c).arrAt 7 cfg3.N (ValueIdx.ix2 p n)
      = k1_pay1 (win3_0.fill (grid3.coords (pt3 n)) (fun _ => Scalar.ofBits .f32 0#32) (iblk3 V c 0 (pt3 n)))
          (iblk3 V c 1 (pt3 n)) (iblk3 V c 2 (pt3 n)) (iblk3 V c 3 (pt3 n)) (iblk3 V c 4 (pt3 n)) (iblk3 V c 5 (pt3 n))
          (iblk3 V c 6 (pt3 n)) (ValueIdx.ix2 p (col3 n)) := by
  have hmem : (ValueIdx.ix2 p n : S16x100000.Idx) ∈ ((cfg3.win 7).blk (pt3 n)).view.set := by
    rw [mem_blk3_7]
    obtain ⟨-, -, -, x1, x1'⟩ := idx3_7 (pt3 n)
    have hn : n.val < 100000 := n.isLt
    show (pt3 n).val * 25600 ≤ n.val ∧ n.val < (pt3 n).val * 25600 + win3_7.xsize (grid3.coords (pt3 n)) (1 : Fin 2)
    have hv : (pt3 n).val = n.val / 25600 := rfl
    rcases Nat.lt_or_ge 100000 (((pt3 n).val + 1) * 25600) with hc | hc
    · have := x1' hc; omega
    · have := x1 hc; omega
  refine ((dat3 (U := U) V c).arrAt_apply_of_mem 7 (G3 V c) (fun t _ => flushed3_7 V c t) cfg3.N (pt3 n)
    (ValueIdx.ix2 p n) (pt3 n).isLt (flush3_7 _) hmem).trans ?_
  exact G3_at V c (pt3 n) _ p (col3 n) rfl (by
    show n.val = n.val / 25600 * 25600 + n.val % 25600
    omega)

theorem iblk3_1 (c : Dev nD) (t : Fin cfg3.N) : iblk3 V c 1 t = V c main_v10 := by
  funext j
  exact congrArg (V c main_v10) (funext fun a => Fin.ext (by
    match a with
    | ⟨0, _⟩ | ⟨1, _⟩ => (show 0 * _ + 1 * _ = _); omega))
theorem iblk3_2 (c : Dev nD) (t : Fin cfg3.N) : iblk3 V c 2 t = V c main_v11 := by
  funext j
  exact congrArg (V c main_v11) (funext fun a => Fin.ext (by
    match a with
    | ⟨0, _⟩ | ⟨1, _⟩ => (show 0 * _ + 1 * _ = _); omega))
theorem iblk3_3 (c : Dev nD) (t : Fin cfg3.N) : iblk3 V c 3 t = V c main_v13 := by
  funext j
  exact congrArg (V c main_v13) (funext fun a => Fin.ext (by
    match a with
    | ⟨0, _⟩ | ⟨1, _⟩ => (show 0 * _ + 1 * _ = _); omega))
theorem iblk3_4 (c : Dev nD) (t : Fin cfg3.N) : iblk3 V c 4 t = V c main_v14 := by
  funext j
  exact congrArg (V c main_v14) (funext fun a => Fin.ext (by
    match a with
    | ⟨0, _⟩ | ⟨1, _⟩ => (show 0 * _ + 1 * _ = _); omega))
theorem iblk3_5 (c : Dev nD) (t : Fin cfg3.N) : iblk3 V c 5 t = V c main_v16 := by
  funext j
  exact congrArg (V c main_v16) (funext fun a => Fin.ext (by
    match a with
    | ⟨0, _⟩ | ⟨1, _⟩ => (show 0 * _ + 1 * _ = _); omega))
theorem iblk3_6 (c : Dev nD) (t : Fin cfg3.N) : iblk3 V c 6 t = V c main_v17 := by
  funext j
  exact congrArg (V c main_v17) (funext fun a => Fin.ext (by
    match a with
    | ⟨0, _⟩ | ⟨1, _⟩ => (show 0 * _ + 1 * _ = _); omega))

theorem x_at (c : Dev nD) (k : Fin 25) (n : Fin 100000) :
    win3_0.fill (grid3.coords (pt3 n)) (fun _ => Scalar.ofBits .f32 0#32) (iblk3 V c 0 (pt3 n)) (ValueIdx.ix2 k (col3 n))
      = V c main_v65 (ValueIdx.ix2 k n) := by
  obtain ⟨-, e1, -, x1, x1'⟩ := idx3_7 (pt3 n)
  have hn : n.val < 100000 := n.isLt
  have hv : (pt3 n).val = n.val / 25600 := rfl
  have hcol : (col3 n).val = n.val % 25600 := rfl
  have hlt : (col3 n).val < win3_7.xsize (grid3.coords (pt3 n)) (1 : Fin 2) := by
    rcases Nat.lt_or_ge 100000 (((pt3 n).val + 1) * 25600) with hc | hc
    · have := x1' hc; omega
    · have := x1 hc; omega
  have hm : win3_0.moved (grid3.coords (pt3 n)) (ValueIdx.ix2 k (col3 n)) = true :=
    (win3_0.moved_iff _ _).mpr fun a => by
      match a with
      | ⟨0, _⟩ => show k.val < win3_0.xsize (grid3.coords (pt3 n)) 0; rw [xsize3_0_0]; exact k.isLt
      | ⟨1, _⟩ => show (col3 n).val < win3_0.xsize (grid3.coords (pt3 n)) 1; rw [xsize3_0_1]; exact hlt
  unfold Window.fill; rw [dif_pos hm]
  show V c main_v65 (((cfg3.win 0).blk (pt3 n)).view.emb _) = V c main_v65 (ValueIdx.ix2 k n)
  refine congrArg _ (funext fun a => Fin.ext ?_)
  match a with
  | ⟨0, _⟩ =>
    show win3_0.index (pt3 n) (0 : Fin 2) * 25 + 1 * k.val = k.val
    rw [show win3_0.index (pt3 n) (0 : Fin 2) = 0 from rfl]; omega
  | ⟨1, _⟩ =>
    show win3_0.index (pt3 n) (1 : Fin 2) * 25600 + 1 * (col3 n).val = n.val
    rw [show win3_0.index (pt3 n) (1 : Fin 2) = win3_7.index (pt3 n) (1 : Fin 2) from rfl, e1]; omega

-- Row p, column n of the result array is the perceptron of column n of x at the weights as the region finds them.
theorem final3_arrays (c : Dev nD) (p : Fin 16) (n : Fin 100000) :
    (dat3 (U := U) V c).arrAt 7 cfg3.N (ValueIdx.ix2 p n)
      = k1_pay1 (win3_0.fill (grid3.coords (pt3 n)) (fun _ => Scalar.ofBits .f32 0#32) (iblk3 V c 0 (pt3 n)))
          (V c main_v10) (V c main_v11) (V c main_v13) (V c main_v14) (V c main_v16) (V c main_v17)
          (ValueIdx.ix2 p (col3 n)) := by
  rw [final3, iblk3_1, iblk3_2, iblk3_3, iblk3_4, iblk3_5, iblk3_6]

end Cert.KernelIdeal.Hand3

end
-- ==== Proof.KI.Node5.lean ====
import proofs.«127178_j23579370455142_2_alg».proof.Proof.KI.Node1
import proofs.«127178_j23579370455142_2_alg».proof.Proof.Gen.KernelIdeal.Launch
import proofs.«127178_j23579370455142_2_alg».proof.Proof.Gen.KernelIdeal.Skeleton
import proofs.«127178_j23579370455142_2_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand5

open Cert.KernelIdeal.Hand (out1_7 out1_7_eq sound_kernel1)

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable {U : Type} [URA U]

local notation "𝕄" => MT nD τ sig Unit (Elt F) ℕ U ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

def dat5 (c : Dev nD) : Dat τ (Elt F) Unit ℕ U ℕ cfg5 c where
  A w := V c (Pipeline.arrRef spec5 w)
  after w t := match w with
    | ⟨0, _⟩ => win5_0.fill (grid5.coords t) (fun _ => Scalar.ofBits .f32 0#32) (iblk5 V c 0 t)
    | ⟨1, _⟩ => iblk5 V c 1 t
    | ⟨2, _⟩ => iblk5 V c 2 t
    | ⟨3, _⟩ => iblk5 V c 3 t
    | ⟨4, _⟩ => iblk5 V c 4 t
    | ⟨5, _⟩ => iblk5 V c 5 t
    | ⟨6, _⟩ => iblk5 V c 6 t
    | ⟨7, _⟩ => out1_7 (win5_0.fill (grid5.coords t) (fun _ => Scalar.ofBits .f32 0#32) (iblk5 V c 0 t)) (iblk5 V c 1 t)
        (iblk5 V c 2 t) (iblk5 V c 3 t) (iblk5 V c 4 t) (iblk5 V c 5 t) (iblk5 V c 6 t)
  Φ _ := Pipeline.ΦA spec5 c
  q _ := fullShare
  owed _ := 0

theorem A_eq5 (c : Dev nD) (w : Fin cfg5.W) : (dat5 (U := U) V c).A w = V c (Pipeline.arrRef spec5 w) := by
  dsimp only [dat5]

theorem after5_0 (c : Dev nD) (t : Fin cfg5.N) : (dat5 (U := U) V c).after 0 t
    = win5_0.fill (grid5.coords t) (fun _ => Scalar.ofBits .f32 0#32) (iblk5 V c 0 t) := by dsimp only [dat5]
theorem after5_1 (c : Dev nD) (t : Fin cfg5.N) : (dat5 (U := U) V c).after 1 t = iblk5 V c 1 t := by dsimp only [dat5]
theorem after5_2 (c : Dev nD) (t : Fin cfg5.N) : (dat5 (U := U) V c).after 2 t = iblk5 V c 2 t := by dsimp only [dat5]
theorem after5_3 (c : Dev nD) (t : Fin cfg5.N) : (dat5 (U := U) V c).after 3 t = iblk5 V c 3 t := by dsimp only [dat5]
theorem after5_4 (c : Dev nD) (t : Fin cfg5.N) : (dat5 (U := U) V c).after 4 t = iblk5 V c 4 t := by dsimp only [dat5]
theorem after5_5 (c : Dev nD) (t : Fin cfg5.N) : (dat5 (U := U) V c).after 5 t = iblk5 V c 5 t := by dsimp only [dat5]
theorem after5_6 (c : Dev nD) (t : Fin cfg5.N) : (dat5 (U := U) V c).after 6 t = iblk5 V c 6 t := by dsimp only [dat5]
theorem after5_7 (c : Dev nD) (t : Fin cfg5.N) : (dat5 (U := U) V c).after 7 t
    = out1_7 (win5_0.fill (grid5.coords t) (fun _ => Scalar.ofBits .f32 0#32) (iblk5 V c 0 t)) (iblk5 V c 1 t)
        (iblk5 V c 2 t) (iblk5 V c 3 t) (iblk5 V c 4 t) (iblk5 V c 5 t) (iblk5 V c 6 t) := by dsimp only [dat5]

theorem before5_0 (c : Dev nD) (t : Fin cfg5.N) (d) :
    (dat5 (U := U) V c).before 0 t d = win5_0.fill (grid5.coords t) d (iblk5 V c 0 t) := by
  unfold Dat.before; rw [if_pos (fetch5_0 t)]
  unfold Dat.fetched Dat.blockOf iblk5; rw [A_eq5]; try rfl

theorem before5_1 (c : Dev nD) (t : Fin cfg5.N) (d) : (dat5 (U := U) V c).before 1 t d = iblk5 V c 1 t :=
  ((dat5 V c).before_in_eq_fetched 1 rfl (fun _ => rfl) (fun _ _ _ => rfl) (fun _ => rfl) t d).trans rfl
theorem before5_2 (c : Dev nD) (t : Fin cfg5.N) (d) : (dat5 (U := U) V c).before 2 t d = iblk5 V c 2 t :=
  ((dat5 V c).before_in_eq_fetched 2 rfl (fun _ => rfl) (fun _ _ _ => rfl) (fun _ => rfl) t d).trans rfl
theorem before5_3 (c : Dev nD) (t : Fin cfg5.N) (d) : (dat5 (U := U) V c).before 3 t d = iblk5 V c 3 t :=
  ((dat5 V c).before_in_eq_fetched 3 rfl (fun _ => rfl) (fun _ _ _ => rfl) (fun _ => rfl) t d).trans rfl
theorem before5_4 (c : Dev nD) (t : Fin cfg5.N) (d) : (dat5 (U := U) V c).before 4 t d = iblk5 V c 4 t :=
  ((dat5 V c).before_in_eq_fetched 4 rfl (fun _ => rfl) (fun _ _ _ => rfl) (fun _ => rfl) t d).trans rfl
theorem before5_5 (c : Dev nD) (t : Fin cfg5.N) (d) : (dat5 (U := U) V c).before 5 t d = iblk5 V c 5 t :=
  ((dat5 V c).before_in_eq_fetched 5 rfl (fun _ => rfl) (fun _ _ _ => rfl) (fun _ => rfl) t d).trans rfl
theorem before5_6 (c : Dev nD) (t : Fin cfg5.N) (d) : (dat5 (U := U) V c).before 6 t d = iblk5 V c 6 t :=
  ((dat5 V c).before_in_eq_fetched 6 rfl (fun _ => rfl) (fun _ _ _ => rfl) (fun _ => rfl) t d).trans rfl

theorem before5_7 (c : Dev nD) (t : Fin cfg5.N) (d) : (dat5 (U := U) V c).before 7 t d = d :=
  (dat5 (U := U) V c).before_out_reset 7 rfl t (by
    by_cases h : t.val = 0
    · exact .inl h
    · exact .inr ⟨h, flush5_7 _⟩) d

variable (hloc : ∀ (x0 x0' : Vec F S25x25600 .f32) (w1 : Vec F S9x25 .bf16) (c1 : Vec F S9x1 .f32) (w2 : Vec F S9x9 .bf16)
    (c2 : Vec F S9x1 .f32) (w3 : Vec F S16x9 .bf16) (c3 : Vec F S16x1 .f32) (q : Fin 25600),
    (∀ k : Fin 25, x0 (ValueIdx.ix2 k q) = x0' (ValueIdx.ix2 k q)) →
    ∀ p : Fin 16, k1_pay1 x0 w1 c1 w2 c2 w3 c3 (ValueIdx.ix2 p q) = k1_pay1 x0' w1 c1 w2 c2 w3 c3 (ValueIdx.ix2 p q))

theorem xsize5_0_0 (i : grid5.Coords) : win5_0.xsize i 0 = 25 := rfl
theorem xsize5_0_1 (i : grid5.Coords) : win5_0.xsize i 1 = win5_7.xsize i 1 := rfl

include hloc in

-- A column of the result depends on the same column of x only, so the columns inside the array do not depend on what lies past its end.
theorem cut_pay_fill (i : grid5.Coords) (d d' : S25x25600.Idx → Elt F .f32) (g : (win5_0.xblock i).Idx → Elt F .f32)
    (w1 : Vec F S9x25 .bf16) (c1 : Vec F S9x1 .f32) (w2 : Vec F S9x9 .bf16)
    (c2 : Vec F S9x1 .f32) (w3 : Vec F S16x9 .bf16) (c3 : Vec F S16x1 .f32) :
    win5_7.cut i (k1_pay1 (win5_0.fill i d g) w1 c1 w2 c2 w3 c3) = win5_7.cut i (k1_pay1 (win5_0.fill i d' g) w1 c1 w2 c2 w3 c3) := by
  funext j
  have h0 : (j 0).val < 16 := Nat.lt_of_lt_of_le (j 0).isLt (win5_7.xsize_le i 0)
  have h1 : (j 1).val < 25600 := Nat.lt_of_lt_of_le (j 1).isLt (win5_7.xsize_le i 1)
  have hx : win5_7.xinj i j = ValueIdx.ix2 (⟨(j 0).val, h0⟩ : Fin 16) (⟨(j 1).val, h1⟩ : Fin 25600) :=
    funext fun a => by match a with | ⟨0, _⟩ => rfl | ⟨1, _⟩ => rfl
  show k1_pay1 (win5_0.fill i d g) w1 c1 w2 c2 w3 c3 (win5_7.xinj i j) = k1_pay1 (win5_0.fill i d' g) w1 c1 w2 c2 w3 c3 (win5_7.xinj i j)
  rw [hx]
  refine hloc _ _ w1 c1 w2 c2 w3 c3 ⟨(j 1).val, h1⟩ (fun k => ?_) ⟨(j 0).val, h0⟩
  have hm : win5_0.moved i (ValueIdx.ix2 k (⟨(j 1).val, h1⟩ : Fin 25600)) = true := (win5_0.moved_iff i _).mpr fun a => by
    match a with
    | ⟨0, _⟩ => show k.val < win5_0.xsize i 0; rw [xsize5_0_0]; exact k.isLt
    | ⟨1, _⟩ => show (j 1).val < win5_0.xsize i 1; rw [xsize5_0_1]; exact (j 1).isLt
  unfold Window.fill; rw [dif_pos hm, dif_pos hm]

def bodyPre5 (c : Dev nD) (t : Fin cfg5.N) : sProp 𝕄 :=
  iprop((dat5 (U := U) V c).Φ t.castSucc ∗ (dat5 (U := U) V c).owesAt () t.castSucc
    ∗ (∃ d, owns (c : Thread nD τ) (st5_0 t) fullShare ((dat5 (U := U) V c).before 0 t d))
    ∗ (∃ d, owns (c : Thread nD τ) (st5_1 t) fullShare ((dat5 (U := U) V c).before 1 t d))
    ∗ (∃ d, owns (c : Thread nD τ) (st5_2 t) fullShare ((dat5 (U := U) V c).before 2 t d))
    ∗ (∃ d, owns (c : Thread nD τ) (st5_3 t) fullShare ((dat5 (U := U) V c).before 3 t d))
    ∗ (∃ d, owns (c : Thread nD τ) (st5_4 t) fullShare ((dat5 (U := U) V c).before 4 t d))
    ∗ (∃ d, owns (c : Thread nD τ) (st5_5 t) fullShare ((dat5 (U := U) V c).before 5 t d))
    ∗ (∃ d, owns (c : Thread nD τ) (st5_6 t) fullShare ((dat5 (U := U) V c).before 6 t d))
    ∗ (∃ d, owns (c : Thread nD τ) (st5_7 t) fullShare ((dat5 (U := U) V c).before 7 t d)))

def bodyPost5 (c : Dev nD) (t : Fin cfg5.N) : sProp 𝕄 :=
  iprop((dat5 (U := U) V c).Φ t.succ ∗ (dat5 (U := U) V c).owesAt () t.succ
    ∗ (∃ d, owns (c : Thread nD τ) (st5_0 t) fullShare
        (win5_0.fill (grid5.coords t) d (win5_0.cut (grid5.coords t) ((dat5 (U := U) V c).after 0 t))))
    ∗ owns (c : Thread nD τ) (st5_1 t) fullShare ((dat5 (U := U) V c).after 1 t)
    ∗ owns (c : Thread nD τ) (st5_2 t) fullShare ((dat5 (U := U) V c).after 2 t)
    ∗ owns (c : Thread nD τ) (st5_3 t) fullShare ((dat5 (U := U) V c).after 3 t)
    ∗ owns (c : Thread nD τ) (st5_4 t) fullShare ((dat5 (U := U) V c).after 4 t)
    ∗ owns (c : Thread nD τ) (st5_5 t) fullShare ((dat5 (U := U) V c).after 5 t)
    ∗ owns (c : Thread nD τ) (st5_6 t) fullShare ((dat5 (U := U) V c).after 6 t)
    ∗ (∃ d, owns (c : Thread nD τ) (st5_7 t) fullShare
        (win5_7.fill (grid5.coords t) d (win5_7.cut (grid5.coords t) ((dat5 (U := U) V c).after 7 t)))))

include hloc in

theorem sound_body5 (c : Dev nD) (t : Fin cfg5.N) :
    bodyPre5 (U := U) V c t ⊢ wp frame (wpE (defs₀ (F := F)) Variants.none c none) Set.univ (bodyAt5 t) (fun _ => bodyPost5 (U := U) V c t) := by
  unfold bodyPre5 bodyPost5 bodyAt5
  simp only [before5_0, before5_1, before5_2, before5_3, before5_4, before5_5, before5_6, before5_7]
  rw [show (dat5 (U := U) V c).Φ t.succ = (dat5 (U := U) V c).Φ t.castSucc from rfl,
    show (dat5 (U := U) V c).owesAt () t.succ = (dat5 (U := U) V c).owesAt () t.castSucc from rfl,
    after5_0, after5_1, after5_2, after5_3, after5_4, after5_5, after5_6, after5_7, win5_0.cut_fill]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 (U := U) (k := @cc5__node_mlp_kernel F _) rfl c Set.univ _ _ _ _ _ _ _ _ _ _ _ _ _ _ _ _ _
    (win5_0.fill (grid5.coords t) d0 (iblk5 V c 0 t)) (iblk5 V c 1 t) (iblk5 V c 2 t) (iblk5 V c 3 t) (iblk5 V c 4 t)
    (iblk5 V c 5 t) (iblk5 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists d0; iexact H0
  isplitl [H1]; · iexact H1
  isplitl [H2]; · iexact H2
  isplitl [H3]; · iexact H3
  isplitl [H4]; · iexact H4
  isplitl [H5]; · iexact H5
  isplitl [H6]; · iexact H6
  iexists (out1_7 (win5_0.fill (grid5.coords t) d0 (iblk5 V c 0 t)) (iblk5 V c 1 t) (iblk5 V c 2 t) (iblk5 V c 3 t)
    (iblk5 V c 4 t) (iblk5 V c 5 t) (iblk5 V c 6 t))
  rw [win5_7.fill_congr_cut (grid5.coords t) (by
    rw [out1_7_eq, out1_7_eq]
    exact cut_pay_fill hloc (grid5.coords t) _ _ _ _ _ _ _ _ _)]
  iexact H7

include hloc in

theorem body_obligation5 (c : Dev nD) :
    BodyObligationLoose (dat5 (F := F) (U := U) V c) (defs₀ (F := F)) Variants.none () Set.univ := fun t => by
  rw [bigSep_W5, bigSep_W5]
  exact sound_body5 V hloc c t

omit hloc

def res5 (c : Dev nD) (t : Fin cfg5.N) : Vec F S16x25600 .f32 :=
  k1_pay1 (win5_0.fill (grid5.coords t) (fun _ => Scalar.ofBits .f32 0#32) (iblk5 V c 0 t)) (iblk5 V c 1 t)
    (iblk5 V c 2 t) (iblk5 V c 3 t) (iblk5 V c 4 t) (iblk5 V c 5 t) (iblk5 V c 6 t)

theorem after5_7_res (c : Dev nD) (t : Fin cfg5.N) : (dat5 (U := U) V c).after 7 t = res5 V c t := by
  rw [after5_7, out1_7_eq]; rfl

def pt5 (n : Fin 100000) : Fin cfg5.N :=
  ⟨n.val / 25600, Nat.lt_of_lt_of_eq (by have := n.isLt; omega : n.val / 25600 < 4) N_5.symm⟩

def col5 (n : Fin 100000) : Fin 25600 := ⟨n.val % 25600, Nat.mod_lt _ (by decide)⟩

def G5 (c : Dev nD) : S16x100000.Idx → Elt F .f32 := fun i =>
  res5 V c (pt5 ⟨(i 1).val, ValueIdx.idx2_lt1 i⟩)
    (ValueIdx.ix2 (⟨(i 0).val, ValueIdx.idx2_lt0 i⟩ : Fin 16) (col5 ⟨(i 1).val, ValueIdx.idx2_lt1 i⟩))

theorem G5_at (c : Dev nD) (t : Fin cfg5.N) (i : S16x100000.Idx) (p : Fin 16) (q : Fin 25600)
    (h0 : (i 0).val = p.val) (h1 : (i 1).val = t.val * 25600 + q.val) : G5 V c i = res5 V c t (ValueIdx.ix2 p q) := by
  unfold G5
  have hp : pt5 ⟨(i 1).val, ValueIdx.idx2_lt1 i⟩ = t :=
    Fin.ext (by show (i 1).val / 25600 = t.val; have := q.isLt; omega)
  have hq : col5 ⟨(i 1).val, ValueIdx.idx2_lt1 i⟩ = q :=
    Fin.ext (by show (i 1).val % 25600 = q.val; have := q.isLt; omega)
  have hp0 : (⟨(i 0).val, ValueIdx.idx2_lt0 i⟩ : Fin 16) = p := Fin.ext h0
  rw [hp, hq, hp0]

theorem idx5_7 : ∀ t : Fin cfg5.N, win5_7.index t (0 : Fin 2) = 0 ∧ win5_7.index t (1 : Fin 2) = t.val
    ∧ win5_7.xsize (grid5.coords t) (0 : Fin 2) = 16
    ∧ ((t.val + 1) * 25600 ≤ 100000 → win5_7.xsize (grid5.coords t) (1 : Fin 2) = 25600)
    ∧ (100000 < (t.val + 1) * 25600 → t.val * 25600 + win5_7.xsize (grid5.coords t) (1 : Fin 2) = 100000) :=
  (by decide +kernel : ∀ t : Fin grid5.N, _)

-- What point t writes back is block t, cut at the array's end, of one function of the index.
theorem flushed5_7 (c : Dev nD) (t : Fin cfg5.N) :
    (dat5 (U := U) V c).flushed 7 t = ((cfg5.win 7).blk t).view.read (Elt F) (G5 V c) := by
  show (cfg5.win 7).cut (grid5.coords t) ((dat5 (U := U) V c).after 7 t) = _
  rw [after5_7_res]
  obtain ⟨e0, e1, -, -, -⟩ := idx5_7 t
  funext j
  have h0 : (j 0).val < 16 := Nat.lt_of_lt_of_le (j 0).isLt (win5_7.xsize_le (grid5.coords t) 0)
  have h1 : (j 1).val < 25600 := Nat.lt_of_lt_of_le (j 1).isLt (win5_7.xsize_le (grid5.coords t) 1)
  have hx : win5_7.xinj (grid5.coords t) j = ValueIdx.ix2 (⟨(j 0).val, h0⟩ : Fin 16) (⟨(j 1).val, h1⟩ : Fin 25600) :=
    funext fun a => by match a with | ⟨0, _⟩ => rfl | ⟨1, _⟩ => rfl
  show res5 V c t (win5_7.xinj (grid5.coords t) j) = G5 V c (((cfg5.win 7).blk t).view.emb j)
  have a0 : ((((cfg5.win 7).blk t).view.emb j) 0).val = (j 0).val := by
    show win5_7.index t (0 : Fin 2) * 16 + 1 * (j 0).val = (j 0).val; rw [e0]; omega
  have a1 : ((((cfg5.win 7).blk t).view.emb j) 1).val = t.val * 25600 + (j 1).val := by
    show win5_7.index t (1 : Fin 2) * 25600 + 1 * (j 1).val = t.val * 25600 + (j 1).val; rw [e1]; omega
  rw [hx]
  exact (G5_at V c t _ ⟨(j 0).val, h0⟩ ⟨(j 1).val, h1⟩ a0 a1).symm

theorem mem_blk5_7 (t : Fin cfg5.N) (i : S16x100000.Idx) :
    i ∈ ((cfg5.win 7).blk t).view.set
      ↔ t.val * 25600 ≤ (i 1).val ∧ (i 1).val < t.val * 25600 + win5_7.xsize (grid5.coords t) (1 : Fin 2) := by
  show i ∈ ((View.whole main_v91).slice (win5_7.rect t)).set ↔ _
  rw [View.set_slice_whole, Rect.mem_set_unit]
  obtain ⟨e0, e1, x0, -, -⟩ := idx5_7 t
  have hi0 : (i 0).val < 16 := ValueIdx.idx2_lt0 i
  constructor
  · intro h
    have b1 : win5_7.index t (1 : Fin 2) * 25600 ≤ (i 1).val
        ∧ (i 1).val < win5_7.index t (1 : Fin 2) * 25600 + win5_7.xsize (grid5.coords t) (1 : Fin 2) := h 1
    rw [e1] at b1; exact b1
  · intro h a
    match a with
    | ⟨0, _⟩ =>
      show win5_7.index t (0 : Fin 2) * 16 ≤ (i 0).val
        ∧ (i 0).val < win5_7.index t (0 : Fin 2) * 16 + win5_7.xsize (grid5.coords t) (0 : Fin 2)
      rw [e0, x0]; omega
    | ⟨1, _⟩ =>
      show win5_7.index t (1 : Fin 2) * 25600 ≤ (i 1).val
        ∧ (i 1).val < win5_7.index t (1 : Fin 2) * 25600 + win5_7.xsize (grid5.coords t) (1 : Fin 2)
      rw [e1]; exact h

theorem final5 (c : Dev nD) (p : Fin 16) (n : Fin 100000) :
    (dat5 (U := U) V c).arrAt 7 cfg5.N (ValueIdx.ix2 p n)
      = k1_pay1 (win5_0.fill (grid5.coords (pt5 n)) (fun _ => Scalar.ofBits .f32 0#32) (iblk5 V c 0 (pt5 n)))
          (iblk5 V c 1 (pt5 n)) (iblk5 V c 2 (pt5 n)) (iblk5 V c 3 (pt5 n)) (iblk5 V c 4 (pt5 n)) (iblk5 V c 5 (pt5 n))
          (iblk5 V c 6 (pt5 n)) (ValueIdx.ix2 p (col5 n)) := by
  have hmem : (ValueIdx.ix2 p n : S16x100000.Idx) ∈ ((cfg5.win 7).blk (pt5 n)).view.set := by
    rw [mem_blk5_7]
    obtain ⟨-, -, -, x1, x1'⟩ := idx5_7 (pt5 n)
    have hn : n.val < 100000 := n.isLt
    show (pt5 n).val * 25600 ≤ n.val ∧ n.val < (pt5 n).val * 25600 + win5_7.xsize (grid5.coords (pt5 n)) (1 : Fin 2)
    have hv : (pt5 n).val = n.val / 25600 := rfl
    rcases Nat.lt_or_ge 100000 (((pt5 n).val + 1) * 25600) with hc | hc
    · have := x1' hc; omega
    · have := x1 hc; omega
  refine ((dat5 (U := U) V c).arrAt_apply_of_mem 7 (G5 V c) (fun t _ => flushed5_7 V c t) cfg5.N (pt5 n)
    (ValueIdx.ix2 p n) (pt5 n).isLt (flush5_7 _) hmem).trans ?_
  exact G5_at V c (pt5 n) _ p (col5 n) rfl (by
    show n.val = n.val / 25600 * 25600 + n.val % 25600
    omega)

theorem iblk5_1 (c : Dev nD) (t : Fin cfg5.N) : iblk5 V c 1 t = V c main_v10 := by
  funext j
  exact congrArg (V c main_v10) (funext fun a => Fin.ext (by
    match a with
    | ⟨0, _⟩ | ⟨1, _⟩ => (show 0 * _ + 1 * _ = _); omega))
theorem iblk5_2 (c : Dev nD) (t : Fin cfg5.N) : iblk5 V c 2 t = V c main_v11 := by
  funext j
  exact congrArg (V c main_v11) (funext fun a => Fin.ext (by
    match a with
    | ⟨0, _⟩ | ⟨1, _⟩ => (show 0 * _ + 1 * _ = _); omega))
theorem iblk5_3 (c : Dev nD) (t : Fin cfg5.N) : iblk5 V c 3 t = V c main_v13 := by
  funext j
  exact congrArg (V c main_v13) (funext fun a => Fin.ext (by
    match a with
    | ⟨0, _⟩ | ⟨1, _⟩ => (show 0 * _ + 1 * _ = _); omega))
theorem iblk5_4 (c : Dev nD) (t : Fin cfg5.N) : iblk5 V c 4 t = V c main_v14 := by
  funext j
  exact congrArg (V c main_v14) (funext fun a => Fin.ext (by
    match a with
    | ⟨0, _⟩ | ⟨1, _⟩ => (show 0 * _ + 1 * _ = _); omega))
theorem iblk5_5 (c : Dev nD) (t : Fin cfg5.N) : iblk5 V c 5 t = V c main_v16 := by
  funext j
  exact congrArg (V c main_v16) (funext fun a => Fin.ext (by
    match a with
    | ⟨0, _⟩ | ⟨1, _⟩ => (show 0 * _ + 1 * _ = _); omega))
theorem iblk5_6 (c : Dev nD) (t : Fin cfg5.N) : iblk5 V c 6 t = V c main_v17 := by
  funext j
  exact congrArg (V c main_v17) (funext fun a => Fin.ext (by
    match a with
    | ⟨0, _⟩ | ⟨1, _⟩ => (show 0 * _ + 1 * _ = _); omega))

theorem x_at (c : Dev nD) (k : Fin 25) (n : Fin 100000) :
    win5_0.fill (grid5.coords (pt5 n)) (fun _ => Scalar.ofBits .f32 0#32) (iblk5 V c 0 (pt5 n)) (ValueIdx.ix2 k (col5 n))
      = V c main_v90 (ValueIdx.ix2 k n) := by
  obtain ⟨-, e1, -, x1, x1'⟩ := idx5_7 (pt5 n)
  have hn : n.val < 100000 := n.isLt
  have hv : (pt5 n).val = n.val / 25600 := rfl
  have hcol : (col5 n).val = n.val % 25600 := rfl
  have hlt : (col5 n).val < win5_7.xsize (grid5.coords (pt5 n)) (1 : Fin 2) := by
    rcases Nat.lt_or_ge 100000 (((pt5 n).val + 1) * 25600) with hc | hc
    · have := x1' hc; omega
    · have := x1 hc; omega
  have hm : win5_0.moved (grid5.coords (pt5 n)) (ValueIdx.ix2 k (col5 n)) = true :=
    (win5_0.moved_iff _ _).mpr fun a => by
      match a with
      | ⟨0, _⟩ => show k.val < win5_0.xsize (grid5.coords (pt5 n)) 0; rw [xsize5_0_0]; exact k.isLt
      | ⟨1, _⟩ => show (col5 n).val < win5_0.xsize (grid5.coords (pt5 n)) 1; rw [xsize5_0_1]; exact hlt
  unfold Window.fill; rw [dif_pos hm]
  show V c main_v90 (((cfg5.win 0).blk (pt5 n)).view.emb _) = V c main_v90 (ValueIdx.ix2 k n)
  refine congrArg _ (funext fun a => Fin.ext ?_)
  match a with
  | ⟨0, _⟩ =>
    show win5_0.index (pt5 n) (0 : Fin 2) * 25 + 1 * k.val = k.val
    rw [show win5_0.index (pt5 n) (0 : Fin 2) = 0 from rfl]; omega
  | ⟨1, _⟩ =>
    show win5_0.index (pt5 n) (1 : Fin 2) * 25600 + 1 * (col5 n).val = n.val
    rw [show win5_0.index (pt5 n) (1 : Fin 2) = win5_7.index (pt5 n) (1 : Fin 2) from rfl, e1]; omega

-- Row p, column n of the result array is the perceptron of column n of x at the weights as the region finds them.
theorem final5_arrays (c : Dev nD) (p : Fin 16) (n : Fin 100000) :
    (dat5 (U := U) V c).arrAt 7 cfg5.N (ValueIdx.ix2 p n)
      = k1_pay1 (win5_0.fill (grid5.coords (pt5 n)) (fun _ => Scalar.ofBits .f32 0#32) (iblk5 V c 0 (pt5 n)))
          (V c main_v10) (V c main_v11) (V c main_v13) (V c main_v14) (V c main_v16) (V c main_v17)
          (ValueIdx.ix2 p (col5 n)) := by
  rw [final5, iblk5_1, iblk5_2, iblk5_3, iblk5_4, iblk5_5, iblk5_6]

end Cert.KernelIdeal.Hand5

end
-- ==== Proof.Spec.lean ====
import Mathlib.Data.EReal.Basic
import Mathlib.Algebra.BigOperators.Group.Finset.Basic
import Mathlib.Data.Fintype.Basic
import Mathlib.Data.Fintype.BigOperators

noncomputable section

namespace Cert.Spec

open scoped BigOperators

def layer {a h : ℕ} (W : Fin a → Fin h → EReal) (b : Fin h → EReal) (x : Fin a → EReal) : Fin h → EReal :=
  fun j => (∑ k : Fin a, x k * W k j) + b j

def relu {h : ℕ} (v : Fin h → EReal) : Fin h → EReal := fun j => max (v j) 0

def mlp3 {a h o : ℕ} (W1 : Fin a → Fin h → EReal) (b1 : Fin h → EReal) (W2 : Fin h → Fin h → EReal) (b2 : Fin h → EReal)
    (W3 : Fin h → Fin o → EReal) (b3 : Fin o → EReal) (x : Fin a → EReal) : Fin o → EReal :=
  layer W3 b3 (relu (layer W2 b2 (relu (layer W1 b1 x))))

theorem mlp3_congr {a h o : ℕ} (W1 : Fin a → Fin h → EReal) (b1 : Fin h → EReal) (W2 : Fin h → Fin h → EReal) (b2 : Fin h → EReal)
    (W3 : Fin h → Fin o → EReal) (b3 : Fin o → EReal) {x y : Fin a → EReal} (h : ∀ k, x k = y k) :
    mlp3 W1 b1 W2 b2 W3 b3 x = mlp3 W1 b1 W2 b2 W3 b3 y := by
  rw [show x = y from funext h]

end Cert.Spec

end
-- ==== Proof.KerPay.lean ====
import proofs.«127178_j23579370455142_2_alg».proof.Proof.Gen.KernelIdeal.Skeleton
import proofs.«127178_j23579370455142_2_alg».proof.Proof.Spec
import Idealize.ShloMosaic.Lib.StackMember

noncomputable section

namespace Cert.KernelIdeal.Pay

open Idealize.ShloMosaic Idealize.ShloMosaic.ValueIdx Idealize.ShloMosaic.StackMember
open Cert.KernelIdeal Cert.KernelIdeal.Facts₀ Cert.KernelIdeal.Facts
open scoped BigOperators

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

section Plain

variable {m k n : ℕ} (l : FVec Ideal ⟨2, ![m, k]⟩ .bf16) (r : FVec Ideal ⟨2, ![k, n]⟩ .bf16) (c : FVec Ideal ⟨2, ![m, 1]⟩ .f32)
  (hl : (⟨2, ![m, k]⟩ : Shape).ShapeCasts ⟨2, ![m, k]⟩) (hc : (⟨2, ![m, 1]⟩ : Shape).ShapeCasts ⟨2, ![m, 1]⟩)
  (hb : (⟨2, ![m, 1]⟩ : Shape).Broadcasts ⟨2, ![m, n]⟩)

/-- One layer: an m×k by k×n matrix product plus a column vector copied into every column. -/
theorem affine_apply (p : Fin m) (q : Fin n) :
    (addf (matmul (DotDims.plain m k n) none (shapeCast _ l hl) r (constant (F := Ideal) _ .f32 0x00000000#32))
        (broadcastTo _ (shapeCast _ c hc) hb)) (ix2 p q)
      = Cert.Spec.layer (fun i j => l (ix2 j i)) (fun j => c (ix2 j 0)) (fun i => r (ix2 i q)) p := by
  refine (addf_apply _ _ _).trans ?_
  rw [shapeCast_self, shapeCast_self, matmul_zero_eq_dotGeneral, dotGeneral_plain_apply, broadcastTo_a1_ab_apply]
  exact congrArg (· + c (ix2 p 0)) (Finset.sum_congr rfl fun _ _ => mul_comm _ _)

theorem hidden_apply (ht : FTy.bits .bf16 < FTy.bits .f32) (p : Fin m) (q : Fin n) :
    (truncf .bf16 (maximumf (addf (matmul (DotDims.plain m k n) none (shapeCast _ l hl) r (constant (F := Ideal) _ .f32 0x00000000#32))
        (broadcastTo _ (shapeCast _ c hc) hb))
        (broadcast _ (Scalar.ofBits (F := Ideal) .f32 0x00000000#32))) ht : FVec Ideal ⟨2, ![m, n]⟩ .bf16) (ix2 p q)
      = Cert.Spec.relu (Cert.Spec.layer (fun i j => l (ix2 j i)) (fun j => c (ix2 j 0)) (fun i => r (ix2 i q))) p := by
  refine (truncf_apply (φ := .f32) (ψ := .bf16) _ ht _).trans ?_
  refine (maximumf_apply _ _ _).trans ?_
  rw [affine_apply, broadcast_apply]
  show max _ (Ideal.ofBits .f32 0x00000000#32) = max _ 0
  rw [Ideal.ofBits_zero_f32]

end Plain

theorem k0_pay1_apply (x0 : Vec Ideal S32x32000 .f32) (w1 : Vec Ideal S9x32 .bf16) (c1 : Vec Ideal S9x1 .f32) (w2 : Vec Ideal S9x9 .bf16) (c2 : Vec Ideal S9x1 .f32) (w3 : Vec Ideal S9x9 .bf16) (c3 : Vec Ideal S9x1 .f32) (p : Fin 9) (q : Fin 32000) :
    Gen.k0_pay1 (F := Ideal) x0 w1 c1 w2 c2 w3 c3 (ix2 p q) = Cert.Spec.mlp3 (fun k j => w1 (ix2 j k)) (fun j => c1 (ix2 j 0)) (fun k j => w2 (ix2 j k)) (fun j => c2 (ix2 j 0)) (fun k j => w3 (ix2 j k)) (fun j => c3 (ix2 j 0)) (fun k => x0 (ix2 k q)) p := by
  unfold Gen.k0_pay1
  refine (affine_apply _ _ _ _ _ _ p q).trans ?_
  unfold Cert.Spec.mlp3
  refine congrArg (fun x => Cert.Spec.layer _ _ x p) (funext fun k2 => ?_)
  refine (hidden_apply _ _ _ _ _ _ _ k2 q).trans ?_
  refine congrArg (fun x => Cert.Spec.relu (Cert.Spec.layer _ _ x) k2) (funext fun k1 => ?_)
  refine (hidden_apply _ _ _ _ _ _ _ k1 q).trans ?_
  refine congrArg (fun x => Cert.Spec.relu (Cert.Spec.layer _ _ x) k1) (funext fun k0 => ?_)
  exact congrFun (shapeCast_self x0 _) (ix2 k0 q)

theorem k1_pay1_apply (x0 : Vec Ideal S25x25600 .f32) (w1 : Vec Ideal S9x25 .bf16) (c1 : Vec Ideal S9x1 .f32) (w2 : Vec Ideal S9x9 .bf16) (c2 : Vec Ideal S9x1 .f32) (w3 : Vec Ideal S16x9 .bf16) (c3 : Vec Ideal S16x1 .f32) (p : Fin 16) (q : Fin 25600) :
    Gen.k1_pay1 (F := Ideal) x0 w1 c1 w2 c2 w3 c3 (ix2 p q) = Cert.Spec.mlp3 (fun k j => w1 (ix2 j k)) (fun j => c1 (ix2 j 0)) (fun k j => w2 (ix2 j k)) (fun j => c2 (ix2 j 0)) (fun k j => w3 (ix2 j k)) (fun j => c3 (ix2 j 0)) (fun k => x0 (ix2 k q)) p := by
  unfold Gen.k1_pay1
  refine (affine_apply _ _ _ _ _ _ p q).trans ?_
  unfold Cert.Spec.mlp3
  refine congrArg (fun x => Cert.Spec.layer _ _ x p) (funext fun k2 => ?_)
  refine (hidden_apply _ _ _ _ _ _ _ k2 q).trans ?_
  refine congrArg (fun x => Cert.Spec.relu (Cert.Spec.layer _ _ x) k2) (funext fun k1 => ?_)
  refine (hidden_apply _ _ _ _ _ _ _ k1 q).trans ?_
  refine congrArg (fun x => Cert.Spec.relu (Cert.Spec.layer _ _ x) k1) (funext fun k0 => ?_)
  exact congrFun (shapeCast_self x0 _) (ix2 k0 q)

theorem k1_pay1_col (x0 x0' : Vec Ideal S25x25600 .f32) (w1 : Vec Ideal S9x25 .bf16) (c1 : Vec Ideal S9x1 .f32) (w2 : Vec Ideal S9x9 .bf16) (c2 : Vec Ideal S9x1 .f32) (w3 : Vec Ideal S16x9 .bf16) (c3 : Vec Ideal S16x1 .f32) (q : Fin 25600)
    (h : ∀ k : Fin 25, x0 (ix2 k q) = x0' (ix2 k q)) (p : Fin 16) :
    Gen.k1_pay1 (F := Ideal) x0 w1 c1 w2 c2 w3 c3 (ix2 p q) = Gen.k1_pay1 (F := Ideal) x0' w1 c1 w2 c2 w3 c3 (ix2 p q) := by
  rw [k1_pay1_apply, k1_pay1_apply]
  exact congrFun (Cert.Spec.mlp3_congr _ _ _ _ _ _ h) p

end Cert.KernelIdeal.Pay

end
-- ==== Proof.KI.Chain.lean ====
import proofs.«127178_j23579370455142_2_alg».proof.Proof.Gen.KernelIdeal.Regions
import proofs.«127178_j23579370455142_2_alg».proof.Proof.KI.Edge0
import proofs.«127178_j23579370455142_2_alg».proof.Proof.KI.Edge2
import proofs.«127178_j23579370455142_2_alg».proof.Proof.KI.Edge4
import proofs.«127178_j23579370455142_2_alg».proof.Proof.KI.Node1
import proofs.«127178_j23579370455142_2_alg».proof.Proof.KI.Node3
import proofs.«127178_j23579370455142_2_alg».proof.Proof.KI.Node5
import proofs.«127178_j23579370455142_2_alg».proof.Proof.KerPay
import Idealize.ShloMosaic.Lib.Pipeline.FrameSuffix
import Idealize.ShloMosaic.Lib.Tactic

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

theorem hloc1 : ∀ (x0 x0' : Vec Ideal S25x25600 .f32) (w1 : Vec Ideal S9x25 .bf16) (c1 : Vec Ideal S9x1 .f32) (w2 : Vec Ideal S9x9 .bf16)
    (c2 : Vec Ideal S9x1 .f32) (w3 : Vec Ideal S16x9 .bf16) (c3 : Vec Ideal S16x1 .f32) (q : Fin 25600),
    (∀ k : Fin 25, x0 (ValueIdx.ix2 k q) = x0' (ValueIdx.ix2 k q)) →
    ∀ p : Fin 16, k1_pay1 x0 w1 c1 w2 c2 w3 c3 (ValueIdx.ix2 p q) = k1_pay1 x0' w1 c1 w2 c2 w3 c3 (ValueIdx.ix2 p q) :=
  Pay.k1_pay1_col

variable (m : (ℓ : Loc nD τ sig) → Buf (Elt Ideal) ℓ) (ρ : Dev nD → PrngReg)

abbrev W0 : Dev nD → Valuation τ sig (Elt Ideal) := fun c b => (s₀ m ρ).mem ((c : Dev nD), b)

abbrev W1 : Dev nD → Valuation τ sig (Elt Ideal) := fun c => StableHlo.after hostOps0 (W0 m ρ c)

abbrev V1 : (c : Dev nD) → (b : Ref sig .tc) → Buf (Elt Ideal) ((c : Thread nD τ).loc b) := fun c b => W1 m ρ c b

def W2 (c : Dev nD) : Valuation τ sig (Elt Ideal) :=
  Pipeline.withArrays spec0 c (W1 m ρ c) fun w => (Hand.dat0 (U := UR sig nD τ) (V1 m ρ) c).arrAt w cfg0.N
theorem W2_arr (c : Dev nD) (w : Fin cfg0.W) :
    W2 m ρ c (Proc.devRef .tc (Pipeline.arrRef spec0 w)) = (Hand.dat0 (U := UR sig nD τ) (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb

abbrev W3 : Dev nD → Valuation τ sig (Elt Ideal) := fun c => StableHlo.after hostOps1 (W2 m ρ c)

abbrev V3 : (c : Dev nD) → (b : Ref sig .tc) → Buf (Elt Ideal) ((c : Thread nD τ).loc b) := fun c b => W3 m ρ c b

def W4 (c : Dev nD) : Valuation τ sig (Elt Ideal) :=
  Pipeline.withArrays spec1 c (W3 m ρ c) fun w => (Hand.dat1 (U := UR sig nD τ) (V3 m ρ) c).arrAt w cfg1.N
theorem W4_arr (c : Dev nD) (w : Fin cfg1.W) :
    W4 m ρ c (Proc.devRef .tc (Pipeline.arrRef spec1 w)) = (Hand.dat1 (U := UR sig nD τ) (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

abbrev W5 : Dev nD → Valuation τ sig (Elt Ideal) := fun c => StableHlo.after hostOps2 (W4 m ρ c)

abbrev V5 : (c : Dev nD) → (b : Ref sig .tc) → Buf (Elt Ideal) ((c : Thread nD τ).loc b) := fun c b => W5 m ρ c b

def W6 (c : Dev nD) : Valuation τ sig (Elt Ideal) :=
  Pipeline.withArrays spec2 c (W5 m ρ c) fun w => (Hand2.dat2 (U := UR sig nD τ) (V5 m ρ) c).arrAt w cfg2.N
theorem W6_arr (c : Dev nD) (w : Fin cfg2.W) :
    W6 m ρ c (Proc.devRef .tc (Pipeline.arrRef spec2 w)) = (Hand2.dat2 (U := UR sig nD τ) (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb

abbrev W7 : Dev nD → Valuation τ sig (Elt Ideal) := fun c => StableHlo.after hostOps3 (W6 m ρ c)

abbrev V7 : (c : Dev nD) → (b : Ref sig .tc) → Buf (Elt Ideal) ((c : Thread nD τ).loc b) := fun c b => W7 m ρ c b

def W8 (c : Dev nD) : Valuation τ sig (Elt Ideal) :=
  Pipeline.withArrays spec3 c (W7 m ρ c) fun w => (Hand3.dat3 (U := UR sig nD τ) (V7 m ρ) c).arrAt w cfg3.N
theorem W8_arr (c : Dev nD) (w : Fin cfg3.W) :
    W8 m ρ c (Proc.devRef .tc (Pipeline.arrRef spec3 w)) = (Hand3.dat3 (U := UR sig nD τ) (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb

abbrev W9 : Dev nD → Valuation τ sig (Elt Ideal) := fun c => StableHlo.after hostOps4 (W8 m ρ c)

abbrev V9 : (c : Dev nD) → (b : Ref sig .tc) → Buf (Elt Ideal) ((c : Thread nD τ).loc b) := fun c b => W9 m ρ c b

def W10 (c : Dev nD) : Valuation τ sig (Elt Ideal) :=
  Pipeline.withArrays spec4 c (W9 m ρ c) fun w => (Hand4.dat4 (U := UR sig nD τ) (V9 m ρ) c).arrAt w cfg4.N
theorem W10_arr (c : Dev nD) (w : Fin cfg4.W) :
    W10 m ρ c (Proc.devRef .tc (Pipeline.arrRef spec4 w)) = (Hand4.dat4 (U := UR sig nD τ) (V9 m ρ) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m ρ c (Proc.devRef .tc b) = W9 m ρ c (Proc.devRef .tc b) := by
  unfold W10; exact Pipeline.withArrays_of_ne spec4 c _ _ b hb

abbrev W11 : Dev nD → Valuation τ sig (Elt Ideal) := fun c => StableHlo.after hostOps5 (W10 m ρ c)

abbrev V11 : (c : Dev nD) → (b : Ref sig .tc) → Buf (Elt Ideal) ((c : Thread nD τ).loc b) := fun c b => W11 m ρ c b

def W12 (c : Dev nD) : Valuation τ sig (Elt Ideal) :=
  Pipeline.withArrays spec5 c (W11 m ρ c) fun w => (Hand5.dat5 (U := UR sig nD τ) (V11 m ρ) c).arrAt w cfg5.N
theorem W12_arr (c : Dev nD) (w : Fin cfg5.W) :
    W12 m ρ c (Proc.devRef .tc (Pipeline.arrRef spec5 w)) = (Hand5.dat5 (U := UR sig nD τ) (V11 m ρ) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m ρ c (Proc.devRef .tc b) = W11 m ρ c (Proc.devRef .tc b) := by
  unfold W12; exact Pipeline.withArrays_of_ne spec5 c _ _ b hb

abbrev W13 : Dev nD → Valuation τ sig (Elt Ideal) := fun c => StableHlo.after hostOps6 (W12 m ρ c)

theorem W13_unwritten (c : Dev nD) (r : Ref sig .tc)
    (h0 : r ∉ hostOps0_W) (h1 : r ∉ hostOps1_W) (h2 : r ∉ hostOps2_W) (h3 : r ∉ hostOps3_W) (h4 : r ∉ hostOps4_W)
    (h5 : r ∉ hostOps5_W) (h6 : r ∉ hostOps6_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) (a5 : ∀ w, Pipeline.arrRef spec5 w ≠ r) :
    W13 m ρ c (Proc.devRef .tc r) = m ((c : Thread nD τ).loc r) :=
  calc W13 m ρ c (Proc.devRef .tc r)
    _ = W12 m ρ c (Proc.devRef .tc r) := StableHlo.after_of_writes_sub hostOps6 _ hostOps6_writes h6
    _ = W11 m ρ c (Proc.devRef .tc r) := W12_of_ne m ρ c r a5
    _ = W10 m ρ c (Proc.devRef .tc r) := StableHlo.after_of_writes_sub hostOps5 _ hostOps5_writes h5
    _ = W9 m ρ c (Proc.devRef .tc r) := W10_of_ne m ρ c r a4
    _ = W8 m ρ c (Proc.devRef .tc r) := StableHlo.after_of_writes_sub hostOps4 _ hostOps4_writes h4
    _ = W7 m ρ c (Proc.devRef .tc r) := W8_of_ne m ρ c r a3
    _ = W6 m ρ c (Proc.devRef .tc r) := StableHlo.after_of_writes_sub hostOps3 _ hostOps3_writes h3
    _ = W5 m ρ c (Proc.devRef .tc r) := W6_of_ne m ρ c r a2
    _ = W4 m ρ c (Proc.devRef .tc r) := StableHlo.after_of_writes_sub hostOps2 _ hostOps2_writes h2
    _ = W3 m ρ c (Proc.devRef .tc r) := W4_of_ne m ρ c r a1
    _ = W2 m ρ c (Proc.devRef .tc r) := StableHlo.after_of_writes_sub hostOps1 _ hostOps1_writes h1
    _ = W1 m ρ c (Proc.devRef .tc r) := W2_of_ne m ρ c r a0
    _ = W0 m ρ c (Proc.devRef .tc r) := StableHlo.after_of_writes_sub hostOps0 _ hostOps0_writes h0
    _ = m ((c : Thread nD τ).loc r) := rfl

theorem W13_arg (c : Dev nD) : ∀ r ∈ ([main_arg0, main_arg1, main_arg2, main_arg3, main_arg4, main_arg5, main_arg6, main_arg7,
      main_arg8, main_arg9, main_arg10, main_arg11, main_arg12, main_arg13, main_arg14] : List (Ref sig .tc)),
    W13 m ρ c (Proc.devRef .tc r) = m ((c : Thread nD τ).loc r) := by
  have key : ∀ r ∈ ([main_arg0, main_arg1, main_arg2, main_arg3, main_arg4, main_arg5, main_arg6, main_arg7,
      main_arg8, main_arg9, main_arg10, main_arg11, main_arg12, main_arg13, main_arg14] : List (Ref sig .tc)),
      (r ∉ hostOps0_W ∧ r ∉ hostOps1_W ∧ r ∉ hostOps2_W ∧ r ∉ hostOps3_W ∧ r ∉ hostOps4_W ∧ r ∉ hostOps5_W ∧ r ∉ hostOps6_W)
      ∧ (∀ w, Pipeline.arrRef spec0 w ≠ r) ∧ (∀ w, Pipeline.arrRef spec1 w ≠ r) ∧ (∀ w, Pipeline.arrRef spec2 w ≠ r)
      ∧ (∀ w, Pipeline.arrRef spec3 w ≠ r) ∧ (∀ w, Pipeline.arrRef spec4 w ≠ r) ∧ (∀ w, Pipeline.arrRef spec5 w ≠ r) := by decide
  intro r hr
  obtain ⟨⟨h0, h1, h2, h3, h4, h5, h6⟩, a0, a1, a2, a3, a4, a5⟩ := key r hr
  exact W13_unwritten m ρ c r h0 h1 h2 h3 h4 h5 h6 a0 a1 a2 a3 a4 a5

end Cert.KernelIdeal.RunV

end
-- ==== Proof.KI.Run.lean ====
import proofs.«127178_j23579370455142_2_alg».proof.Proof.KI.Chain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

abbrev adm : (p : Fin 6) → (pcfgs (F := Ideal) p).Adm := fun p => (cfgs p).toPCfg_adm

abbrev pc (p : Fin 6) : Cfg sig Λ₀ := Pipeline.pin (pcfgs (F := Ideal)) adm p
def pdats : (p : Fin 6) → (c : Dev nD) → Dat τ (Elt Ideal) Unit ℕ (UR sig nD τ) ℕ (Pipeline.pin (pcfgs (F := Ideal)) adm p) c
  | ⟨0, _⟩ => fun c => Hand.dat0 (V1 m ρ) c
  | ⟨1, _⟩ => fun c => Hand.dat1 (V3 m ρ) c
  | ⟨2, _⟩ => fun c => Hand2.dat2 (V5 m ρ) c
  | ⟨3, _⟩ => fun c => Hand3.dat3 (V7 m ρ) c
  | ⟨4, _⟩ => fun c => Hand4.dat4 (V9 m ρ) c
  | ⟨5, _⟩ => fun c => Hand5.dat5 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt Ideal))) (hsub : ops.Forall fun op => op.bufs ⊆ StableHlo.tcRefs τ sig)
    (hfresh : ops.Forall fun op => op.fresh = ∅) (W : Dev nD → Valuation τ sig (Elt Ideal)) :
    Pipeline.HostSeg (Name := ℕ) (U := UR sig nD τ) (pcfgs (F := Ideal)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W13 m ρ c) ∗ ∃ r, prngReg c r)

-- A kernel region as the segment between two boundaries of the chain: only its arrays change, to what its run leaves in them.
set_option backward.isDefEq.respectTransparency.types false in
def reg (p : Fin 6) (lf : Pipeline.LaunchFacts (nD := nD) (τ := τ) cfgs p) (Wi Wo : Dev nD → Valuation τ sig (Elt Ideal))
    (Vi : (c : Dev nD) → (b : Ref sig .tc) → Buf (Elt Ideal) ((c : Thread nD τ).loc b)) (hV : ∀ c b, Vi c b = Wi c (Proc.devRef .tc b))
    (hbody : ∀ c, BodyObligationLoose (pdats m ρ p c) defs₀ 𝒱₀ () Set.univ)
    (hA : ∀ c w, (pdats m ρ p c).A w = Vi c (Pipeline.arrRef (pc p).spec w))
    (hΦ : ∀ c i, (pdats m ρ p c).Φ i = Pipeline.ΦA (pc p).spec c)
    (hq : ∀ c w, (pdats m ρ p c).q w = fullShare) (howed : ∀ c i, (pdats m ρ p c).owed i = 0)
    (hrec : ∀ c i, (pdats m ρ p c).recorded i = Set.univ)
    (harr : ∀ c w, Wo c (Proc.devRef .tc (Pipeline.arrRef (pc p).spec w)) = (pdats m ρ p c).arrAt w (pc p).N)
    (hne : ∀ c (b : Ref sig .tc), (∀ w, Pipeline.arrRef (pc p).spec w ≠ b) → Wo c (Proc.devRef .tc b) = Wi c (Proc.devRef .tc b)) :
    Pipeline.RegionSeg (pcfgs (F := Ideal)) adm (pdats m ρ) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (pc p).spec c (fun b : Ref sig .tc => Wi c b)
  hentry c := by
    rw [Pipeline.ownSems0_none]
    have hsplit := Pipeline.arrays_of_unscopedBufs (p := p) (pcfgs (F := Ideal)) adm (pdats m ρ) lf.win lf.arr_whole c
      ((pdats m ρ p c).share_full (hq c)) (Vi c) (hA c)
    rw [show Vi c = (fun b : Ref sig .tc => Wi c b) from funext (hV c), Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays (p := p) (pcfgs (F := Ideal)) adm (Ix := Unit) (Name := ℕ) (U := UR sig nD τ) (Lvl := ℕ)
      lf.win lf.arr_whole c (pdats m ρ) ((pdats m ρ p c).share_full (hq c))
      (fun b : Ref sig .tc => Wi c b) (fun b : Ref sig .tc => Wo c b) ((pdats m ρ p c).arrAt · (pc p).N) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

set_option backward.isDefEq.respectTransparency.types false in
abbrev segs : List (Pipeline.Seg (pcfgs (F := Ideal)) adm (pdats m ρ) () defs₀ 𝒱₀ L lv) :=
  [ .host (hseg hostOps0 hostOps0_sub hostOps0_fresh (W0 m ρ)),
    .region (reg m ρ 0 launch0 (W1 m ρ) (W2 m ρ) (V1 m ρ) (fun _ _ => rfl) (fun c => (Hand.body_obligation0 (V1 m ρ) c).loose) (Hand.A_eq0 (V1 m ρ)) (fun _ _ => rfl) (fun _ _ => rfl) (fun _ _ => rfl) (fun _ _ => rfl) (W2_arr m ρ) (W2_of_ne m ρ)),
    .host (hseg hostOps1 hostOps1_sub hostOps1_fresh (W2 m ρ)),
    .region (reg m ρ 1 launch1 (W3 m ρ) (W4 m ρ) (V3 m ρ) (fun _ _ => rfl) (Hand.body_obligation1 (V3 m ρ) hloc1) (Hand.A_eq1 (V3 m ρ)) (fun _ _ => rfl) (fun _ _ => rfl) (fun _ _ => rfl) (fun _ _ => rfl) (W4_arr m ρ) (W4_of_ne m ρ)),
    .host (hseg hostOps2 hostOps2_sub hostOps2_fresh (W4 m ρ)),
    .region (reg m ρ 2 launch2 (W5 m ρ) (W6 m ρ) (V5 m ρ) (fun _ _ => rfl) (fun c => (Hand2.body_obligation2 (V5 m ρ) c).loose) (Hand2.A_eq2 (V5 m ρ)) (fun _ _ => rfl) (fun _ _ => rfl) (fun _ _ => rfl) (fun _ _ => rfl) (W6_arr m ρ) (W6_of_ne m ρ)),
    .host (hseg hostOps3 hostOps3_sub hostOps3_fresh (W6 m ρ)),
    .region (reg m ρ 3 launch3 (W7 m ρ) (W8 m ρ) (V7 m ρ) (fun _ _ => rfl) (Hand3.body_obligation3 (V7 m ρ) hloc1) (Hand3.A_eq3 (V7 m ρ)) (fun _ _ => rfl) (fun _ _ => rfl) (fun _ _ => rfl) (fun _ _ => rfl) (W8_arr m ρ) (W8_of_ne m ρ)),
    .host (hseg hostOps4 hostOps4_sub hostOps4_fresh (W8 m ρ)),
    .region (reg m ρ 4 launch4 (W9 m ρ) (W10 m ρ) (V9 m ρ) (fun _ _ => rfl) (fun c => (Hand4.body_obligation4 (V9 m ρ) c).loose) (Hand4.A_eq4 (V9 m ρ)) (fun _ _ => rfl) (fun _ _ => rfl) (fun _ _ => rfl) (fun _ _ => rfl) (W10_arr m ρ) (W10_of_ne m ρ)),
    .host (hseg hostOps5 hostOps5_sub hostOps5_fresh (W10 m ρ)),
    .region (reg m ρ 5 launch5 (W11 m ρ) (W12 m ρ) (V11 m ρ) (fun _ _ => rfl) (Hand5.body_obligation5 (V11 m ρ) hloc1) (Hand5.A_eq5 (V11 m ρ)) (fun _ _ => rfl) (fun _ _ => rfl) (fun _ _ => rfl) (fun _ _ => rfl) (W12_arr m ρ) (W12_of_ne m ρ)),
    .host (hseg hostOps6 hostOps6_sub hostOps6_fresh (W12 m ρ)) ]

theorem main_run (c : Dev nD) : main (F := Ideal) c = Pipeline.Seg.run (segs m ρ) := (main_chain c).trans (by chain_rfl)

set_option backward.isDefEq.respectTransparency.types false in
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W13 m ρ c b) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun c => by
        show (iprop(StableHlo.held (c : Thread nD τ) (Pipeline.ucRefs τ sig) (W13 m ρ c) ∗ R c) : sProp 𝕄)
          ⊢ iprop(Tₙ m ρ c ∗ ∃ W, owes (c : Thread nD τ) (0 : CellTallies nD τ sig Unit) W)
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h => h)

end Cert.KernelIdeal.RunV

end
-- ==== Proof.Layout.lean ====
import proofs.«127178_j23579370455142_2_alg».proof.KernelIdeal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Lay

open Idealize.ShloMosaic Idealize.ShloMosaic.ValueIdx
open Cert.KernelIdeal

variable [Facts₀]
open Facts₀

theorem shapeCast_a_a1_apply {α : Type} {a : ℕ} (x : (⟨1, ![a]⟩ : Shape).Idx → α)
    (h : (⟨1, ![a]⟩ : Shape).ShapeCasts ⟨2, ![a, 1]⟩) (j : Fin a) :
    shapeCast ⟨2, ![a, 1]⟩ x h (ix2 j (0 : Fin 1)) = x (ix1 j) :=
  shapeCast_apply x h _ _ (by
    rw [Shape.rowMajor_val_one, Shape.rowMajor_val_two]
    show j.val = j.val * 1 + 0
    omega)

theorem bcol9_apply (b : FVec Ideal S9 .f32) (j : Fin 9) :
    (shapeCast S9x1 b shapeCasts_S9_S9x1) (ix2 j 0) = b (ix1 j) :=
  shapeCast_a_a1_apply b shapeCasts_S9_S9x1 j

theorem bcol16_apply (b : FVec Ideal S16 .f32) (j : Fin 16) :
    (shapeCast S16x1 b shapeCasts_S16_S16x1) (ix2 j 0) = b (ix1 j) :=
  shapeCast_a_a1_apply b shapeCasts_S16_S16x1 j

theorem wT_e1_apply (W : FVec Ideal S32x9 .f32) (j : Fin 9) (k : Fin 32) :
    (truncf .bf16 (transpose S9x32 [1, 0] W transposes_S32x9_S9x32_1_0) bitsLt_bf16_f32 : FVec Ideal S9x32 .bf16) (ix2 j k) = W (ix2 k j) :=
  (truncf_apply (φ := .f32) (ψ := .bf16) _ bitsLt_bf16_f32 _).trans (transpose_ix2_apply W transposes_S32x9_S9x32_1_0 j k)

theorem wT_99_apply (W : FVec Ideal S9x9 .f32) (j : Fin 9) (k : Fin 9) :
    (truncf .bf16 (transpose S9x9 [1, 0] W transposes_S9x9_S9x9_1_0) bitsLt_bf16_f32 : FVec Ideal S9x9 .bf16) (ix2 j k) = W (ix2 k j) :=
  (truncf_apply (φ := .f32) (ψ := .bf16) _ bitsLt_bf16_f32 _).trans (transpose_ix2_apply W transposes_S9x9_S9x9_1_0 j k)

theorem wT_n1_apply (W : FVec Ideal S25x9 .f32) (j : Fin 9) (k : Fin 25) :
    (truncf .bf16 (transpose S9x25 [1, 0] W transposes_S25x9_S9x25_1_0) bitsLt_bf16_f32 : FVec Ideal S9x25 .bf16) (ix2 j k) = W (ix2 k j) :=
  (truncf_apply (φ := .f32) (ψ := .bf16) _ bitsLt_bf16_f32 _).trans (transpose_ix2_apply W transposes_S25x9_S9x25_1_0 j k)

theorem wT_n3_apply (W : FVec Ideal S9x16 .f32) (j : Fin 16) (k : Fin 9) :
    (truncf .bf16 (transpose S16x9 [1, 0] W transposes_S9x16_S16x9_1_0) bitsLt_bf16_f32 : FVec Ideal S16x9 .bf16) (ix2 j k) = W (ix2 k j) :=
  (truncf_apply (φ := .f32) (ψ := .bf16) _ bitsLt_bf16_f32 _).trans (transpose_ix2_apply W transposes_S9x16_S16x9_1_0 j k)

theorem xT_edge_apply (A : FVec Ideal S3200000x32 .f32) (k : Fin 32) (e : Fin 3200000) :
    (transpose S32x3200000 [1, 0] A transposes_S3200000x32_S32x3200000_1_0) (ix2 k e) = A (ix2 e k) :=
  transpose_ix2_apply A transposes_S3200000x32_S32x3200000_1_0 k e

theorem xT_node_apply (B : FVec Ideal S100000x25 .f32) (k : Fin 25) (n : Fin 100000) :
    (transpose S25x100000 [1, 0] B transposes_S100000x25_S25x100000_1_0) (ix2 k n) = B (ix2 n k) :=
  transpose_ix2_apply B transposes_S100000x25_S25x100000_1_0 k n

theorem oT_edge_apply (O : FVec Ideal S9x3200000 .f32) (e : Fin 3200000) (p : Fin 9) :
    (transpose S3200000x9 [1, 0] O transposes_S9x3200000_S3200000x9_1_0) (ix2 e p) = O (ix2 p e) :=
  transpose_ix2_apply O transposes_S9x3200000_S3200000x9_1_0 e p

theorem oT_node_apply (O : FVec Ideal S16x100000 .f32) (n : Fin 100000) (p : Fin 16) :
    (transpose S100000x16 [1, 0] O transposes_S16x100000_S100000x16_1_0) (ix2 n p) = O (ix2 p n) :=
  transpose_ix2_apply O transposes_S16x100000_S100000x16_1_0 n p

end Cert.KernelIdeal.Lay

end
-- ==== Proof.KerSpec.lean ====
import proofs.«127178_j23579370455142_2_alg».proof.KernelIdeal
import proofs.«127178_j23579370455142_2_alg».proof.Proof.Spec
import proofs.«127178_j23579370455142_2_alg».proof.Proof.Layout
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KSpec

open Idealize.ShloMosaic Idealize.ShloMosaic.ValueIdx
open Cert.KernelIdeal

def G0 (X : Vec Ideal S32x3200000 .f32) (w1 : Vec Ideal S9x32 .bf16) (c1 : Vec Ideal S9x1 .f32) (w2 : Vec Ideal S9x9 .bf16) (c2 : Vec Ideal S9x1 .f32) (w3 : Vec Ideal S9x9 .bf16) (c3 : Vec Ideal S9x1 .f32) : Vec Ideal S9x3200000 .f32 :=
  fun j => Cert.Spec.mlp3 (fun k j' => w1 (ix2 j' k)) (fun j' => c1 (ix2 j' 0)) (fun k j' => w2 (ix2 j' k)) (fun j' => c2 (ix2 j' 0))
    (fun k j' => w3 (ix2 j' k)) (fun j' => c3 (ix2 j' 0))
    (fun k => X (ix2 k (⟨(j 1).val, (j 1).isLt⟩ : Fin 3200000))) (⟨(j 0).val, (j 0).isLt⟩ : Fin 9)

def G1 (X : Vec Ideal S25x100000 .f32) (w1 : Vec Ideal S9x25 .bf16) (c1 : Vec Ideal S9x1 .f32) (w2 : Vec Ideal S9x9 .bf16) (c2 : Vec Ideal S9x1 .f32) (w3 : Vec Ideal S16x9 .bf16) (c3 : Vec Ideal S16x1 .f32) : Vec Ideal S16x100000 .f32 :=
  fun j => Cert.Spec.mlp3 (fun k j' => w1 (ix2 j' k)) (fun j' => c1 (ix2 j' 0)) (fun k j' => w2 (ix2 j' k)) (fun j' => c2 (ix2 j' 0))
    (fun k j' => w3 (ix2 j' k)) (fun j' => c3 (ix2 j' 0))
    (fun k => X (ix2 k (⟨(j 1).val, (j 1).isLt⟩ : Fin 100000))) (⟨(j 0).val, (j 0).isLt⟩ : Fin 16)

theorem G0_apply (X : Vec Ideal S32x3200000 .f32) (w1 : Vec Ideal S9x32 .bf16) (c1 : Vec Ideal S9x1 .f32) (w2 : Vec Ideal S9x9 .bf16) (c2 : Vec Ideal S9x1 .f32) (w3 : Vec Ideal S9x9 .bf16) (c3 : Vec Ideal S9x1 .f32) (p : Fin 9) (e : Fin 3200000) :
    G0 X w1 c1 w2 c2 w3 c3 (ix2 p e) = Cert.Spec.mlp3 (fun k j' => w1 (ix2 j' k)) (fun j' => c1 (ix2 j' 0)) (fun k j' => w2 (ix2 j' k)) (fun j' => c2 (ix2 j' 0))
    (fun k j' => w3 (ix2 j' k)) (fun j' => c3 (ix2 j' 0))
    (fun k => X (ix2 k e)) p := rfl

theorem G1_apply (X : Vec Ideal S25x100000 .f32) (w1 : Vec Ideal S9x25 .bf16) (c1 : Vec Ideal S9x1 .f32) (w2 : Vec Ideal S9x9 .bf16) (c2 : Vec Ideal S9x1 .f32) (w3 : Vec Ideal S16x9 .bf16) (c3 : Vec Ideal S16x1 .f32) (p : Fin 16) (n : Fin 100000) :
    G1 X w1 c1 w2 c2 w3 c3 (ix2 p n) = Cert.Spec.mlp3 (fun k j' => w1 (ix2 j' k)) (fun j' => c1 (ix2 j' 0)) (fun k j' => w2 (ix2 j' k)) (fun j' => c2 (ix2 j' 0))
    (fun k j' => w3 (ix2 j' k)) (fun j' => c3 (ix2 j' 0))
    (fun k => X (ix2 k n)) p := rfl

theorem mlp3_congr_all {a h o : ℕ} {W1 W1' : Fin a → Fin h → EReal} {b1 b1' : Fin h → EReal} {W2 W2' : Fin h → Fin h → EReal}
    {b2 b2' : Fin h → EReal} {W3 W3' : Fin h → Fin o → EReal} {b3 b3' : Fin o → EReal} {x x' : Fin a → EReal}
    (e1 : ∀ k j, W1 k j = W1' k j) (f1 : ∀ j, b1 j = b1' j) (e2 : ∀ k j, W2 k j = W2' k j) (f2 : ∀ j, b2 j = b2' j)
    (e3 : ∀ k j, W3 k j = W3' k j) (f3 : ∀ j, b3 j = b3' j) (ex : ∀ k, x k = x' k) (p : Fin o) :
    Cert.Spec.mlp3 W1 b1 W2 b2 W3 b3 x p = Cert.Spec.mlp3 W1' b1' W2' b2' W3' b3' x' p := by
  rw [show W1 = W1' from funext fun k => funext (e1 k), show b1 = b1' from funext f1,
    show W2 = W2' from funext fun k => funext (e2 k), show b2 = b2' from funext f2,
    show W3 = W3' from funext fun k => funext (e3 k), show b3 = b3' from funext f3, show x = x' from funext ex]

variable [Facts₀]
open Facts₀

theorem G0_bridge (A : FVec Ideal S3200000x32 .f32) (W1 : FVec Ideal S32x9 .f32) (b1 : FVec Ideal S9 .f32) (W2 : FVec Ideal S9x9 .f32) (b2 : FVec Ideal S9 .f32) (W3 : FVec Ideal S9x9 .f32) (b3 : FVec Ideal S9 .f32) (e : Fin 3200000) (p : Fin 9) :
    (transpose S3200000x9 [1, 0] (G0 (transpose S32x3200000 [1, 0] A transposes_S3200000x32_S32x3200000_1_0) (truncf .bf16 (transpose S9x32 [1, 0] W1 transposes_S32x9_S9x32_1_0) bitsLt_bf16_f32) (shapeCast S9x1 b1 shapeCasts_S9_S9x1) (truncf .bf16 (transpose S9x9 [1, 0] W2 transposes_S9x9_S9x9_1_0) bitsLt_bf16_f32) (shapeCast S9x1 b2 shapeCasts_S9_S9x1) (truncf .bf16 (transpose S9x9 [1, 0] W3 transposes_S9x9_S9x9_1_0) bitsLt_bf16_f32) (shapeCast S9x1 b3 shapeCasts_S9_S9x1)) transposes_S9x3200000_S3200000x9_1_0) (ix2 e p)
      = Cert.Spec.mlp3 (fun k j => W1 (ix2 k j)) (fun j => b1 (ix1 j)) (fun k j => W2 (ix2 k j)) (fun j => b2 (ix1 j)) (fun k j => W3 (ix2 k j)) (fun j => b3 (ix1 j)) (fun k => A (ix2 e k)) p := by
  refine (Lay.oT_edge_apply _ e p).trans ?_
  refine (G0_apply _ _ _ _ _ _ _ p e).trans ?_
  exact mlp3_congr_all (fun k j => Lay.wT_e1_apply W1 j k) (fun j => Lay.bcol9_apply b1 j) (fun k j => Lay.wT_99_apply W2 j k)
    (fun j => Lay.bcol9_apply b2 j) (fun k j => Lay.wT_99_apply W3 j k) (fun j => Lay.bcol9_apply b3 j) (fun k => Lay.xT_edge_apply A k e) p

theorem G1_bridge (B : FVec Ideal S100000x25 .f32) (V1 : FVec Ideal S25x9 .f32) (c1 : FVec Ideal S9 .f32) (V2 : FVec Ideal S9x9 .f32) (c2 : FVec Ideal S9 .f32) (V3 : FVec Ideal S9x16 .f32) (c3 : FVec Ideal S16 .f32) (n : Fin 100000) (p : Fin 16) :
    (transpose S100000x16 [1, 0] (G1 (transpose S25x100000 [1, 0] B transposes_S100000x25_S25x100000_1_0) (truncf .bf16 (transpose S9x25 [1, 0] V1 transposes_S25x9_S9x25_1_0) bitsLt_bf16_f32) (shapeCast S9x1 c1 shapeCasts_S9_S9x1) (truncf .bf16 (transpose S9x9 [1, 0] V2 transposes_S9x9_S9x9_1_0) bitsLt_bf16_f32) (shapeCast S9x1 c2 shapeCasts_S9_S9x1) (truncf .bf16 (transpose S16x9 [1, 0] V3 transposes_S9x16_S16x9_1_0) bitsLt_bf16_f32) (shapeCast S16x1 c3 shapeCasts_S16_S16x1)) transposes_S16x100000_S100000x16_1_0) (ix2 n p)
      = Cert.Spec.mlp3 (fun k j => V1 (ix2 k j)) (fun j => c1 (ix1 j)) (fun k j => V2 (ix2 k j)) (fun j => c2 (ix1 j)) (fun k j => V3 (ix2 k j)) (fun j => c3 (ix1 j)) (fun k => B (ix2 n k)) p := by
  refine (Lay.oT_node_apply _ n p).trans ?_
  refine (G1_apply _ _ _ _ _ _ _ p n).trans ?_
  exact mlp3_congr_all (fun k j => Lay.wT_n1_apply V1 j k) (fun j => Lay.bcol9_apply c1 j) (fun k j => Lay.wT_99_apply V2 j k)
    (fun j => Lay.bcol9_apply c2 j) (fun k j => Lay.wT_n3_apply V3 j k) (fun j => Lay.bcol16_apply c3 j) (fun k => Lay.xT_node_apply B k n) p

end Cert.KernelIdeal.KSpec

end
-- ==== Proof.KerRoundDef.lean ====
import proofs.«127178_j23579370455142_2_alg».proof.Proof.KerSpec

noncomputable section

namespace Cert.Bridge

open Idealize.ShloMosaic Idealize.ShloMosaic.ValueIdx
open Cert.KernelIdeal Cert.KernelIdeal.KSpec

variable [Facts₀]
open Facts₀

def kerRound (src dst : (⟨S3200000, .i32⟩ : BufTy).Contents (Elt Ideal)) (feW1 : FVec Ideal S32x9 .f32) (feb1 : FVec Ideal S9 .f32) (feW2 : FVec Ideal S9x9 .f32) (feb2 : FVec Ideal S9 .f32) (feW3 : FVec Ideal S9x9 .f32) (feb3 : FVec Ideal S9 .f32) (fxW1 : FVec Ideal S25x9 .f32) (fxb1 : FVec Ideal S9 .f32) (fxW2 : FVec Ideal S9x9 .f32) (fxb2 : FVec Ideal S9 .f32) (fxW3 : FVec Ideal S9x16 .f32) (fxb3 : FVec Ideal S16 .f32) (X : FVec Ideal S100000x16 .f32) : FVec Ideal S100000x16 .f32 :=
  transpose S100000x16 [1, 0] (G1 (transpose S25x100000 [1, 0] (concatenate S100000x25 1 [⟨S100000x16, X⟩, ⟨S100000x9, (Host.scatterAdd scatter_S100000x9_S3200000x1_S3200000x9_1_0_0_1 (broadcastInDim S100000x9 ![] bcast_S_S100000x9 (constant (F := Ideal) S_ .f32 0x00000000#32)) (broadcastInDim S3200000x1 ![0] bcast_S3200000_S3200000x1_0 dst) (transpose S3200000x9 [1, 0] (G0 (transpose S32x3200000 [1, 0] (concatenate S3200000x32 1 [⟨S3200000x16, (Host.gather gather_S100000x16_S3200000x1_S3200000x16_1_0_n_n_0_1_116 X (broadcastInDim S3200000x1 ![0] bcast_S3200000_S3200000x1_0 (select (cmpi .slt dst (broadcastInDim S3200000 ![] bcast_S_S3200000 (constantI S_ 32 0#32))) (addi dst (broadcastInDim S3200000 ![] bcast_S_S3200000 (constantI S_ 32 100000#32))) dst)))⟩, ⟨S3200000x16, (Host.gather gather_S100000x16_S3200000x1_S3200000x16_1_0_n_n_0_1_116 X (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))⟩] concatenates_S3200000x16_S3200000x16_S3200000x32_d1) transposes_S3200000x32_S32x3200000_1_0) (truncf .bf16 (transpose S9x32 [1, 0] feW1 transposes_S32x9_S9x32_1_0) bitsLt_bf16_f32) (shapeCast S9x1 feb1 shapeCasts_S9_S9x1) (truncf .bf16 (transpose S9x9 [1, 0] feW2 transposes_S9x9_S9x9_1_0) bitsLt_bf16_f32) (shapeCast S9x1 feb2 shapeCasts_S9_S9x1) (truncf .bf16 (transpose S9x9 [1, 0] feW3 transposes_S9x9_S9x9_1_0) bitsLt_bf16_f32) (shapeCast S9x1 feb3 shapeCasts_S9_S9x1)) transposes_S9x3200000_S3200000x9_1_0))⟩] concatenates_S100000x16_S100000x9_S100000x25_d1) transposes_S100000x25_S25x100000_1_0) (truncf .bf16 (transpose S9x25 [1, 0] fxW1 transposes_S25x9_S9x25_1_0) bitsLt_bf16_f32) (shapeCast S9x1 fxb1 shapeCasts_S9_S9x1) (truncf .bf16 (transpose S9x9 [1, 0] fxW2 transposes_S9x9_S9x9_1_0) bitsLt_bf16_f32) (shapeCast S9x1 fxb2 shapeCasts_S9_S9x1) (truncf .bf16 (transpose S16x9 [1, 0] fxW3 transposes_S9x16_S16x9_1_0) bitsLt_bf16_f32) (shapeCast S16x1 fxb3 shapeCasts_S16_S16x1)) transposes_S16x100000_S100000x16_1_0

end Cert.Bridge

end
-- ==== Proof.KI.ChainVal0.lean ====
import proofs.«127178_j23579370455142_2_alg».proof.Proof.KI.Chain
import proofs.«127178_j23579370455142_2_alg».proof.Proof.KerRoundDef

set_option maxRecDepth 16384

noncomputable section

namespace Cert.Bridge

open Idealize.ShloMosaic Idealize.ShloMosaic.ValueIdx
open Cert.KernelIdeal Cert.KernelIdeal.KSpec

section
variable [Facts₀]
open Facts₀

def edgeIn (src dst : (⟨S3200000, .i32⟩ : BufTy).Contents (Elt Ideal)) (X : FVec Ideal S100000x16 .f32) : FVec Ideal S32x3200000 .f32 :=
  transpose S32x3200000 [1, 0] (concatenate S3200000x32 1 [⟨S3200000x16, (Host.gather gather_S100000x16_S3200000x1_S3200000x16_1_0_n_n_0_1_116 X (broadcastInDim S3200000x1 ![0] bcast_S3200000_S3200000x1_0 (select (cmpi .slt dst (broadcastInDim S3200000 ![] bcast_S_S3200000 (constantI S_ 32 0#32))) (addi dst (broadcastInDim S3200000 ![] bcast_S_S3200000 (constantI S_ 32 100000#32))) dst)))⟩, ⟨S3200000x16, (Host.gather gather_S100000x16_S3200000x1_S3200000x16_1_0_n_n_0_1_116 X (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))⟩] concatenates_S3200000x16_S3200000x16_S3200000x32_d1) transposes_S3200000x32_S32x3200000_1_0

def nodeIn (dst : (⟨S3200000, .i32⟩ : BufTy).Contents (Elt Ideal)) (X : FVec Ideal S100000x16 .f32) (E : FVec Ideal S9x3200000 .f32) : FVec Ideal S25x100000 .f32 :=
  transpose S25x100000 [1, 0] (concatenate S100000x25 1 [⟨S100000x16, X⟩, ⟨S100000x9, (Host.scatterAdd scatter_S100000x9_S3200000x1_S3200000x9_1_0_0_1 (broadcastInDim S100000x9 ![] bcast_S_S100000x9 (constant (F := Ideal) S_ .f32 0x00000000#32)) (broadcastInDim S3200000x1 ![0] bcast_S3200000_S3200000x1_0 dst) (transpose S3200000x9 [1, 0] E transposes_S9x3200000_S3200000x9_1_0))⟩] concatenates_S100000x16_S100000x9_S100000x25_d1) transposes_S100000x25_S25x100000_1_0

theorem kerRound_parts (src dst : (⟨S3200000, .i32⟩ : BufTy).Contents (Elt Ideal)) (feW1 : FVec Ideal S32x9 .f32) (feb1 : FVec Ideal S9 .f32) (feW2 : FVec Ideal S9x9 .f32) (feb2 : FVec Ideal S9 .f32) (feW3 : FVec Ideal S9x9 .f32) (feb3 : FVec Ideal S9 .f32) (fxW1 : FVec Ideal S25x9 .f32) (fxb1 : FVec Ideal S9 .f32) (fxW2 : FVec Ideal S9x9 .f32) (fxb2 : FVec Ideal S9 .f32) (fxW3 : FVec Ideal S9x16 .f32) (fxb3 : FVec Ideal S16 .f32) (X : FVec Ideal S100000x16 .f32) :
    kerRound src dst feW1 feb1 feW2 feb2 feW3 feb3 fxW1 fxb1 fxW2 fxb2 fxW3 fxb3 X
      = transpose S100000x16 [1, 0] (G1 (nodeIn dst X (G0 (edgeIn src dst X) (truncf .bf16 (transpose S9x32 [1, 0] feW1 transposes_S32x9_S9x32_1_0) bitsLt_bf16_f32) (shapeCast S9x1 feb1 shapeCasts_S9_S9x1) (truncf .bf16 (transpose S9x9 [1, 0] feW2 transposes_S9x9_S9x9_1_0) bitsLt_bf16_f32) (shapeCast S9x1 feb2 shapeCasts_S9_S9x1) (truncf .bf16 (transpose S9x9 [1, 0] feW3 transposes_S9x9_S9x9_1_0) bitsLt_bf16_f32) (shapeCast S9x1 feb3 shapeCasts_S9_S9x1))) (truncf .bf16 (transpose S9x25 [1, 0] fxW1 transposes_S25x9_S9x25_1_0) bitsLt_bf16_f32) (shapeCast S9x1 fxb1 shapeCasts_S9_S9x1) (truncf .bf16 (transpose S9x9 [1, 0] fxW2 transposes_S9x9_S9x9_1_0) bitsLt_bf16_f32) (shapeCast S9x1 fxb2 shapeCasts_S9_S9x1) (truncf .bf16 (transpose S16x9 [1, 0] fxW3 transposes_S9x16_S16x9_1_0) bitsLt_bf16_f32) (shapeCast S16x1 fxb3 shapeCasts_S16_S16x1)) transposes_S16x100000_S100000x16_1_0 := rfl

theorem round_of (src dst : (⟨S3200000, .i32⟩ : BufTy).Contents (Elt Ideal)) (feW1 : FVec Ideal S32x9 .f32) (feb1 : FVec Ideal S9 .f32) (feW2 : FVec Ideal S9x9 .f32) (feb2 : FVec Ideal S9 .f32) (feW3 : FVec Ideal S9x9 .f32) (feb3 : FVec Ideal S9 .f32) (fxW1 : FVec Ideal S25x9 .f32) (fxb1 : FVec Ideal S9 .f32) (fxW2 : FVec Ideal S9x9 .f32) (fxb2 : FVec Ideal S9 .f32) (fxW3 : FVec Ideal S9x16 .f32) (fxb3 : FVec Ideal S16 .f32) (X : FVec Ideal S100000x16 .f32)
    {Ein : FVec Ideal S32x3200000 .f32} {w1 : FVec Ideal S9x32 .bf16} {c1 : FVec Ideal S9x1 .f32} {w2 : FVec Ideal S9x9 .bf16} {c2 : FVec Ideal S9x1 .f32} {w3 : FVec Ideal S9x9 .bf16} {c3 : FVec Ideal S9x1 .f32}
    {Eout : FVec Ideal S9x3200000 .f32} {Nin : FVec Ideal S25x100000 .f32}
    {v1 : FVec Ideal S9x25 .bf16} {d1 : FVec Ideal S9x1 .f32} {v2 : FVec Ideal S9x9 .bf16} {d2 : FVec Ideal S9x1 .f32} {v3 : FVec Ideal S16x9 .bf16} {d3 : FVec Ideal S16x1 .f32}
    {Nout : FVec Ideal S16x100000 .f32} {R : FVec Ideal S100000x16 .f32}
    (hEin : Ein = edgeIn src dst X)
    (hw1 : w1 = truncf .bf16 (transpose S9x32 [1, 0] feW1 transposes_S32x9_S9x32_1_0) bitsLt_bf16_f32) (hc1 : c1 = shapeCast S9x1 feb1 shapeCasts_S9_S9x1)
    (hw2 : w2 = truncf .bf16 (transpose S9x9 [1, 0] feW2 transposes_S9x9_S9x9_1_0) bitsLt_bf16_f32) (hc2 : c2 = shapeCast S9x1 feb2 shapeCasts_S9_S9x1)
    (hw3 : w3 = truncf .bf16 (transpose S9x9 [1, 0] feW3 transposes_S9x9_S9x9_1_0) bitsLt_bf16_f32) (hc3 : c3 = shapeCast S9x1 feb3 shapeCasts_S9_S9x1)
    (hEout : Eout = G0 Ein w1 c1 w2 c2 w3 c3) (hNin : Nin = nodeIn dst X Eout)
    (hv1 : v1 = truncf .bf16 (transpose S9x25 [1, 0] fxW1 transposes_S25x9_S9x25_1_0) bitsLt_bf16_f32) (hd1 : d1 = shapeCast S9x1 fxb1 shapeCasts_S9_S9x1)
    (hv2 : v2 = truncf .bf16 (transpose S9x9 [1, 0] fxW2 transposes_S9x9_S9x9_1_0) bitsLt_bf16_f32) (hd2 : d2 = shapeCast S9x1 fxb2 shapeCasts_S9_S9x1)
    (hv3 : v3 = truncf .bf16 (transpose S16x9 [1, 0] fxW3 transposes_S9x16_S16x9_1_0) bitsLt_bf16_f32) (hd3 : d3 = shapeCast S16x1 fxb3 shapeCasts_S16_S16x1)
    (hNout : Nout = G1 Nin v1 d1 v2 d2 v3 d3) (hR : R = transpose S100000x16 [1, 0] Nout transposes_S16x100000_S100000x16_1_0) :
    R = kerRound src dst feW1 feb1 feW2 feb2 feW3 feb3 fxW1 fxb1 fxW2 fxb2 fxW3 fxb3 X := by
  subst hEin hw1 hc1 hw2 hc2 hw3 hc3 hEout hNin hv1 hd1 hv2 hd2 hv3 hd3 hNout hR
  exact (kerRound_parts src dst feW1 feb1 feW2 feb2 feW3 feb3 fxW1 fxb1 fxW2 fxb2 fxW3 fxb3 X).symm

end

end Cert.Bridge

namespace Cert.KernelIdeal.RunV

open Cert.KernelIdeal Cert.KernelIdeal.Gen
open Idealize.ShloMosaic Idealize.ShloMosaic.TcCoe
open Idealize.SL Idealize.SL.RA Idealize.SL.Sem
open Idealize.ShloMosaic.Pipeline (Dat Cfg Window)
open Cert.Bridge (kerRound edgeIn nodeIn round_of)

variable (m : (ℓ : Loc nD τ sig) → Buf (Elt Ideal) ℓ) (ρ : Dev nD → PrngReg)

-- One round at the launched edge lists and weights, as a function of the features it starts from.
abbrev roundAt (c : Dev nD) (X : FVec Ideal S100000x16 .f32) : FVec Ideal S100000x16 .f32 :=
  kerRound (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) X

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((Hand.dat0 (U := UR sig nD τ) (V1 m ρ) c).arrAt_in w hin cfg0.N).trans (Hand.A_eq0 (U := UR sig nD τ) (V1 m ρ) c w))

theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((Hand.dat1 (U := UR sig nD τ) (V3 m ρ) c).arrAt_in w hin cfg1.N).trans (Hand.A_eq1 (U := UR sig nD τ) (V3 m ρ) c w))

theorem W6_in (c : Dev nD) (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((Hand2.dat2 (U := UR sig nD τ) (V5 m ρ) c).arrAt_in w hin cfg2.N).trans (Hand2.A_eq2 (U := UR sig nD τ) (V5 m ρ) c w))

theorem W8_in (c : Dev nD) (w : Fin cfg3.W) (hin : (cfg3.win w).isOut = false) :
    W8 m ρ c (Proc.devRef .tc (Pipeline.arrRef spec3 w)) = W7 m ρ c (Proc.devRef .tc (Pipeline.arrRef spec3 w)) :=
  (W8_arr m ρ c w).trans (((Hand3.dat3 (U := UR sig nD τ) (V7 m ρ) c).arrAt_in w hin cfg3.N).trans (Hand3.A_eq3 (U := UR sig nD τ) (V7 m ρ) c w))

theorem W10_in (c : Dev nD) (w : Fin cfg4.W) (hin : (cfg4.win w).isOut = false) :
    W10 m ρ c (Proc.devRef .tc (Pipeline.arrRef spec4 w)) = W9 m ρ c (Proc.devRef .tc (Pipeline.arrRef spec4 w)) :=
  (W10_arr m ρ c w).trans (((Hand4.dat4 (U := UR sig nD τ) (V9 m ρ) c).arrAt_in w hin cfg4.N).trans (Hand4.A_eq4 (U := UR sig nD τ) (V9 m ρ) c w))

-- A region changes only its output array: any other buffer, its input arrays included, is at its exit what it was at its entry.
theorem W2_keep (c : Dev nD) (r : Ref sig .tc) (h : ∀ w, Pipeline.arrRef spec0 w = r → (cfg0.win w).isOut = false) :
    W2 m ρ c (Proc.devRef .tc r) = W1 m ρ c (Proc.devRef .tc r) := by
  by_cases hr : ∃ w, Pipeline.arrRef spec0 w = r
  · obtain ⟨w, rfl⟩ := hr; exact W2_in m ρ c w (h w rfl)
  · exact W2_of_ne m ρ c r fun w e => hr ⟨w, e⟩

abbrev K0 (r : Ref sig .tc) : Prop := r ∉ hostOps1_W ∧ ∀ w, Pipeline.arrRef spec0 w = r → (cfg0.win w).isOut = false

theorem W4_keep (c : Dev nD) (r : Ref sig .tc) (h : ∀ w, Pipeline.arrRef spec1 w = r → (cfg1.win w).isOut = false) :
    W4 m ρ c (Proc.devRef .tc r) = W3 m ρ c (Proc.devRef .tc r) := by
  by_cases hr : ∃ w, Pipeline.arrRef spec1 w = r
  · obtain ⟨w, rfl⟩ := hr; exact W4_in m ρ c w (h w rfl)
  · exact W4_of_ne m ρ c r fun w e => hr ⟨w, e⟩

abbrev K1 (r : Ref sig .tc) : Prop := r ∉ hostOps2_W ∧ ∀ w, Pipeline.arrRef spec1 w = r → (cfg1.win w).isOut = false

theorem W6_keep (c : Dev nD) (r : Ref sig .tc) (h : ∀ w, Pipeline.arrRef spec2 w = r → (cfg2.win w).isOut = false) :
    W6 m ρ c (Proc.devRef .tc r) = W5 m ρ c (Proc.devRef .tc r) := by
  by_cases hr : ∃ w, Pipeline.arrRef spec2 w = r
  · obtain ⟨w, rfl⟩ := hr; exact W6_in m ρ c w (h w rfl)
  · exact W6_of_ne m ρ c r fun w e => hr ⟨w, e⟩

abbrev K2 (r : Ref sig .tc) : Prop := r ∉ hostOps3_W ∧ ∀ w, Pipeline.arrRef spec2 w = r → (cfg2.win w).isOut = false

theorem W8_keep (c : Dev nD) (r : Ref sig .tc) (h : ∀ w, Pipeline.arrRef spec3 w = r → (cfg3.win w).isOut = false) :
    W8 m ρ c (Proc.devRef .tc r) = W7 m ρ c (Proc.devRef .tc r) := by
  by_cases hr : ∃ w, Pipeline.arrRef spec3 w = r
  · obtain ⟨w, rfl⟩ := hr; exact W8_in m ρ c w (h w rfl)
  · exact W8_of_ne m ρ c r fun w e => hr ⟨w, e⟩

abbrev K3 (r : Ref sig .tc) : Prop := r ∉ hostOps4_W ∧ ∀ w, Pipeline.arrRef spec3 w = r → (cfg3.win w).isOut = false

theorem W10_keep (c : Dev nD) (r : Ref sig .tc) (h : ∀ w, Pipeline.arrRef spec4 w = r → (cfg4.win w).isOut = false) :
    W10 m ρ c (Proc.devRef .tc r) = W9 m ρ c (Proc.devRef .tc r) := by
  by_cases hr : ∃ w, Pipeline.arrRef spec4 w = r
  · obtain ⟨w, rfl⟩ := hr; exact W10_in m ρ c w (h w rfl)
  · exact W10_of_ne m ρ c r fun w e => hr ⟨w, e⟩

abbrev K4 (r : Ref sig .tc) : Prop := r ∉ hostOps5_W ∧ ∀ w, Pipeline.arrRef spec4 w = r → (cfg4.win w).isOut = false

theorem W1_arg (c : Dev nD) (r : Ref sig .tc) (h : r ∉ hostOps0_W) : W1 m ρ c (Proc.devRef .tc r) = m ((c : Thread nD τ).loc r) :=
  StableHlo.after_of_writes_sub hostOps0 _ hostOps0_writes h

-- A buffer that neither the host stretches nor the regions in between write holds what it held after the first stretch.
theorem W3_from1 (c : Dev nD) (r : Ref sig .tc) (h : K0 r) : W3 m ρ c (Proc.devRef .tc r) = W1 m ρ c (Proc.devRef .tc r) :=
  (StableHlo.after_of_writes_sub hostOps1 _ hostOps1_writes h.1).trans (W2_keep m ρ c r h.2)

theorem W5_from1 (c : Dev nD) (r : Ref sig .tc) (h : K1 r ∧ K0 r) : W5 m ρ c (Proc.devRef .tc r) = W1 m ρ c (Proc.devRef .tc r) :=
  ((StableHlo.after_of_writes_sub hostOps2 _ hostOps2_writes h.1.1).trans (W4_keep m ρ c r h.1.2)).trans (W3_from1 m ρ c r h.2)

theorem W7_from1 (c : Dev nD) (r : Ref sig .tc) (h : K2 r ∧ K1 r ∧ K0 r) : W7 m ρ c (Proc.devRef .tc r) = W1 m ρ c (Proc.devRef .tc r) :=
  ((StableHlo.after_of_writes_sub hostOps3 _ hostOps3_writes h.1.1).trans (W6_keep m ρ c r h.1.2)).trans (W5_from1 m ρ c r h.2)

theorem W9_from1 (c : Dev nD) (r : Ref sig .tc) (h : K3 r ∧ K2 r ∧ K1 r ∧ K0 r) : W9 m ρ c (Proc.devRef .tc r) = W1 m ρ c (Proc.devRef .tc r) :=
  ((StableHlo.after_of_writes_sub hostOps4 _ hostOps4_writes h.1.1).trans (W8_keep m ρ c r h.1.2)).trans (W7_from1 m ρ c r h.2)

theorem W11_from1 (c : Dev nD) (r : Ref sig .tc) (h : K4 r ∧ K3 r ∧ K2 r ∧ K1 r ∧ K0 r) : W11 m ρ c (Proc.devRef .tc r) = W1 m ρ c (Proc.devRef .tc r) :=
  ((StableHlo.after_of_writes_sub hostOps5 _ hostOps5_writes h.1.1).trans (W10_keep m ρ c r h.1.2)).trans (W9_from1 m ρ c r h.2)

theorem W1_v1 (c : Dev nD) : W1 m ρ c (Proc.devRef .tc main_v1)
    = (truncf .bf16 (transpose S9x32 [1, 0] (m ((c : Thread nD τ).loc main_arg3)) transposes_S32x9_S9x32_1_0) bitsLt_bf16_f32 : FVec Ideal S9x32 .bf16) := by
  show StableHlo.after hostOps0 _ (Proc.devRef .tc main_v1) = _
  after_results_simp <;> rfl

theorem W1_v2 (c : Dev nD) : W1 m ρ c (Proc.devRef .tc main_v2)
    = shapeCast S9x1 (m ((c : Thread nD τ).loc main_arg4)) shapeCasts_S9_S9x1 := by
  show StableHlo.after hostOps0 _ (Proc.devRef .tc main_v2) = _
  after_results_simp <;> rfl

theorem W1_v4 (c : Dev nD) : W1 m ρ c (Proc.devRef .tc main_v4)
    = (truncf .bf16 (transpose S9x9 [1, 0] (m ((c : Thread nD τ).loc main_arg5)) transposes_S9x9_S9x9_1_0) bitsLt_bf16_f32 : FVec Ideal S9x9 .bf16) := by
  show StableHlo.after hostOps0 _ (Proc.devRef .tc main_v4) = _
  after_results_simp <;> rfl

theorem W1_v5 (c : Dev nD) : W1 m ρ c (Proc.devRef .tc main_v5)
    = shapeCast S9x1 (m ((c : Thread nD τ).loc main_arg6)) shapeCasts_S9_S9x1 := by
  show StableHlo.after hostOps0 _ (Proc.devRef .tc main_v5) = _
  after_results_simp <;> rfl

theorem W1_v7 (c : Dev nD) : W1 m ρ c (Proc.devRef .tc main_v7)
    = (truncf .bf16 (transpose S9x9 [1, 0] (m ((c : Thread nD τ).loc main_arg7)) transposes_S9x9_S9x9_1_0) bitsLt_bf16_f32 : FVec Ideal S9x9 .bf16) := by
  show StableHlo.after hostOps0 _ (Proc.devRef .tc main_v7) = _
  after_results_simp <;> rfl

theorem W1_v8 (c : Dev nD) : W1 m ρ c (Proc.devRef .tc main_v8)
    = shapeCast S9x1 (m ((c : Thread nD τ).loc main_arg8)) shapeCasts_S9_S9x1 := by
  show StableHlo.after hostOps0 _ (Proc.devRef .tc main_v8) = _
  after_results_simp <;> rfl

theorem W1_v10 (c : Dev nD) : W1 m ρ c (Proc.devRef .tc main_v10)
    = (truncf .bf16 (transpose S9x25 [1, 0] (m ((c : Thread nD τ).loc main_arg9)) transposes_S25x9_S9x25_1_0) bitsLt_bf16_f32 : FVec Ideal S9x25 .bf16) := by
  show StableHlo.after hostOps0 _ (Proc.devRef .tc main_v10) = _
  after_results_simp <;> rfl

theorem W1_v11 (c : Dev nD) : W1 m ρ c (Proc.devRef .tc main_v11)
    = shapeCast S9x1 (m ((c : Thread nD τ).loc main_arg10)) shapeCasts_S9_S9x1 := by
  show StableHlo.after hostOps0 _ (Proc.devRef .tc main_v11) = _
  after_results_simp <;> rfl

theorem W1_v13 (c : Dev nD) : W1 m ρ c (Proc.devRef .tc main_v13)
    = (truncf .bf16 (transpose S9x9 [1, 0] (m ((c : Thread nD τ).loc main_arg11)) transposes_S9x9_S9x9_1_0) bitsLt_bf16_f32 : FVec Ideal S9x9 .bf16) := by
  show StableHlo.after hostOps0 _ (Proc.devRef .tc main_v13) = _
  after_results_simp <;> rfl

theorem W1_v14 (c : Dev nD) : W1 m ρ c (Proc.devRef .tc main_v14)
    = shapeCast S9x1 (m ((c : Thread nD τ).loc main_arg12)) shapeCasts_S9_S9x1 := by
  show StableHlo.after hostOps0 _ (Proc.devRef .tc main_v14) = _
  after_results_simp <;> rfl

theorem W1_v16 (c : Dev nD) : W1 m ρ c (Proc.devRef .tc main_v16)
    = (truncf .bf16 (transpose S16x9 [1, 0] (m ((c : Thread nD τ).loc main_arg13)) transposes_S9x16_S16x9_1_0) bitsLt_bf16_f32 : FVec Ideal S16x9 .bf16) := by
  show StableHlo.after hostOps0 _ (Proc.devRef .tc main_v16) = _
  after_results_simp <;> rfl

theorem W1_v17 (c : Dev nD) : W1 m ρ c (Proc.devRef .tc main_v17)
    = shapeCast S16x1 (m ((c : Thread nD τ).loc main_arg14)) shapeCasts_S16_S16x1 := by
  show StableHlo.after hostOps0 _ (Proc.devRef .tc main_v17) = _
  after_results_simp <;> rfl

theorem W2_arg0 (c : Dev nD) : W2 m ρ c (Proc.devRef .tc main_arg0) = (m ((c : Thread nD τ).loc main_arg0)) :=
  (W2_keep m ρ c main_arg0 (by decide)).trans (W1_arg m ρ c main_arg0 (by decide))

theorem W2_arg2 (c : Dev nD) : W2 m ρ c (Proc.devRef .tc main_arg2) = (m ((c : Thread nD τ).loc main_arg2)) :=
  (W2_keep m ρ c main_arg2 (by decide)).trans (W1_arg m ρ c main_arg2 (by decide))

theorem W4_arg1 (c : Dev nD) : W4 m ρ c (Proc.devRef .tc main_arg1) = (m ((c : Thread nD τ).loc main_arg1)) :=
  (W4_keep m ρ c main_arg1 (by decide)).trans ((W3_from1 m ρ c main_arg1 (by decide)).trans (W1_arg m ρ c main_arg1 (by decide)))

theorem W4_arg2 (c : Dev nD) : W4 m ρ c (Proc.devRef .tc main_arg2) = (m ((c : Thread nD τ).loc main_arg2)) :=
  (W4_keep m ρ c main_arg2 (by decide)).trans ((W3_from1 m ρ c main_arg2 (by decide)).trans (W1_arg m ρ c main_arg2 (by decide)))

theorem W6_arg2 (c : Dev nD) : W6 m ρ c (Proc.devRef .tc main_arg2) = (m ((c : Thread nD τ).loc main_arg2)) :=
  (W6_keep m ρ c main_arg2 (by decide)).trans ((W5_from1 m ρ c main_arg2 (by decide)).trans (W1_arg m ρ c main_arg2 (by decide)))

theorem W8_arg1 (c : Dev nD) : W8 m ρ c (Proc.devRef .tc main_arg1) = (m ((c : Thread nD τ).loc main_arg1)) :=
  (W8_keep m ρ c main_arg1 (by decide)).trans ((W7_from1 m ρ c main_arg1 (by decide)).trans (W1_arg m ρ c main_arg1 (by decide)))

theorem W8_arg2 (c : Dev nD) : W8 m ρ c (Proc.devRef .tc main_arg2) = (m ((c : Thread nD τ).loc main_arg2)) :=
  (W8_keep m ρ c main_arg2 (by decide)).trans ((W7_from1 m ρ c main_arg2 (by decide)).trans (W1_arg m ρ c main_arg2 (by decide)))

theorem W10_arg2 (c : Dev nD) : W10 m ρ c (Proc.devRef .tc main_arg2) = (m ((c : Thread nD τ).loc main_arg2)) :=
  (W10_keep m ρ c main_arg2 (by decide)).trans ((W9_from1 m ρ c main_arg2 (by decide)).trans (W1_arg m ρ c main_arg2 (by decide)))

theorem res1 (c : Dev nD) : W5 m ρ c (Proc.devRef .tc main_v42) = transpose S100000x16 [1, 0] (W4 m ρ c (Proc.devRef .tc main_v41)) transposes_S16x100000_S100000x16_1_0 := by
  show StableHlo.after hostOps2 _ (Proc.devRef .tc main_v42) = _
  after_results_simp

theorem res2 (c : Dev nD) : W9 m ρ c (Proc.devRef .tc main_v67) = transpose S100000x16 [1, 0] (W8 m ρ c (Proc.devRef .tc main_v66)) transposes_S16x100000_S100000x16_1_0 := by
  show StableHlo.after hostOps4 _ (Proc.devRef .tc main_v67) = _
  after_results_simp

theorem res3 (c : Dev nD) : W13 m ρ c (Proc.devRef .tc main_v92) = transpose S100000x16 [1, 0] (W12 m ρ c (Proc.devRef .tc main_v91)) transposes_S16x100000_S100000x16_1_0 := by
  show StableHlo.after hostOps6 _ (Proc.devRef .tc main_v92) = _
  after_results_simp

end Cert.KernelIdeal.RunV

end
-- ==== Proof.KI.EdgeVal0.lean ====
import proofs.«127178_j23579370455142_2_alg».proof.Proof.KI.Edge0
import proofs.«127178_j23579370455142_2_alg».proof.Proof.KerPay
import proofs.«127178_j23579370455142_2_alg».proof.Proof.KerSpec
import Idealize.ShloMosaic.Lib.Pipeline.Value
import Idealize.ShloMosaic.Lib.ValueIdx
import Idealize.ShloMosaic.Lib.Tactic

noncomputable section

namespace Cert.KernelIdeal.Hand

open Cert.KernelIdeal Cert.KernelIdeal.Gen
open Idealize.ShloMosaic Idealize.ShloMosaic.TcCoe Idealize.ShloMosaic.ValueIdx Idealize.SL Idealize.SL.RA Idealize.SL.Sem
open Idealize.ShloMosaic.Pipeline (Dat)

variable {U : Type} [URA U]

variable (V : (c : Dev nD) → (b : Ref sig .tc) → Buf (Elt Ideal) ((c : Thread nD τ).loc b))

theorem idx_facts0 : ∀ t : Fin cfg0.N,
    win0_0.index t (0 : Fin 2) = 0 ∧ win0_0.index t (1 : Fin 2) = t.val
    ∧ win0_7.index t (0 : Fin 2) = 0 ∧ win0_7.index t (1 : Fin 2) = t.val :=
  (by decide +kernel : ∀ t : Fin grid0.N, _)

theorem mem_blk0_7 (t : Fin cfg0.N) (i : S9x3200000.Idx) :
    i ∈ ((cfg0.win 7).blk t).view.set ↔ ∀ a : Fin 2, win0_7.index t a * S9x32000.size a ≤ (i a).val ∧ (i a).val < win0_7.index t a * S9x32000.size a + S9x32000.size a := by
  show i ∈ ((View.whole (Pipeline.arrRef spec0 7)).slice (win0_7.rect t)).set ↔ _
  rw [View.set_slice_whole, Rect.mem_set_unit]
  exact Iff.rfl

theorem covered0_7 (i : S9x3200000.Idx) : ∃ t : Fin cfg0.N, (cfg0.win 7).flush t = true ∧ i ∈ ((cfg0.win 7).blk t).view.set := by
  have hi0 : (i 0).val < 9 := (i 0).isLt
  have hi1 : (i 1).val < 3200000 := (i 1).isLt
  have hN : cfg0.N = 100 := N_0
  let t : Fin cfg0.N := ⟨(i 1).val / 32000, by rw [hN]; omega⟩
  obtain ⟨-, -, e0, e1⟩ := idx_facts0 t
  have ht : t.val = (i 1).val / 32000 := rfl
  refine ⟨t, flush0_7 t, ?_⟩
  rw [mem_blk0_7]
  intro a
  match a with
  | ⟨0, _⟩ => show win0_7.index t (0 : Fin 2) * 9 ≤ (i 0).val ∧ (i 0).val < win0_7.index t (0 : Fin 2) * 9 + 9; omega
  | ⟨1, _⟩ => show win0_7.index t (1 : Fin 2) * 32000 ≤ (i 1).val ∧ (i 1).val < win0_7.index t (1 : Fin 2) * 32000 + 32000; omega

theorem xblk0_apply (c : Dev nD) (t : Fin cfg0.N) (k : Fin 32) (q : Fin 32000) (e : Fin 3200000) (he : e.val = t.val * 32000 + q.val) :
    (iblk0 V c 0 t : Vec Ideal S32x32000 .f32) (ix2 k q) = (V c (Pipeline.arrRef spec0 0) : Vec Ideal S32x3200000 .f32) (ix2 k e) := by
  obtain ⟨h0, h1, -⟩ := idx_facts0 t
  unfold iblk0
  rw [View.read_apply]
  refine congrArg (V c (Pipeline.arrRef spec0 0)) (funext fun a => Fin.ext ?_)
  match a with
  | ⟨0, _⟩ => show win0_0.index t (0 : Fin 2) * 32 + 1 * k.val = k.val; rw [h0]; omega
  | ⟨1, _⟩ => show win0_0.index t (1 : Fin 2) * 32000 + 1 * q.val = e.val; rw [h1, he]; omega

theorem wblk0_1_eq (c : Dev nD) (t : Fin cfg0.N) : (iblk0 V c 1 t : Vec Ideal S9x32 .bf16) = V c (Pipeline.arrRef spec0 1) := by
  funext x
  exact congrArg (V c (Pipeline.arrRef spec0 1)) (funext fun a => Fin.ext (by
    match a with
    | ⟨0, _⟩ | ⟨1, _⟩ => (show 0 * _ + 1 * _ = _); omega))

theorem wblk0_2_eq (c : Dev nD) (t : Fin cfg0.N) : (iblk0 V c 2 t : Vec Ideal S9x1 .f32) = V c (Pipeline.arrRef spec0 2) := by
  funext x
  exact congrArg (V c (Pipeline.arrRef spec0 2)) (funext fun a => Fin.ext (by
    match a with
    | ⟨0, _⟩ | ⟨1, _⟩ => (show 0 * _ + 1 * _ = _); omega))

theorem wblk0_3_eq (c : Dev nD) (t : Fin cfg0.N) : (iblk0 V c 3 t : Vec Ideal S9x9 .bf16) = V c (Pipeline.arrRef spec0 3) := by
  funext x
  exact congrArg (V c (Pipeline.arrRef spec0 3)) (funext fun a => Fin.ext (by
    match a with
    | ⟨0, _⟩ | ⟨1, _⟩ => (show 0 * _ + 1 * _ = _); omega))

theorem wblk0_4_eq (c : Dev nD) (t : Fin cfg0.N) : (iblk0 V c 4 t : Vec Ideal S9x1 .f32) = V c (Pipeline.arrRef spec0 4) := by
  funext x
  exact congrArg (V c (Pipeline.arrRef spec0 4)) (funext fun a => Fin.ext (by
    match a with
    | ⟨0, _⟩ | ⟨1, _⟩ => (show 0 * _ + 1 * _ = _); omega))

theorem wblk0_5_eq (c : Dev nD) (t : Fin cfg0.N) : (iblk0 V c 5 t : Vec Ideal S9x9 .bf16) = V c (Pipeline.arrRef spec0 5) := by
  funext x
  exact congrArg (V c (Pipeline.arrRef spec0 5)) (funext fun a => Fin.ext (by
    match a with
    | ⟨0, _⟩ | ⟨1, _⟩ => (show 0 * _ + 1 * _ = _); omega))

theorem wblk0_6_eq (c : Dev nD) (t : Fin cfg0.N) : (iblk0 V c 6 t : Vec Ideal S9x1 .f32) = V c (Pipeline.arrRef spec0 6) := by
  funext x
  exact congrArg (V c (Pipeline.arrRef spec0 6)) (funext fun a => Fin.ext (by
    match a with
    | ⟨0, _⟩ | ⟨1, _⟩ => (show 0 * _ + 1 * _ = _); omega))

-- Column q of a block is column e of the array, and a column of the result depends on that column of the features only.
theorem point0 (x0 : Vec Ideal S32x32000 .f32) (w1 : Vec Ideal S9x32 .bf16) (c1 : Vec Ideal S9x1 .f32) (w2 : Vec Ideal S9x9 .bf16) (c2 : Vec Ideal S9x1 .f32) (w3 : Vec Ideal S9x9 .bf16) (c3 : Vec Ideal S9x1 .f32) (X : Vec Ideal S32x3200000 .f32)
    (W1 : Vec Ideal S9x32 .bf16) (C1 : Vec Ideal S9x1 .f32) (W2 : Vec Ideal S9x9 .bf16) (C2 : Vec Ideal S9x1 .f32) (W3 : Vec Ideal S9x9 .bf16) (C3 : Vec Ideal S9x1 .f32)
    (hw1 : w1 = W1) (hc1 : c1 = C1) (hw2 : w2 = W2) (hc2 : c2 = C2) (hw3 : w3 = W3) (hc3 : c3 = C3)
    (p : Fin 9) (q : Fin 32000) (e : Fin 3200000) (hx : ∀ k : Fin 32, x0 (ix2 k q) = X (ix2 k e)) :
    Gen.k0_pay1 (F := Ideal) x0 w1 c1 w2 c2 w3 c3 (ix2 p q) = KSpec.G0 X W1 C1 W2 C2 W3 C3 (ix2 p e) := by
  subst hw1 hc1 hw2 hc2 hw3 hc3
  refine (Pay.k0_pay1_apply x0 w1 c1 w2 c2 w3 c3 p q).trans ?_
  refine ((KSpec.G0_apply X w1 c1 w2 c2 w3 c3 p e).trans ?_).symm
  exact (congrFun (Cert.Spec.mlp3_congr _ _ _ _ _ _ hx) p).symm

set_option maxHeartbeats 1000000 in
theorem flushed0_7_eq (c : Dev nD) (t : Fin cfg0.N) :
    (dat0 (F := Ideal) (U := U) V c).flushed 7 t = ((cfg0.win 7).blk t).view.read (Elt Ideal)
      (KSpec.G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) := by
  show (cfg0.win 7).cut (grid0.coords t) ((dat0 (F := Ideal) (U := U) V c).after 7 t) = _
  rw [after0_7 V c t, out0_7_eq (iblk0 V c 0 t) (iblk0 V c 1 t) (iblk0 V c 2 t) (iblk0 V c 3 t) (iblk0 V c 4 t) (iblk0 V c 5 t) (iblk0 V c 6 t)]
  obtain ⟨-, -, e0, e1⟩ := idx_facts0 t
  have ht : t.val < 100 := Nat.lt_of_lt_of_eq t.isLt (show cfg0.N = 100 from N_0)
  refine funext fun (y : S9x32000.Idx) => ?_
  obtain ⟨p, q, rfl⟩ : ∃ (p : Fin 9) (q : Fin 32000), y = ix2 p q := ⟨y 0, y 1, eq_ix2 y⟩
  have hq : q.val < 32000 := q.isLt
  rw [View.read_apply]
  have hemb : (((cfg0.win 7).blk t).view.emb (ix2 p q) : S9x3200000.Idx) = ix2 p (⟨t.val * 32000 + q.val, by omega⟩ : Fin 3200000) := by
    refine funext fun a => Fin.ext ?_
    match a with
    | ⟨0, _⟩ => show win0_7.index t (0 : Fin 2) * 9 + 1 * p.val = p.val; rw [e0]; omega
    | ⟨1, _⟩ => show win0_7.index t (1 : Fin 2) * 32000 + 1 * q.val = t.val * 32000 + q.val; rw [e1]; omega
  refine (point0 (iblk0 V c 0 t) (iblk0 V c 1 t) (iblk0 V c 2 t) (iblk0 V c 3 t) (iblk0 V c 4 t) (iblk0 V c 5 t) (iblk0 V c 6 t) (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))
    (wblk0_1_eq V c t) (wblk0_2_eq V c t) (wblk0_3_eq V c t) (wblk0_4_eq V c t) (wblk0_5_eq V c t) (wblk0_6_eq V c t)
    p q ⟨t.val * 32000 + q.val, by omega⟩
    (fun k => xblk0_apply V c t k q ⟨t.val * 32000 + q.val, by omega⟩ rfl)).trans ?_
  exact congrArg (KSpec.G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6))) hemb.symm

-- The hundred blocks tile the output array, so it is the network of the feature array column by column.
theorem final0 (c : Dev nD) : (dat0 (F := Ideal) (U := U) V c).arrAt 7 cfg0.N
    = KSpec.G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)) :=
  (dat0 (F := Ideal) (U := U) V c).arrAt_eq_of_cover 7 (KSpec.G0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (V c (Pipeline.arrRef spec0 6)))
    (fun t _ => flushed0_7_eq V c t) covered0_7

end Cert.KernelIdeal.Hand

end
-- ==== Proof.KI.NodeVal1.lean ====
import proofs.«127178_j23579370455142_2_alg».proof.Proof.KI.Node1
import proofs.«127178_j23579370455142_2_alg».proof.Proof.KerPay
import proofs.«127178_j23579370455142_2_alg».proof.Proof.KerSpec

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {U : Type} [URA U]

variable (V : (c : Dev nD) → (b : Ref sig .tc) → Buf (Elt Ideal) ((c : Thread nD τ).loc b))

theorem final1_G (c : Dev nD) :
    (dat1 (F := Ideal) (U := U) V c).arrAt 7 cfg1.N
      = Cert.KernelIdeal.KSpec.G1 (V c (Pipeline.arrRef spec1 0)) (V c (Pipeline.arrRef spec1 1))
          (V c (Pipeline.arrRef spec1 2)) (V c (Pipeline.arrRef spec1 3)) (V c (Pipeline.arrRef spec1 4))
          (V c (Pipeline.arrRef spec1 5)) (V c (Pipeline.arrRef spec1 6)) := by
  funext i
  obtain ⟨p, n, rfl⟩ : ∃ (p : Fin 16) (n : Fin 100000), i = ValueIdx.ix2 p n := ⟨i 0, i 1, ValueIdx.eq_ix2 i⟩
  refine (final1_arrays (U := U) V c p n).trans ?_
  refine (Cert.KernelIdeal.Pay.k1_pay1_apply _ _ _ _ _ _ _ p (col1 n)).trans ?_
  refine Eq.trans ?_ (Cert.KernelIdeal.KSpec.G1_apply _ _ _ _ _ _ _ p n).symm
  exact Cert.KernelIdeal.KSpec.mlp3_congr_all (fun _ _ => rfl) (fun _ => rfl) (fun _ _ => rfl) (fun _ => rfl)
    (fun _ _ => rfl) (fun _ => rfl) (fun k => x_at V c k n) p

end Cert.KernelIdeal.Hand

end
-- ==== Proof.KI.ChainVal1.lean ====
import proofs.«127178_j23579370455142_2_alg».proof.Proof.KI.ChainVal0
import proofs.«127178_j23579370455142_2_alg».proof.Proof.KI.EdgeVal0
import proofs.«127178_j23579370455142_2_alg».proof.Proof.KI.NodeVal1

set_option maxRecDepth 16384

noncomputable section

namespace Cert.KernelIdeal.RunV

open Cert.KernelIdeal Cert.KernelIdeal.Gen
open Idealize.ShloMosaic Idealize.ShloMosaic.TcCoe
open Idealize.SL Idealize.SL.RA Idealize.SL.Sem
open Idealize.ShloMosaic.Pipeline (Dat Cfg Window)
open Cert.Bridge (kerRound edgeIn nodeIn round_of)

variable (m : (ℓ : Loc nD τ sig) → Buf (Elt Ideal) ℓ) (ρ : Dev nD → PrngReg)

theorem ein1 (c : Dev nD) : W1 m ρ c (Proc.devRef .tc main_v33) = edgeIn (m ((c : Thread nD τ).loc main_arg1)) (m ((c : Thread nD τ).loc main_arg2)) (m ((c : Thread nD τ).loc main_arg0)) := by
  show StableHlo.after hostOps0 _ (Proc.devRef .tc main_v33) = _
  after_results_simp <;> rfl

theorem eout1 (c : Dev nD) :
    W2 m ρ c (Proc.devRef .tc main_v34) = Cert.KernelIdeal.KSpec.G0 (W1 m ρ c (Proc.devRef .tc main_v33)) (W1 m ρ c (Proc.devRef .tc main_v1)) (W1 m ρ c (Proc.devRef .tc main_v2)) (W1 m ρ c (Proc.devRef .tc main_v4)) (W1 m ρ c (Proc.devRef .tc main_v5)) (W1 m ρ c (Proc.devRef .tc main_v7)) (W1 m ρ c (Proc.devRef .tc main_v8)) :=
  (W2_arr m ρ c 7).trans (Hand.final0 (V1 m ρ) c)

theorem nin1_raw (c : Dev nD) : W3 m ρ c (Proc.devRef .tc main_v40)
    = nodeIn (W2 m ρ c (Proc.devRef .tc main_arg2)) (W2 m ρ c (Proc.devRef .tc main_arg0)) (W2 m ρ c (Proc.devRef .tc main_v34)) := by
  show StableHlo.after hostOps1 _ (Proc.devRef .tc main_v40) = _
  after_results_simp <;> rfl

theorem nin1 (c : Dev nD) : W3 m ρ c (Proc.devRef .tc main_v40) = nodeIn (m ((c : Thread nD τ).loc main_arg2)) (m ((c : Thread nD τ).loc main_arg0)) (W2 m ρ c (Proc.devRef .tc main_v34)) := by
  refine (nin1_raw m ρ c).trans ?_
  rw [W2_arg2 m ρ c, W2_arg0 m ρ c]

theorem nout1 (c : Dev nD) :
    W4 m ρ c (Proc.devRef .tc main_v41) = Cert.KernelIdeal.KSpec.G1 (W3 m ρ c (Proc.devRef .tc main_v40)) (W3 m ρ c (Proc.devRef .tc main_v10)) (W3 m ρ c (Proc.devRef .tc main_v11)) (W3 m ρ c (Proc.devRef .tc main_v13)) (W3 m ρ c (Proc.devRef .tc main_v14)) (W3 m ρ c (Proc.devRef .tc main_v16)) (W3 m ρ c (Proc.devRef .tc main_v17)) :=
  (W4_arr m ρ c 7).trans (Hand.final1_G (V3 m ρ) c)

theorem round1 (c : Dev nD) :
    W5 m ρ c (Proc.devRef .tc main_v42) = roundAt m c (m ((c : Thread nD τ).loc main_arg0)) :=
  round_of _ _ _ _ _ _ _ _ _ _ _ _ _ _ _
    (ein1 m ρ c) (W1_v1 m ρ c) (W1_v2 m ρ c) (W1_v4 m ρ c) (W1_v5 m ρ c) (W1_v7 m ρ c) (W1_v8 m ρ c)
    (eout1 m ρ c) (nin1 m ρ c)
    ((W3_from1 m ρ c main_v10 (by decide)).trans (W1_v10 m ρ c)) ((W3_from1 m ρ c main_v11 (by decide)).trans (W1_v11 m ρ c)) ((W3_from1 m ρ c main_v13 (by decide)).trans (W1_v13 m ρ c)) ((W3_from1 m ρ c main_v14 (by decide)).trans (W1_v14 m ρ c)) ((W3_from1 m ρ c main_v16 (by decide)).trans (W1_v16 m ρ c)) ((W3_from1 m ρ c main_v17 (by decide)).trans (W1_v17 m ρ c))
    (nout1 m ρ c) (res1 m ρ c)

end Cert.KernelIdeal.RunV

end
-- ==== Proof.KI.EdgeVal2.lean ====
import proofs.«127178_j23579370455142_2_alg».proof.Proof.KI.Edge2
import proofs.«127178_j23579370455142_2_alg».proof.Proof.KerPay
import proofs.«127178_j23579370455142_2_alg».proof.Proof.KerSpec
import Idealize.ShloMosaic.Lib.Pipeline.Value
import Idealize.ShloMosaic.Lib.ValueIdx
import Idealize.ShloMosaic.Lib.Tactic

noncomputable section

namespace Cert.KernelIdeal.Hand2

open Cert.KernelIdeal.Hand (out0_7_eq)

open Cert.KernelIdeal Cert.KernelIdeal.Gen
open Idealize.ShloMosaic Idealize.ShloMosaic.TcCoe Idealize.ShloMosaic.ValueIdx Idealize.SL Idealize.SL.RA Idealize.SL.Sem
open Idealize.ShloMosaic.Pipeline (Dat)

variable {U : Type} [URA U]

variable (V : (c : Dev nD) → (b : Ref sig .tc) → Buf (Elt Ideal) ((c : Thread nD τ).loc b))

theorem idx_facts2 : ∀ t : Fin cfg2.N,
    win2_0.index t (0 : Fin 2) = 0 ∧ win2_0.index t (1 : Fin 2) = t.val
    ∧ win2_7.index t (0 : Fin 2) = 0 ∧ win2_7.index t (1 : Fin 2) = t.val :=
  (by decide +kernel : ∀ t : Fin grid2.N, _)

theorem mem_blk2_7 (t : Fin cfg2.N) (i : S9x3200000.Idx) :
    i ∈ ((cfg2.win 7).blk t).view.set ↔ ∀ a : Fin 2, win2_7.index t a * S9x32000.size a ≤ (i a).val ∧ (i a).val < win2_7.index t a * S9x32000.size a + S9x32000.size a := by
  show i ∈ ((View.whole (Pipeline.arrRef spec2 7)).slice (win2_7.rect t)).set ↔ _
  rw [View.set_slice_whole, Rect.mem_set_unit]
  exact Iff.rfl

theorem covered2_7 (i : S9x3200000.Idx) : ∃ t : Fin cfg2.N, (cfg2.win 7).flush t = true ∧ i ∈ ((cfg2.win 7).blk t).view.set := by
  have hi0 : (i 0).val < 9 := (i 0).isLt
  have hi1 : (i 1).val < 3200000 := (i 1).isLt
  have hN : cfg2.N = 100 := N_2
  let t : Fin cfg2.N := ⟨(i 1).val / 32000, by rw [hN]; omega⟩
  obtain ⟨-, -, e0, e1⟩ := idx_facts2 t
  have ht : t.val = (i 1).val / 32000 := rfl
  refine ⟨t, flush2_7 t, ?_⟩
  rw [mem_blk2_7]
  intro a
  match a with
  | ⟨0, _⟩ => show win2_7.index t (0 : Fin 2) * 9 ≤ (i 0).val ∧ (i 0).val < win2_7.index t (0 : Fin 2) * 9 + 9; omega
  | ⟨1, _⟩ => show win2_7.index t (1 : Fin 2) * 32000 ≤ (i 1).val ∧ (i 1).val < win2_7.index t (1 : Fin 2) * 32000 + 32000; omega

theorem xblk2_apply (c : Dev nD) (t : Fin cfg2.N) (k : Fin 32) (q : Fin 32000) (e : Fin 3200000) (he : e.val = t.val * 32000 + q.val) :
    (iblk2 V c 0 t : Vec Ideal S32x32000 .f32) (ix2 k q) = (V c (Pipeline.arrRef spec2 0) : Vec Ideal S32x3200000 .f32) (ix2 k e) := by
  obtain ⟨h0, h1, -⟩ := idx_facts2 t
  unfold iblk2
  rw [View.read_apply]
  refine congrArg (V c (Pipeline.arrRef spec2 0)) (funext fun a => Fin.ext ?_)
  match a with
  | ⟨0, _⟩ => show win2_0.index t (0 : Fin 2) * 32 + 1 * k.val = k.val; rw [h0]; omega
  | ⟨1, _⟩ => show win2_0.index t (1 : Fin 2) * 32000 + 1 * q.val = e.val; rw [h1, he]; omega

theorem wblk2_1_eq (c : Dev nD) (t : Fin cfg2.N) : (iblk2 V c 1 t : Vec Ideal S9x32 .bf16) = V c (Pipeline.arrRef spec2 1) := by
  funext x
  exact congrArg (V c (Pipeline.arrRef spec2 1)) (funext fun a => Fin.ext (by
    match a with
    | ⟨0, _⟩ | ⟨1, _⟩ => (show 0 * _ + 1 * _ = _); omega))

theorem wblk2_2_eq (c : Dev nD) (t : Fin cfg2.N) : (iblk2 V c 2 t : Vec Ideal S9x1 .f32) = V c (Pipeline.arrRef spec2 2) := by
  funext x
  exact congrArg (V c (Pipeline.arrRef spec2 2)) (funext fun a => Fin.ext (by
    match a with
    | ⟨0, _⟩ | ⟨1, _⟩ => (show 0 * _ + 1 * _ = _); omega))

theorem wblk2_3_eq (c : Dev nD) (t : Fin cfg2.N) : (iblk2 V c 3 t : Vec Ideal S9x9 .bf16) = V c (Pipeline.arrRef spec2 3) := by
  funext x
  exact congrArg (V c (Pipeline.arrRef spec2 3)) (funext fun a => Fin.ext (by
    match a with
    | ⟨0, _⟩ | ⟨1, _⟩ => (show 0 * _ + 1 * _ = _); omega))

theorem wblk2_4_eq (c : Dev nD) (t : Fin cfg2.N) : (iblk2 V c 4 t : Vec Ideal S9x1 .f32) = V c (Pipeline.arrRef spec2 4) := by
  funext x
  exact congrArg (V c (Pipeline.arrRef spec2 4)) (funext fun a => Fin.ext (by
    match a with
    | ⟨0, _⟩ | ⟨1, _⟩ => (show 0 * _ + 1 * _ = _); omega))

theorem wblk2_5_eq (c : Dev nD) (t : Fin cfg2.N) : (iblk2 V c 5 t : Vec Ideal S9x9 .bf16) = V c (Pipeline.arrRef spec2 5) := by
  funext x
  exact congrArg (V c (Pipeline.arrRef spec2 5)) (funext fun a => Fin.ext (by
    match a with
    | ⟨0, _⟩ | ⟨1, _⟩ => (show 0 * _ + 1 * _ = _); omega))

theorem wblk2_6_eq (c : Dev nD) (t : Fin cfg2.N) : (iblk2 V c 6 t : Vec Ideal S9x1 .f32) = V c (Pipeline.arrRef spec2 6) := by
  funext x
  exact congrArg (V c (Pipeline.arrRef spec2 6)) (funext fun a => Fin.ext (by
    match a with
    | ⟨0, _⟩ | ⟨1, _⟩ => (show 0 * _ + 1 * _ = _); omega))

-- Column q of a block is column e of the array, and a column of the result depends on that column of the features only.
theorem point2 (x0 : Vec Ideal S32x32000 .f32) (w1 : Vec Ideal S9x32 .bf16) (c1 : Vec Ideal S9x1 .f32) (w2 : Vec Ideal S9x9 .bf16) (c2 : Vec Ideal S9x1 .f32) (w3 : Vec Ideal S9x9 .bf16) (c3 : Vec Ideal S9x1 .f32) (X : Vec Ideal S32x3200000 .f32)
    (W1 : Vec Ideal S9x32 .bf16) (C1 : Vec Ideal S9x1 .f32) (W2 : Vec Ideal S9x9 .bf16) (C2 : Vec Ideal S9x1 .f32) (W3 : Vec Ideal S9x9 .bf16) (C3 : Vec Ideal S9x1 .f32)
    (hw1 : w1 = W1) (hc1 : c1 = C1) (hw2 : w2 = W2) (hc2 : c2 = C2) (hw3 : w3 = W3) (hc3 : c3 = C3)
    (p : Fin 9) (q : Fin 32000) (e : Fin 3200000) (hx : ∀ k : Fin 32, x0 (ix2 k q) = X (ix2 k e)) :
    Gen.k0_pay1 (F := Ideal) x0 w1 c1 w2 c2 w3 c3 (ix2 p q) = KSpec.G0 X W1 C1 W2 C2 W3 C3 (ix2 p e) := by
  subst hw1 hc1 hw2 hc2 hw3 hc3
  refine (Pay.k0_pay1_apply x0 w1 c1 w2 c2 w3 c3 p q).trans ?_
  refine ((KSpec.G0_apply X w1 c1 w2 c2 w3 c3 p e).trans ?_).symm
  exact (congrFun (Cert.Spec.mlp3_congr _ _ _ _ _ _ hx) p).symm

set_option maxHeartbeats 1000000 in
theorem flushed2_7_eq (c : Dev nD) (t : Fin cfg2.N) :
    (dat2 (F := Ideal) (U := U) V c).flushed 7 t = ((cfg2.win 7).blk t).view.read (Elt Ideal)
      (KSpec.G0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) := by
  show (cfg2.win 7).cut (grid2.coords t) ((dat2 (F := Ideal) (U := U) V c).after 7 t) = _
  rw [after2_7 V c t, out0_7_eq (iblk2 V c 0 t) (iblk2 V c 1 t) (iblk2 V c 2 t) (iblk2 V c 3 t) (iblk2 V c 4 t) (iblk2 V c 5 t) (iblk2 V c 6 t)]
  obtain ⟨-, -, e0, e1⟩ := idx_facts2 t
  have ht : t.val < 100 := Nat.lt_of_lt_of_eq t.isLt (show cfg2.N = 100 from N_2)
  refine funext fun (y : S9x32000.Idx) => ?_
  obtain ⟨p, q, rfl⟩ : ∃ (p : Fin 9) (q : Fin 32000), y = ix2 p q := ⟨y 0, y 1, eq_ix2 y⟩
  have hq : q.val < 32000 := q.isLt
  rw [View.read_apply]
  have hemb : (((cfg2.win 7).blk t).view.emb (ix2 p q) : S9x3200000.Idx) = ix2 p (⟨t.val * 32000 + q.val, by omega⟩ : Fin 3200000) := by
    refine funext fun a => Fin.ext ?_
    match a with
    | ⟨0, _⟩ => show win2_7.index t (0 : Fin 2) * 9 + 1 * p.val = p.val; rw [e0]; omega
    | ⟨1, _⟩ => show win2_7.index t (1 : Fin 2) * 32000 + 1 * q.val = t.val * 32000 + q.val; rw [e1]; omega
  refine (point2 (iblk2 V c 0 t) (iblk2 V c 1 t) (iblk2 V c 2 t) (iblk2 V c 3 t) (iblk2 V c 4 t) (iblk2 V c 5 t) (iblk2 V c 6 t) (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))
    (wblk2_1_eq V c t) (wblk2_2_eq V c t) (wblk2_3_eq V c t) (wblk2_4_eq V c t) (wblk2_5_eq V c t) (wblk2_6_eq V c t)
    p q ⟨t.val * 32000 + q.val, by omega⟩
    (fun k => xblk2_apply V c t k q ⟨t.val * 32000 + q.val, by omega⟩ rfl)).trans ?_
  exact congrArg (KSpec.G0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6))) hemb.symm

-- The hundred blocks tile the output array, so it is the network of the feature array column by column.
theorem final2 (c : Dev nD) : (dat2 (F := Ideal) (U := U) V c).arrAt 7 cfg2.N
    = KSpec.G0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)) :=
  (dat2 (F := Ideal) (U := U) V c).arrAt_eq_of_cover 7 (KSpec.G0 (V c (Pipeline.arrRef spec2 0)) (V c (Pipeline.arrRef spec2 1)) (V c (Pipeline.arrRef spec2 2)) (V c (Pipeline.arrRef spec2 3)) (V c (Pipeline.arrRef spec2 4)) (V c (Pipeline.arrRef spec2 5)) (V c (Pipeline.arrRef spec2 6)))
    (fun t _ => flushed2_7_eq V c t) covered2_7

end Cert.KernelIdeal.Hand2

end
-- ==== Proof.KI.NodeVal3.lean ====
import proofs.«127178_j23579370455142_2_alg».proof.Proof.KI.Node3
import proofs.«127178_j23579370455142_2_alg».proof.Proof.KerPay
import proofs.«127178_j23579370455142_2_alg».proof.Proof.KerSpec

set_option maxRecDepth 16384

noncomputable section

namespace Cert.KernelIdeal.Hand3

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {U : Type} [URA U]

variable (V : (c : Dev nD) → (b : Ref sig .tc) → Buf (Elt Ideal) ((c : Thread nD τ).loc b))

theorem final3_G (c : Dev nD) :
    (dat3 (F := Ideal) (U := U) V c).arrAt 7 cfg3.N
      = Cert.KernelIdeal.KSpec.G1 (V c (Pipeline.arrRef spec3 0)) (V c (Pipeline.arrRef spec3 1))
          (V c (Pipeline.arrRef spec3 2)) (V c (Pipeline.arrRef spec3 3)) (V c (Pipeline.arrRef spec3 4))
          (V c (Pipeline.arrRef spec3 5)) (V c (Pipeline.arrRef spec3 6)) := by
  funext i
  obtain ⟨p, n, rfl⟩ : ∃ (p : Fin 16) (n : Fin 100000), i = ValueIdx.ix2 p n := ⟨i 0, i 1, ValueIdx.eq_ix2 i⟩
  refine (final3_arrays (U := U) V c p n).trans ?_
  refine (Cert.KernelIdeal.Pay.k1_pay1_apply _ _ _ _ _ _ _ p (col3 n)).trans ?_
  refine Eq.trans ?_ (Cert.KernelIdeal.KSpec.G1_apply _ _ _ _ _ _ _ p n).symm
  exact Cert.KernelIdeal.KSpec.mlp3_congr_all (fun _ _ => rfl) (fun _ => rfl) (fun _ _ => rfl) (fun _ => rfl)
    (fun _ _ => rfl) (fun _ => rfl) (fun k => x_at V c k n) p

end Cert.KernelIdeal.Hand3

end
-- ==== Proof.KI.ChainVal2.lean ====
import proofs.«127178_j23579370455142_2_alg».proof.Proof.KI.ChainVal0
import proofs.«127178_j23579370455142_2_alg».proof.Proof.KI.EdgeVal2
import proofs.«127178_j23579370455142_2_alg».proof.Proof.KI.NodeVal3

set_option maxRecDepth 16384

noncomputable section

namespace Cert.KernelIdeal.RunV

open Cert.KernelIdeal Cert.KernelIdeal.Gen
open Idealize.ShloMosaic Idealize.ShloMosaic.TcCoe
open Idealize.SL Idealize.SL.RA Idealize.SL.Sem
open Idealize.ShloMosaic.Pipeline (Dat Cfg Window)
open Cert.Bridge (kerRound edgeIn nodeIn round_of)

variable (m : (ℓ : Loc nD τ sig) → Buf (Elt Ideal) ℓ) (ρ : Dev nD → PrngReg)

theorem ein_stretch2 (V : Valuation τ sig (Elt Ideal)) :
    StableHlo.after hostOps2 V (Proc.devRef .tc main_v58)
      = edgeIn (V (Proc.devRef .tc main_arg1)) (V (Proc.devRef .tc main_arg2)) (transpose S100000x16 [1, 0] (V (Proc.devRef .tc main_v41)) transposes_S16x100000_S100000x16_1_0) := by
  simp only [StableHlo.after_cons, StableHlo.after_nil]
  generalize hT : HloOp.result (StableHlo.binary main_v42 main_v55 main_v56 _ _ _ _) _ = T
  have hA : T (Proc.devRef .tc main_v49) = Host.gather gather_S100000x16_S3200000x1_S3200000x16_1_0_n_n_0_1_116 (transpose S100000x16 [1, 0] (V (Proc.devRef .tc main_v41)) transposes_S16x100000_S100000x16_1_0) (broadcastInDim S3200000x1 ![0] bcast_S3200000_S3200000x1_0 (select (cmpi .slt (V (Proc.devRef .tc main_arg2)) (broadcastInDim S3200000 ![] bcast_S_S3200000 (constantI S_ 32 0#32))) (addi (V (Proc.devRef .tc main_arg2)) (broadcastInDim S3200000 ![] bcast_S_S3200000 (constantI S_ 32 100000#32))) (V (Proc.devRef .tc main_arg2)))) := by
    rw [← hT]
    simp (disch := decide) only [StableHlo.nullary_result', StableHlo.unary_result', StableHlo.binary_result', StableHlo.ternary_result',
      StableHlo.nullary_result_ne', StableHlo.unary_result_ne', StableHlo.binary_result_ne', StableHlo.ternary_result_ne']
  have hB : T (Proc.devRef .tc main_v56) = Host.gather gather_S100000x16_S3200000x1_S3200000x16_1_0_n_n_0_1_116 (transpose S100000x16 [1, 0] (V (Proc.devRef .tc main_v41)) transposes_S16x100000_S100000x16_1_0) (broadcastInDim S3200000x1 ![0] bcast_S3200000_S3200000x1_0 (select (cmpi .slt (V (Proc.devRef .tc main_arg1)) (broadcastInDim S3200000 ![] bcast_S_S3200000 (constantI S_ 32 0#32))) (addi (V (Proc.devRef .tc main_arg1)) (broadcastInDim S3200000 ![] bcast_S_S3200000 (constantI S_ 32 100000#32))) (V (Proc.devRef .tc main_arg1)))) := by
    rw [← hT]
    simp (disch := decide) only [StableHlo.nullary_result', StableHlo.unary_result', StableHlo.binary_result', StableHlo.ternary_result',
      StableHlo.nullary_result_ne', StableHlo.unary_result_ne', StableHlo.binary_result_ne', StableHlo.ternary_result_ne']
  simp (disch := decide) only [StableHlo.nullary_result', StableHlo.unary_result', StableHlo.binary_result', StableHlo.ternary_result',
      StableHlo.nullary_result_ne', StableHlo.unary_result_ne', StableHlo.binary_result_ne', StableHlo.ternary_result_ne']
  rw [hA, hB]
  rfl

theorem ein2_raw (c : Dev nD) : W5 m ρ c (Proc.devRef .tc main_v58)
    = edgeIn (W4 m ρ c (Proc.devRef .tc main_arg1)) (W4 m ρ c (Proc.devRef .tc main_arg2)) (transpose S100000x16 [1, 0] (W4 m ρ c (Proc.devRef .tc main_v41)) transposes_S16x100000_S100000x16_1_0) :=
  ein_stretch2 (W4 m ρ c)

theorem ein2 (c : Dev nD) : W5 m ρ c (Proc.devRef .tc main_v58) = edgeIn (m ((c : Thread nD τ).loc main_arg1)) (m ((c : Thread nD τ).loc main_arg2)) (W5 m ρ c (Proc.devRef .tc main_v42)) := by
  rw [res1 m ρ c]
  refine (ein2_raw m ρ c).trans ?_
  rw [W4_arg1 m ρ c, W4_arg2 m ρ c]

theorem eout2 (c : Dev nD) :
    W6 m ρ c (Proc.devRef .tc main_v59) = Cert.KernelIdeal.KSpec.G0 (W5 m ρ c (Proc.devRef .tc main_v58)) (W5 m ρ c (Proc.devRef .tc main_v1)) (W5 m ρ c (Proc.devRef .tc main_v2)) (W5 m ρ c (Proc.devRef .tc main_v4)) (W5 m ρ c (Proc.devRef .tc main_v5)) (W5 m ρ c (Proc.devRef .tc main_v7)) (W5 m ρ c (Proc.devRef .tc main_v8)) :=
  (W6_arr m ρ c 7).trans (Hand2.final2 (V5 m ρ) c)

theorem nin2_raw (c : Dev nD) : W7 m ρ c (Proc.devRef .tc main_v65)
    = nodeIn (W6 m ρ c (Proc.devRef .tc main_arg2)) (W6 m ρ c (Proc.devRef .tc main_v42)) (W6 m ρ c (Proc.devRef .tc main_v59)) := by
  show StableHlo.after hostOps3 _ (Proc.devRef .tc main_v65) = _
  after_results_simp <;> rfl

theorem nin2 (c : Dev nD) : W7 m ρ c (Proc.devRef .tc main_v65) = nodeIn (m ((c : Thread nD τ).loc main_arg2)) (W5 m ρ c (Proc.devRef .tc main_v42)) (W6 m ρ c (Proc.devRef .tc main_v59)) := by
  refine (nin2_raw m ρ c).trans ?_
  rw [W6_arg2 m ρ c, (W6_of_ne m ρ c main_v42 (by decide) : W6 m ρ c (Proc.devRef .tc main_v42) = W5 m ρ c (Proc.devRef .tc main_v42))]

theorem nout2 (c : Dev nD) :
    W8 m ρ c (Proc.devRef .tc main_v66) = Cert.KernelIdeal.KSpec.G1 (W7 m ρ c (Proc.devRef .tc main_v65)) (W7 m ρ c (Proc.devRef .tc main_v10)) (W7 m ρ c (Proc.devRef .tc main_v11)) (W7 m ρ c (Proc.devRef .tc main_v13)) (W7 m ρ c (Proc.devRef .tc main_v14)) (W7 m ρ c (Proc.devRef .tc main_v16)) (W7 m ρ c (Proc.devRef .tc main_v17)) :=
  (W8_arr m ρ c 7).trans (Hand3.final3_G (V7 m ρ) c)

theorem round2 (c : Dev nD) :
    W9 m ρ c (Proc.devRef .tc main_v67) = roundAt m c (W5 m ρ c (Proc.devRef .tc main_v42)) :=
  round_of _ _ _ _ _ _ _ _ _ _ _ _ _ _ _
    (ein2 m ρ c) ((W5_from1 m ρ c main_v1 (by decide)).trans (W1_v1 m ρ c)) ((W5_from1 m ρ c main_v2 (by decide)).trans (W1_v2 m ρ c)) ((W5_from1 m ρ c main_v4 (by decide)).trans (W1_v4 m ρ c)) ((W5_from1 m ρ c main_v5 (by decide)).trans (W1_v5 m ρ c)) ((W5_from1 m ρ c main_v7 (by decide)).trans (W1_v7 m ρ c)) ((W5_from1 m ρ c main_v8 (by decide)).trans (W1_v8 m ρ c))
    (eout2 m ρ c) (nin2 m ρ c)
    ((W7_from1 m ρ c main_v10 (by decide)).trans (W1_v10 m ρ c)) ((W7_from1 m ρ c main_v11 (by decide)).trans (W1_v11 m ρ c)) ((W7_from1 m ρ c main_v13 (by decide)).trans (W1_v13 m ρ c)) ((W7_from1 m ρ c main_v14 (by decide)).trans (W1_v14 m ρ c)) ((W7_from1 m ρ c main_v16 (by decide)).trans (W1_v16 m ρ c)) ((W7_from1 m ρ c main_v17 (by decide)).trans (W1_v17 m ρ c))
    (nout2 m ρ c) (res2 m ρ c)

end Cert.KernelIdeal.RunV

end
-- ==== Proof.KI.EdgeVal4.lean ====
import proofs.«127178_j23579370455142_2_alg».proof.Proof.KI.Edge4
import proofs.«127178_j23579370455142_2_alg».proof.Proof.KerPay
import proofs.«127178_j23579370455142_2_alg».proof.Proof.KerSpec
import Idealize.ShloMosaic.Lib.Pipeline.Value
import Idealize.ShloMosaic.Lib.ValueIdx
import Idealize.ShloMosaic.Lib.Tactic

noncomputable section

namespace Cert.KernelIdeal.Hand4

open Cert.KernelIdeal.Hand (out0_7_eq)

open Cert.KernelIdeal Cert.KernelIdeal.Gen
open Idealize.ShloMosaic Idealize.ShloMosaic.TcCoe Idealize.ShloMosaic.ValueIdx Idealize.SL Idealize.SL.RA Idealize.SL.Sem
open Idealize.ShloMosaic.Pipeline (Dat)

variable {U : Type} [URA U]

variable (V : (c : Dev nD) → (b : Ref sig .tc) → Buf (Elt Ideal) ((c : Thread nD τ).loc b))

theorem idx_facts4 : ∀ t : Fin cfg4.N,
    win4_0.index t (0 : Fin 2) = 0 ∧ win4_0.index t (1 : Fin 2) = t.val
    ∧ win4_7.index t (0 : Fin 2) = 0 ∧ win4_7.index t (1 : Fin 2) = t.val :=
  (by decide +kernel : ∀ t : Fin grid4.N, _)

theorem mem_blk4_7 (t : Fin cfg4.N) (i : S9x3200000.Idx) :
    i ∈ ((cfg4.win 7).blk t).view.set ↔ ∀ a : Fin 2, win4_7.index t a * S9x32000.size a ≤ (i a).val ∧ (i a).val < win4_7.index t a * S9x32000.size a + S9x32000.size a := by
  show i ∈ ((View.whole (Pipeline.arrRef spec4 7)).slice (win4_7.rect t)).set ↔ _
  rw [View.set_slice_whole, Rect.mem_set_unit]
  exact Iff.rfl

theorem covered4_7 (i : S9x3200000.Idx) : ∃ t : Fin cfg4.N, (cfg4.win 7).flush t = true ∧ i ∈ ((cfg4.win 7).blk t).view.set := by
  have hi0 : (i 0).val < 9 := (i 0).isLt
  have hi1 : (i 1).val < 3200000 := (i 1).isLt
  have hN : cfg4.N = 100 := N_4
  let t : Fin cfg4.N := ⟨(i 1).val / 32000, by rw [hN]; omega⟩
  obtain ⟨-, -, e0, e1⟩ := idx_facts4 t
  have ht : t.val = (i 1).val / 32000 := rfl
  refine ⟨t, flush4_7 t, ?_⟩
  rw [mem_blk4_7]
  intro a
  match a with
  | ⟨0, _⟩ => show win4_7.index t (0 : Fin 2) * 9 ≤ (i 0).val ∧ (i 0).val < win4_7.index t (0 : Fin 2) * 9 + 9; omega
  | ⟨1, _⟩ => show win4_7.index t (1 : Fin 2) * 32000 ≤ (i 1).val ∧ (i 1).val < win4_7.index t (1 : Fin 2) * 32000 + 32000; omega

theorem xblk4_apply (c : Dev nD) (t : Fin cfg4.N) (k : Fin 32) (q : Fin 32000) (e : Fin 3200000) (he : e.val = t.val * 32000 + q.val) :
    (iblk4 V c 0 t : Vec Ideal S32x32000 .f32) (ix2 k q) = (V c (Pipeline.arrRef spec4 0) : Vec Ideal S32x3200000 .f32) (ix2 k e) := by
  obtain ⟨h0, h1, -⟩ := idx_facts4 t
  unfold iblk4
  rw [View.read_apply]
  refine congrArg (V c (Pipeline.arrRef spec4 0)) (funext fun a => Fin.ext ?_)
  match a with
  | ⟨0, _⟩ => show win4_0.index t (0 : Fin 2) * 32 + 1 * k.val = k.val; rw [h0]; omega
  | ⟨1, _⟩ => show win4_0.index t (1 : Fin 2) * 32000 + 1 * q.val = e.val; rw [h1, he]; omega

theorem wblk4_1_eq (c : Dev nD) (t : Fin cfg4.N) : (iblk4 V c 1 t : Vec Ideal S9x32 .bf16) = V c (Pipeline.arrRef spec4 1) := by
  funext x
  exact congrArg (V c (Pipeline.arrRef spec4 1)) (funext fun a => Fin.ext (by
    match a with
    | ⟨0, _⟩ | ⟨1, _⟩ => (show 0 * _ + 1 * _ = _); omega))

theorem wblk4_2_eq (c : Dev nD) (t : Fin cfg4.N) : (iblk4 V c 2 t : Vec Ideal S9x1 .f32) = V c (Pipeline.arrRef spec4 2) := by
  funext x
  exact congrArg (V c (Pipeline.arrRef spec4 2)) (funext fun a => Fin.ext (by
    match a with
    | ⟨0, _⟩ | ⟨1, _⟩ => (show 0 * _ + 1 * _ = _); omega))

theorem wblk4_3_eq (c : Dev nD) (t : Fin cfg4.N) : (iblk4 V c 3 t : Vec Ideal S9x9 .bf16) = V c (Pipeline.arrRef spec4 3) := by
  funext x
  exact congrArg (V c (Pipeline.arrRef spec4 3)) (funext fun a => Fin.ext (by
    match a with
    | ⟨0, _⟩ | ⟨1, _⟩ => (show 0 * _ + 1 * _ = _); omega))

theorem wblk4_4_eq (c : Dev nD) (t : Fin cfg4.N) : (iblk4 V c 4 t : Vec Ideal S9x1 .f32) = V c (Pipeline.arrRef spec4 4) := by
  funext x
  exact congrArg (V c (Pipeline.arrRef spec4 4)) (funext fun a => Fin.ext (by
    match a with
    | ⟨0, _⟩ | ⟨1, _⟩ => (show 0 * _ + 1 * _ = _); omega))

theorem wblk4_5_eq (c : Dev nD) (t : Fin cfg4.N) : (iblk4 V c 5 t : Vec Ideal S9x9 .bf16) = V c (Pipeline.arrRef spec4 5) := by
  funext x
  exact congrArg (V c (Pipeline.arrRef spec4 5)) (funext fun a => Fin.ext (by
    match a with
    | ⟨0, _⟩ | ⟨1, _⟩ => (show 0 * _ + 1 * _ = _); omega))

theorem wblk4_6_eq (c : Dev nD) (t : Fin cfg4.N) : (iblk4 V c 6 t : Vec Ideal S9x1 .f32) = V c (Pipeline.arrRef spec4 6) := by
  funext x
  exact congrArg (V c (Pipeline.arrRef spec4 6)) (funext fun a => Fin.ext (by
    match a with
    | ⟨0, _⟩ | ⟨1, _⟩ => (show 0 * _ + 1 * _ = _); omega))

-- Column q of a block is column e of the array, and a column of the result depends on that column of the features only.
theorem point4 (x0 : Vec Ideal S32x32000 .f32) (w1 : Vec Ideal S9x32 .bf16) (c1 : Vec Ideal S9x1 .f32) (w2 : Vec Ideal S9x9 .bf16) (c2 : Vec Ideal S9x1 .f32) (w3 : Vec Ideal S9x9 .bf16) (c3 : Vec Ideal S9x1 .f32) (X : Vec Ideal S32x3200000 .f32)
    (W1 : Vec Ideal S9x32 .bf16) (C1 : Vec Ideal S9x1 .f32) (W2 : Vec Ideal S9x9 .bf16) (C2 : Vec Ideal S9x1 .f32) (W3 : Vec Ideal S9x9 .bf16) (C3 : Vec Ideal S9x1 .f32)
    (hw1 : w1 = W1) (hc1 : c1 = C1) (hw2 : w2 = W2) (hc2 : c2 = C2) (hw3 : w3 = W3) (hc3 : c3 = C3)
    (p : Fin 9) (q : Fin 32000) (e : Fin 3200000) (hx : ∀ k : Fin 32, x0 (ix2 k q) = X (ix2 k e)) :
    Gen.k0_pay1 (F := Ideal) x0 w1 c1 w2 c2 w3 c3 (ix2 p q) = KSpec.G0 X W1 C1 W2 C2 W3 C3 (ix2 p e) := by
  subst hw1 hc1 hw2 hc2 hw3 hc3
  refine (Pay.k0_pay1_apply x0 w1 c1 w2 c2 w3 c3 p q).trans ?_
  refine ((KSpec.G0_apply X w1 c1 w2 c2 w3 c3 p e).trans ?_).symm
  exact (congrFun (Cert.Spec.mlp3_congr _ _ _ _ _ _ hx) p).symm

set_option maxHeartbeats 1000000 in
theorem flushed4_7_eq (c : Dev nD) (t : Fin cfg4.N) :
    (dat4 (F := Ideal) (U := U) V c).flushed 7 t = ((cfg4.win 7).blk t).view.read (Elt Ideal)
      (KSpec.G0 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) := by
  show (cfg4.win 7).cut (grid4.coords t) ((dat4 (F := Ideal) (U := U) V c).after 7 t) = _
  rw [after4_7 V c t, out0_7_eq (iblk4 V c 0 t) (iblk4 V c 1 t) (iblk4 V c 2 t) (iblk4 V c 3 t) (iblk4 V c 4 t) (iblk4 V c 5 t) (iblk4 V c 6 t)]
  obtain ⟨-, -, e0, e1⟩ := idx_facts4 t
  have ht : t.val < 100 := Nat.lt_of_lt_of_eq t.isLt (show cfg4.N = 100 from N_4)
  refine funext fun (y : S9x32000.Idx) => ?_
  obtain ⟨p, q, rfl⟩ : ∃ (p : Fin 9) (q : Fin 32000), y = ix2 p q := ⟨y 0, y 1, eq_ix2 y⟩
  have hq : q.val < 32000 := q.isLt
  rw [View.read_apply]
  have hemb : (((cfg4.win 7).blk t).view.emb (ix2 p q) : S9x3200000.Idx) = ix2 p (⟨t.val * 32000 + q.val, by omega⟩ : Fin 3200000) := by
    refine funext fun a => Fin.ext ?_
    match a with
    | ⟨0, _⟩ => show win4_7.index t (0 : Fin 2) * 9 + 1 * p.val = p.val; rw [e0]; omega
    | ⟨1, _⟩ => show win4_7.index t (1 : Fin 2) * 32000 + 1 * q.val = t.val * 32000 + q.val; rw [e1]; omega
  refine (point4 (iblk4 V c 0 t) (iblk4 V c 1 t) (iblk4 V c 2 t) (iblk4 V c 3 t) (iblk4 V c 4 t) (iblk4 V c 5 t) (iblk4 V c 6 t) (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))
    (wblk4_1_eq V c t) (wblk4_2_eq V c t) (wblk4_3_eq V c t) (wblk4_4_eq V c t) (wblk4_5_eq V c t) (wblk4_6_eq V c t)
    p q ⟨t.val * 32000 + q.val, by omega⟩
    (fun k => xblk4_apply V c t k q ⟨t.val * 32000 + q.val, by omega⟩ rfl)).trans ?_
  exact congrArg (KSpec.G0 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6))) hemb.symm

-- The hundred blocks tile the output array, so it is the network of the feature array column by column.
theorem final4 (c : Dev nD) : (dat4 (F := Ideal) (U := U) V c).arrAt 7 cfg4.N
    = KSpec.G0 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)) :=
  (dat4 (F := Ideal) (U := U) V c).arrAt_eq_of_cover 7 (KSpec.G0 (V c (Pipeline.arrRef spec4 0)) (V c (Pipeline.arrRef spec4 1)) (V c (Pipeline.arrRef spec4 2)) (V c (Pipeline.arrRef spec4 3)) (V c (Pipeline.arrRef spec4 4)) (V c (Pipeline.arrRef spec4 5)) (V c (Pipeline.arrRef spec4 6)))
    (fun t _ => flushed4_7_eq V c t) covered4_7

end Cert.KernelIdeal.Hand4

end
-- ==== Proof.KI.NodeVal5.lean ====
import proofs.«127178_j23579370455142_2_alg».proof.Proof.KI.Node5
import proofs.«127178_j23579370455142_2_alg».proof.Proof.KerPay
import proofs.«127178_j23579370455142_2_alg».proof.Proof.KerSpec

set_option maxRecDepth 16384

noncomputable section

namespace Cert.KernelIdeal.Hand5

open Cert.KernelIdeal Cert.KernelIdeal.Gen
open Idealize.ShloMosaic Idealize.ShloMosaic.TcCoe
open Idealize.SL Idealize.SL.RA Idealize.SL.Sem
open Idealize.ShloMosaic.Pipeline (Dat Cfg Window)

variable {U : Type} [URA U]

variable (V : (c : Dev nD) → (b : Ref sig .tc) → Buf (Elt Ideal) ((c : Thread nD τ).loc b))

theorem final5_G (c : Dev nD) :
    (dat5 (F := Ideal) (U := U) V c).arrAt 7 cfg5.N
      = Cert.KernelIdeal.KSpec.G1 (V c (Pipeline.arrRef spec5 0)) (V c (Pipeline.arrRef spec5 1))
          (V c (Pipeline.arrRef spec5 2)) (V c (Pipeline.arrRef spec5 3)) (V c (Pipeline.arrRef spec5 4))
          (V c (Pipeline.arrRef spec5 5)) (V c (Pipeline.arrRef spec5 6)) := by
  funext i
  obtain ⟨p, n, rfl⟩ : ∃ (p : Fin 16) (n : Fin 100000), i = ValueIdx.ix2 p n := ⟨i 0, i 1, ValueIdx.eq_ix2 i⟩
  refine (final5_arrays (U := U) V c p n).trans ?_
  refine (Cert.KernelIdeal.Pay.k1_pay1_apply _ _ _ _ _ _ _ p (col5 n)).trans ?_
  refine Eq.trans ?_ (Cert.KernelIdeal.KSpec.G1_apply _ _ _ _ _ _ _ p n).symm
  exact Cert.KernelIdeal.KSpec.mlp3_congr_all (fun _ _ => rfl) (fun _ => rfl) (fun _ _ => rfl) (fun _ => rfl)
    (fun _ _ => rfl) (fun _ => rfl) (fun k => x_at V c k n) p

end Cert.KernelIdeal.Hand5

end
-- ==== Proof.KI.ChainVal3.lean ====
import proofs.«127178_j23579370455142_2_alg».proof.Proof.KI.ChainVal0
import proofs.«127178_j23579370455142_2_alg».proof.Proof.KI.EdgeVal4
import proofs.«127178_j23579370455142_2_alg».proof.Proof.KI.NodeVal5

set_option maxRecDepth 16384

noncomputable section

namespace Cert.KernelIdeal.RunV

open Cert.KernelIdeal Cert.KernelIdeal.Gen
open Idealize.ShloMosaic Idealize.ShloMosaic.TcCoe
open Idealize.SL Idealize.SL.RA Idealize.SL.Sem
open Idealize.ShloMosaic.Pipeline (Dat Cfg Window)
open Cert.Bridge (kerRound edgeIn nodeIn round_of)

variable (m : (ℓ : Loc nD τ sig) → Buf (Elt Ideal) ℓ) (ρ : Dev nD → PrngReg)

theorem ein_stretch4 (V : Valuation τ sig (Elt Ideal)) :
    StableHlo.after hostOps4 V (Proc.devRef .tc main_v83)
      = edgeIn (V (Proc.devRef .tc main_arg1)) (V (Proc.devRef .tc main_arg2)) (transpose S100000x16 [1, 0] (V (Proc.devRef .tc main_v66)) transposes_S16x100000_S100000x16_1_0) := by
  simp only [StableHlo.after_cons, StableHlo.after_nil]
  generalize hT : HloOp.result (StableHlo.binary main_v67 main_v80 main_v81 _ _ _ _) _ = T
  have hA : T (Proc.devRef .tc main_v74) = Host.gather gather_S100000x16_S3200000x1_S3200000x16_1_0_n_n_0_1_116 (transpose S100000x16 [1, 0] (V (Proc.devRef .tc main_v66)) transposes_S16x100000_S100000x16_1_0) (broadcastInDim S3200000x1 ![0] bcast_S3200000_S3200000x1_0 (select (cmpi .slt (V (Proc.devRef .tc main_arg2)) (broadcastInDim S3200000 ![] bcast_S_S3200000 (constantI S_ 32 0#32))) (addi (V (Proc.devRef .tc main_arg2)) (broadcastInDim S3200000 ![] bcast_S_S3200000 (constantI S_ 32 100000#32))) (V (Proc.devRef .tc main_arg2)))) := by
    rw [← hT]
    simp (disch := decide) only [StableHlo.nullary_result', StableHlo.unary_result', StableHlo.binary_result', StableHlo.ternary_result',
      StableHlo.nullary_result_ne', StableHlo.unary_result_ne', StableHlo.binary_result_ne', StableHlo.ternary_result_ne']
  have hB : T (Proc.devRef .tc main_v81) = Host.gather gather_S100000x16_S3200000x1_S3200000x16_1_0_n_n_0_1_116 (transpose S100000x16 [1, 0] (V (Proc.devRef .tc main_v66)) transposes_S16x100000_S100000x16_1_0) (broadcastInDim S3200000x1 ![0] bcast_S3200000_S3200000x1_0 (select (cmpi .slt (V (Proc.devRef .tc main_arg1)) (broadcastInDim S3200000 ![] bcast_S_S3200000 (constantI S_ 32 0#32))) (addi (V (Proc.devRef .tc main_arg1)) (broadcastInDim S3200000 ![] bcast_S_S3200000 (constantI S_ 32 100000#32))) (V (Proc.devRef .tc main_arg1)))) := by
    rw [← hT]
    simp (disch := decide) only [StableHlo.nullary_result', StableHlo.unary_result', StableHlo.binary_result', StableHlo.ternary_result',
      StableHlo.nullary_result_ne', StableHlo.unary_result_ne', StableHlo.binary_result_ne', StableHlo.ternary_result_ne']
  simp (disch := decide) only [StableHlo.nullary_result', StableHlo.unary_result', StableHlo.binary_result', StableHlo.ternary_result',
      StableHlo.nullary_result_ne', StableHlo.unary_result_ne', StableHlo.binary_result_ne', StableHlo.ternary_result_ne']
  rw [hA, hB]
  rfl

theorem ein3_raw (c : Dev nD) : W9 m ρ c (Proc.devRef .tc main_v83)
    = edgeIn (W8 m ρ c (Proc.devRef .tc main_arg1)) (W8 m ρ c (Proc.devRef .tc main_arg2)) (transpose S100000x16 [1, 0] (W8 m ρ c (Proc.devRef .tc main_v66)) transposes_S16x100000_S100000x16_1_0) :=
  ein_stretch4 (W8 m ρ c)

theorem ein3 (c : Dev nD) : W9 m ρ c (Proc.devRef .tc main_v83) = edgeIn (m ((c : Thread nD τ).loc main_arg1)) (m ((c : Thread nD τ).loc main_arg2)) (W9 m ρ c (Proc.devRef .tc main_v67)) := by
  rw [res2 m ρ c]
  refine (ein3_raw m ρ c).trans ?_
  rw [W8_arg1 m ρ c, W8_arg2 m ρ c]

theorem eout3 (c : Dev nD) :
    W10 m ρ c (Proc.devRef .tc main_v84) = Cert.KernelIdeal.KSpec.G0 (W9 m ρ c (Proc.devRef .tc main_v83)) (W9 m ρ c (Proc.devRef .tc main_v1)) (W9 m ρ c (Proc.devRef .tc main_v2)) (W9 m ρ c (Proc.devRef .tc main_v4)) (W9 m ρ c (Proc.devRef .tc main_v5)) (W9 m ρ c (Proc.devRef .tc main_v7)) (W9 m ρ c (Proc.devRef .tc main_v8)) :=
  (W10_arr m ρ c 7).trans (Hand4.final4 (V9 m ρ) c)

theorem nin3_raw (c : Dev nD) : W11 m ρ c (Proc.devRef .tc main_v90)
    = nodeIn (W10 m ρ c (Proc.devRef .tc main_arg2)) (W10 m ρ c (Proc.devRef .tc main_v67)) (W10 m ρ c (Proc.devRef .tc main_v84)) := by
  show StableHlo.after hostOps5 _ (Proc.devRef .tc main_v90) = _
  after_results_simp <;> rfl

theorem nin3 (c : Dev nD) : W11 m ρ c (Proc.devRef .tc main_v90) = nodeIn (m ((c : Thread nD τ).loc main_arg2)) (W9 m ρ c (Proc.devRef .tc main_v67)) (W10 m ρ c (Proc.devRef .tc main_v84)) := by
  refine (nin3_raw m ρ c).trans ?_
  rw [W10_arg2 m ρ c, (W10_of_ne m ρ c main_v67 (by decide) : W10 m ρ c (Proc.devRef .tc main_v67) = W9 m ρ c (Proc.devRef .tc main_v67))]

theorem nout3 (c : Dev nD) :
    W12 m ρ c (Proc.devRef .tc main_v91) = Cert.KernelIdeal.KSpec.G1 (W11 m ρ c (Proc.devRef .tc main_v90)) (W11 m ρ c (Proc.devRef .tc main_v10)) (W11 m ρ c (Proc.devRef .tc main_v11)) (W11 m ρ c (Proc.devRef .tc main_v13)) (W11 m ρ c (Proc.devRef .tc main_v14)) (W11 m ρ c (Proc.devRef .tc main_v16)) (W11 m ρ c (Proc.devRef .tc main_v17)) :=
  (W12_arr m ρ c 7).trans (Hand5.final5_G (V11 m ρ) c)

theorem round3 (c : Dev nD) :
    W13 m ρ c (Proc.devRef .tc main_v92) = roundAt m c (W9 m ρ c (Proc.devRef .tc main_v67)) :=
  round_of _ _ _ _ _ _ _ _ _ _ _ _ _ _ _
    (ein3 m ρ c) ((W9_from1 m ρ c main_v1 (by decide)).trans (W1_v1 m ρ c)) ((W9_from1 m ρ c main_v2 (by decide)).trans (W1_v2 m ρ c)) ((W9_from1 m ρ c main_v4 (by decide)).trans (W1_v4 m ρ c)) ((W9_from1 m ρ c main_v5 (by decide)).trans (W1_v5 m ρ c)) ((W9_from1 m ρ c main_v7 (by decide)).trans (W1_v7 m ρ c)) ((W9_from1 m ρ c main_v8 (by decide)).trans (W1_v8 m ρ c))
    (eout3 m ρ c) (nin3 m ρ c)
    ((W11_from1 m ρ c main_v10 (by decide)).trans (W1_v10 m ρ c)) ((W11_from1 m ρ c main_v11 (by decide)).trans (W1_v11 m ρ c)) ((W11_from1 m ρ c main_v13 (by decide)).trans (W1_v13 m ρ c)) ((W11_from1 m ρ c main_v14 (by decide)).trans (W1_v14 m ρ c)) ((W11_from1 m ρ c main_v16 (by decide)).trans (W1_v16 m ρ c)) ((W11_from1 m ρ c main_v17 (by decide)).trans (W1_v17 m ρ c))
    (nout3 m ρ c) (res3 m ρ c)

end Cert.KernelIdeal.RunV

end
-- ==== Proof.KI.ChainVal.lean ====
import proofs.«127178_j23579370455142_2_alg».proof.Proof.KI.ChainVal1
import proofs.«127178_j23579370455142_2_alg».proof.Proof.KI.ChainVal2
import proofs.«127178_j23579370455142_2_alg».proof.Proof.KI.ChainVal3

set_option maxRecDepth 16384

noncomputable section

namespace Cert.KernelIdeal.RunV

open Cert.KernelIdeal Cert.KernelIdeal.Gen
open Idealize.ShloMosaic Idealize.ShloMosaic.TcCoe
open Idealize.SL Idealize.SL.RA Idealize.SL.Sem
open Idealize.ShloMosaic.Pipeline (Dat Cfg Window)
open Cert.Bridge (kerRound)

variable (m : (ℓ : Loc nD τ sig) → Buf (Elt Ideal) ℓ) (ρ : Dev nD → PrngReg)

theorem result_eq (c : Dev nD) :
    W13 m ρ c (Proc.devRef .tc main_v92) = roundAt m c (roundAt m c (roundAt m c (m ((c : Thread nD τ).loc main_arg0)))) :=
  (round3 m ρ c).trans (congrArg (roundAt m c) ((round2 m ρ c).trans (congrArg (roundAt m c) (round1 m ρ c))))

end Cert.KernelIdeal.RunV

end
-- ==== Proof.RoundEq.lean ====
import proofs.«127178_j23579370455142_2_alg».proof.KernelIdeal
import proofs.«127178_j23579370455142_2_alg».proof.Proof.Spec
import proofs.«127178_j23579370455142_2_alg».proof.Proof.KerSpec
import Idealize.ShloMosaic.Lib.ValueIdx

noncomputable section

namespace Cert.Bridge

open Idealize.ShloMosaic Idealize.ShloMosaic.ValueIdx
open Cert.KernelIdeal Cert.KernelIdeal.KSpec

variable [Facts₀]
open Facts₀

theorem edge_eq
    (edgeRef : FVec Ideal S3200000x32 .f32 → FVec Ideal S32x9 .f32 → FVec Ideal S9 .f32 → FVec Ideal S9x9 .f32 → FVec Ideal S9 .f32 → FVec Ideal S9x9 .f32 → FVec Ideal S9 .f32 → FVec Ideal S3200000x9 .f32)
    (h : ∀ (A : FVec Ideal S3200000x32 .f32) (W1 : FVec Ideal S32x9 .f32) (b1 : FVec Ideal S9 .f32) (W2 : FVec Ideal S9x9 .f32) (b2 : FVec Ideal S9 .f32) (W3 : FVec Ideal S9x9 .f32) (b3 : FVec Ideal S9 .f32) (e : Fin 3200000) (p : Fin 9),
      edgeRef A W1 b1 W2 b2 W3 b3 (ix2 e p) = Cert.Spec.mlp3 (fun k j => W1 (ix2 k j)) (fun j => b1 (ix1 j)) (fun k j => W2 (ix2 k j)) (fun j => b2 (ix1 j)) (fun k j => W3 (ix2 k j)) (fun j => b3 (ix1 j)) (fun k => A (ix2 e k)) p)
    (A : FVec Ideal S3200000x32 .f32) (W1 : FVec Ideal S32x9 .f32) (b1 : FVec Ideal S9 .f32) (W2 : FVec Ideal S9x9 .f32) (b2 : FVec Ideal S9 .f32) (W3 : FVec Ideal S9x9 .f32) (b3 : FVec Ideal S9 .f32) :
    transpose S3200000x9 [1, 0] (G0 (transpose S32x3200000 [1, 0] A transposes_S3200000x32_S32x3200000_1_0) (truncf .bf16 (transpose S9x32 [1, 0] W1 transposes_S32x9_S9x32_1_0) bitsLt_bf16_f32) (shapeCast S9x1 b1 shapeCasts_S9_S9x1) (truncf .bf16 (transpose S9x9 [1, 0] W2 transposes_S9x9_S9x9_1_0) bitsLt_bf16_f32) (shapeCast S9x1 b2 shapeCasts_S9_S9x1) (truncf .bf16 (transpose S9x9 [1, 0] W3 transposes_S9x9_S9x9_1_0) bitsLt_bf16_f32) (shapeCast S9x1 b3 shapeCasts_S9_S9x1)) transposes_S9x3200000_S3200000x9_1_0
      = edgeRef A W1 b1 W2 b2 W3 b3 := by
  funext i
  obtain ⟨e, p, rfl⟩ : ∃ (e : Fin 3200000) (p : Fin 9), i = ix2 e p := ⟨i 0, i 1, eq_ix2 i⟩
  exact (G0_bridge A W1 b1 W2 b2 W3 b3 e p).trans (h A W1 b1 W2 b2 W3 b3 e p).symm

theorem node_eq
    (nodeRef : FVec Ideal S100000x25 .f32 → FVec Ideal S25x9 .f32 → FVec Ideal S9 .f32 → FVec Ideal S9x9 .f32 → FVec Ideal S9 .f32 → FVec Ideal S9x16 .f32 → FVec Ideal S16 .f32 → FVec Ideal S100000x16 .f32)
    (h : ∀ (B : FVec Ideal S100000x25 .f32) (V1 : FVec Ideal S25x9 .f32) (c1 : FVec Ideal S9 .f32) (V2 : FVec Ideal S9x9 .f32) (c2 : FVec Ideal S9 .f32) (V3 : FVec Ideal S9x16 .f32) (c3 : FVec Ideal S16 .f32) (n : Fin 100000) (p : Fin 16),
      nodeRef B V1 c1 V2 c2 V3 c3 (ix2 n p) = Cert.Spec.mlp3 (fun k j => V1 (ix2 k j)) (fun j => c1 (ix1 j)) (fun k j => V2 (ix2 k j)) (fun j => c2 (ix1 j)) (fun k j => V3 (ix2 k j)) (fun j => c3 (ix1 j)) (fun k => B (ix2 n k)) p)
    (B : FVec Ideal S100000x25 .f32) (V1 : FVec Ideal S25x9 .f32) (c1 : FVec Ideal S9 .f32) (V2 : FVec Ideal S9x9 .f32) (c2 : FVec Ideal S9 .f32) (V3 : FVec Ideal S9x16 .f32) (c3 : FVec Ideal S16 .f32) :
    transpose S100000x16 [1, 0] (G1 (transpose S25x100000 [1, 0] B transposes_S100000x25_S25x100000_1_0) (truncf .bf16 (transpose S9x25 [1, 0] V1 transposes_S25x9_S9x25_1_0) bitsLt_bf16_f32) (shapeCast S9x1 c1 shapeCasts_S9_S9x1) (truncf .bf16 (transpose S9x9 [1, 0] V2 transposes_S9x9_S9x9_1_0) bitsLt_bf16_f32) (shapeCast S9x1 c2 shapeCasts_S9_S9x1) (truncf .bf16 (transpose S16x9 [1, 0] V3 transposes_S9x16_S16x9_1_0) bitsLt_bf16_f32) (shapeCast S16x1 c3 shapeCasts_S16_S16x1)) transposes_S16x100000_S100000x16_1_0
      = nodeRef B V1 c1 V2 c2 V3 c3 := by
  funext i
  obtain ⟨n, p, rfl⟩ : ∃ (n : Fin 100000) (p : Fin 16), i = ix2 n p := ⟨i 0, i 1, eq_ix2 i⟩
  exact (G1_bridge B V1 c1 V2 c2 V3 c3 n p).trans (h B V1 c1 V2 c2 V3 c3 n p).symm

end Cert.Bridge

end
-- ==== Proof.RefSide.lean ====
import proofs.«127178_j23579370455142_2_alg».proof.Proof.Gen.ReferenceIdeal
import proofs.«127178_j23579370455142_2_alg».proof.Proof.Spec
import Idealize.ShloMosaic.Lib.StackMember

noncomputable section

namespace Cert.RefSide

open Cert.ReferenceIdeal Cert.ReferenceIdeal.Gen Idealize.ShloMosaic Idealize.ShloMosaic.TcCoe Idealize.SL.Sem Idealize.ShloMosaic.StableHlo Idealize.ShloMosaic.ValueIdx Idealize.ShloMosaic.StackMember
open scoped BigOperators

def edgeRef (A : FVec Ideal S3200000x32 .f32) (W1 : FVec Ideal S32x9 .f32) (b1 : FVec Ideal S9 .f32) (W2 : FVec Ideal S9x9 .f32)
    (b2 : FVec Ideal S9 .f32) (W3 : FVec Ideal S9x9 .f32) (b3 : FVec Ideal S9 .f32) : FVec Ideal S3200000x9 .f32 :=
  addf (Host.dotGeneral dot_S3200000x9_S9x9_S3200000x9_1_0_0_1_n_n none (maximumf (addf (Host.dotGeneral dot_S3200000x9_S9x9_S3200000x9_1_0_0_1_n_n none (maximumf (addf (Host.dotGeneral dot_S3200000x32_S32x9_S3200000x9_1_0_0_1_n_n none A W1) (broadcastInDim S3200000x9 ![0, 1] bcast_S1x9_S3200000x9_0_1 (broadcastInDim S1x9 ![1] bcast_S9_S1x9_1 b1))) (broadcastInDim S3200000x9 ![] bcast_S_S3200000x9 (constant (F := Ideal) S_ .f32 0x00000000#32))) W2) (broadcastInDim S3200000x9 ![0, 1] bcast_S1x9_S3200000x9_0_1 (broadcastInDim S1x9 ![1] bcast_S9_S1x9_1 b2))) (broadcastInDim S3200000x9 ![] bcast_S_S3200000x9 (constant (F := Ideal) S_ .f32 0x00000000#32))) W3) (broadcastInDim S3200000x9 ![0, 1] bcast_S1x9_S3200000x9_0_1 (broadcastInDim S1x9 ![1] bcast_S9_S1x9_1 b3))

def nodeRef (B : FVec Ideal S100000x25 .f32) (V1 : FVec Ideal S25x9 .f32) (c1 : FVec Ideal S9 .f32) (V2 : FVec Ideal S9x9 .f32)
    (c2 : FVec Ideal S9 .f32) (V3 : FVec Ideal S9x16 .f32) (c3 : FVec Ideal S16 .f32) : FVec Ideal S100000x16 .f32 :=
  addf (Host.dotGeneral dot_S100000x9_S9x16_S100000x16_1_0_0_1_n_n none (maximumf (addf (Host.dotGeneral dot_S100000x9_S9x9_S100000x9_1_0_0_1_n_n none (maximumf (addf (Host.dotGeneral dot_S100000x25_S25x9_S100000x9_1_0_0_1_n_n none B V1) (broadcastInDim S100000x9 ![0, 1] bcast_S1x9_S100000x9_0_1 (broadcastInDim S1x9 ![1] bcast_S9_S1x9_1 c1))) (broadcastInDim S100000x9 ![] bcast_S_S100000x9 (constant (F := Ideal) S_ .f32 0x00000000#32))) V2) (broadcastInDim S100000x9 ![0, 1] bcast_S1x9_S100000x9_0_1 (broadcastInDim S1x9 ![1] bcast_S9_S1x9_1 c2))) (broadcastInDim S100000x9 ![] bcast_S_S100000x9 (constant (F := Ideal) S_ .f32 0x00000000#32))) V3) (broadcastInDim S100000x16 ![0, 1] bcast_S1x16_S100000x16_0_1 (broadcastInDim S1x16 ![1] bcast_S16_S1x16_1 c3))

def refRound (src dst : (⟨S3200000, .i32⟩ : BufTy).Contents (Elt Ideal))
    (W1 : FVec Ideal S32x9 .f32) (b1 : FVec Ideal S9 .f32) (W2 : FVec Ideal S9x9 .f32) (b2 : FVec Ideal S9 .f32)
    (W3 : FVec Ideal S9x9 .f32) (b3 : FVec Ideal S9 .f32)
    (V1 : FVec Ideal S25x9 .f32) (c1 : FVec Ideal S9 .f32) (V2 : FVec Ideal S9x9 .f32) (c2 : FVec Ideal S9 .f32)
    (V3 : FVec Ideal S9x16 .f32) (c3 : FVec Ideal S16 .f32)
    (X : FVec Ideal S100000x16 .f32) : FVec Ideal S100000x16 .f32 :=
  nodeRef (concatenate S100000x25 1 [⟨S100000x16, X⟩, ⟨S100000x9, (Host.scatterAdd scatter_S100000x9_S3200000x1_S3200000x9_1_0_0_1 (broadcastInDim S100000x9 ![] bcast_S_S100000x9 (constant (F := Ideal) S_ .f32 0x00000000#32)) (broadcastInDim S3200000x1 ![0] bcast_S3200000_S3200000x1_0 dst) (edgeRef (concatenate S3200000x32 1 [⟨S3200000x16, (Host.gather gather_S100000x16_S3200000x1_S3200000x16_1_0_n_n_0_1_116 X (broadcastInDim S3200000x1 ![0] bcast_S3200000_S3200000x1_0 (select (cmpi .slt dst (broadcastInDim S3200000 ![] bcast_S_S3200000 (constantI S_ 32 0#32))) (addi dst (broadcastInDim S3200000 ![] bcast_S_S3200000 (constantI S_ 32 100000#32))) dst)))⟩, ⟨S3200000x16, (Host.gather gather_S100000x16_S3200000x1_S3200000x16_1_0_n_n_0_1_116 X (broadcastInDim S3200000x1 ![0] bcast_S3200000_S3200000x1_0 (select (cmpi .slt src (broadcastInDim S3200000 ![] bcast_S_S3200000 (constantI S_ 32 0#32))) (addi src (broadcastInDim S3200000 ![] bcast_S_S3200000 (constantI S_ 32 100000#32))) src)))⟩] concatenates_S3200000x16_S3200000x16_S3200000x32_d1) W1 b1 W2 b2 W3 b3))⟩] concatenates_S100000x16_S100000x9_S100000x25_d1) V1 c1 V2 c2 V3 c3

section Plain

variable {m k n : ℕ}

/-- A length-n vector laid along every row of an m×n matrix reads, at (e, p), the vector at p. -/
theorem bias_apply (h1 : (⟨2, ![1, n]⟩ : Shape).BroadcastsInDim ⟨2, ![m, n]⟩ ![0, 1])
    (h2 : (⟨1, ![n]⟩ : Shape).BroadcastsInDim ⟨2, ![1, n]⟩ ![1]) (b : FVec Ideal ⟨1, ![n]⟩ .f32) (e : Fin m) (p : Fin n) :
    broadcastInDim ⟨2, ![m, n]⟩ ![0, 1] h1 (broadcastInDim ⟨2, ![1, n]⟩ ![1] h2 b) (ix2 e p) = b (ix1 p) := by
  have hp : p.val = if n = 1 then 0 else p.val := by
    split
    · have := p.isLt; omega
    · rfl
  refine (broadcastInDim_apply _ h1 _ (ix2 e p) (ix2 (0 : Fin 1) p) (fun a => match a with
    | ⟨0, _⟩ => by show 0 = if (1 : Nat) = 1 then 0 else e.val; rw [if_pos rfl]
    | ⟨1, _⟩ => hp)).trans ?_
  exact broadcastInDim_apply _ h2 b (ix2 (0 : Fin 1) p) (ix1 p) (fun a => match a with
    | ⟨0, _⟩ => hp)

theorem relu_apply (h0 : (⟨0, ![]⟩ : Shape).BroadcastsInDim ⟨2, ![m, n]⟩ ![]) (Z : FVec Ideal ⟨2, ![m, n]⟩ .f32) (e : Fin m) (p : Fin n) :
    maximumf Z (broadcastInDim _ ![] h0 (constant (F := Ideal) ⟨0, ![]⟩ .f32 0x00000000#32)) (ix2 e p) = max (Z (ix2 e p)) 0 :=
  (maximumf_apply _ _ _).trans (congrArg (max (Z (ix2 e p)))
    ((broadcastInDim_apply _ h0 _ (ix2 e p) ix0 (fun a => a.elim0)).trans ((constant_apply _ _).trans Ideal.ofBits_zero_f32)))

theorem layer_apply (h1 : (⟨2, ![1, n]⟩ : Shape).BroadcastsInDim ⟨2, ![m, n]⟩ ![0, 1])
    (h2 : (⟨1, ![n]⟩ : Shape).BroadcastsInDim ⟨2, ![1, n]⟩ ![1]) (A : FVec Ideal ⟨2, ![m, k]⟩ .f32) (W : FVec Ideal ⟨2, ![k, n]⟩ .f32)
    (b : FVec Ideal ⟨1, ![n]⟩ .f32) (e : Fin m) (p : Fin n) :
    addf (Host.dotGeneral (F := Ideal) (DotDims.plain m k n) none A W) (broadcastInDim _ ![0, 1] h1 (broadcastInDim _ ![1] h2 b)) (ix2 e p)
      = Cert.Spec.layer (fun i j => W (ix2 i j)) (fun j => b (ix1 j)) (fun i => A (ix2 e i)) p :=
  (addf_apply _ _ _).trans (congrArg₂ (· + ·) (dotGeneral_plain_apply none A W e p) (bias_apply h1 h2 b e p))

end Plain

theorem edgeRef_apply (A : FVec Ideal S3200000x32 .f32) (W1 : FVec Ideal S32x9 .f32) (b1 : FVec Ideal S9 .f32) (W2 : FVec Ideal S9x9 .f32)
    (b2 : FVec Ideal S9 .f32) (W3 : FVec Ideal S9x9 .f32) (b3 : FVec Ideal S9 .f32) (e : Fin 3200000) (p : Fin 9) :
    edgeRef A W1 b1 W2 b2 W3 b3 (ix2 e p)
      = Cert.Spec.mlp3 (fun k j => W1 (ix2 k j)) (fun j => b1 (ix1 j)) (fun k j => W2 (ix2 k j)) (fun j => b2 (ix1 j))
          (fun k j => W3 (ix2 k j)) (fun j => b3 (ix1 j)) (fun k => A (ix2 e k)) p := by
  unfold edgeRef
  refine (layer_apply _ _ _ W3 b3 e p).trans ?_
  unfold Cert.Spec.mlp3
  refine congrArg (fun v => Cert.Spec.layer _ _ v p) (funext fun k => ?_)
  refine (relu_apply _ _ e k).trans (congrArg (fun t => max t 0) ?_)
  refine (layer_apply _ _ _ W2 b2 e k).trans ?_
  refine congrArg (fun v => Cert.Spec.layer _ _ v k) (funext fun k' => ?_)
  refine (relu_apply _ _ e k').trans (congrArg (fun t => max t 0) ?_)
  exact layer_apply _ _ A W1 b1 e k'

theorem nodeRef_apply (B : FVec Ideal S100000x25 .f32) (V1 : FVec Ideal S25x9 .f32) (c1 : FVec Ideal S9 .f32) (V2 : FVec Ideal S9x9 .f32)
    (c2 : FVec Ideal S9 .f32) (V3 : FVec Ideal S9x16 .f32) (c3 : FVec Ideal S16 .f32) (i : Fin 100000) (p : Fin 16) :
    nodeRef B V1 c1 V2 c2 V3 c3 (ix2 i p)
      = Cert.Spec.mlp3 (fun k j => V1 (ix2 k j)) (fun j => c1 (ix1 j)) (fun k j => V2 (ix2 k j)) (fun j => c2 (ix1 j))
          (fun k j => V3 (ix2 k j)) (fun j => c3 (ix1 j)) (fun k => B (ix2 i k)) p := by
  unfold nodeRef
  refine (layer_apply _ _ _ V3 c3 i p).trans ?_
  unfold Cert.Spec.mlp3
  refine congrArg (fun v => Cert.Spec.layer _ _ v p) (funext fun k => ?_)
  refine (relu_apply _ _ i k).trans (congrArg (fun t => max t 0) ?_)
  refine (layer_apply _ _ _ V2 c2 i k).trans ?_
  refine congrArg (fun v => Cert.Spec.layer _ _ v k) (funext fun k' => ?_)
  refine (relu_apply _ _ i k').trans (congrArg (fun t => max t 0) ?_)
  exact layer_apply _ _ B V1 c1 i k'

end Cert.RefSide

end
-- ==== Proof.KerRound.lean ====
import proofs.«127178_j23579370455142_2_alg».proof.Proof.KerRoundDef
import proofs.«127178_j23579370455142_2_alg».proof.Proof.RoundEq
import proofs.«127178_j23579370455142_2_alg».proof.Proof.RefSide

noncomputable section

namespace Cert.Bridge

open Idealize.ShloMosaic Idealize.ShloMosaic.ValueIdx
open Cert.KernelIdeal Cert.KernelIdeal.KSpec

variable [Facts₀]
open Facts₀

theorem kerRound_eq (src dst : (⟨S3200000, .i32⟩ : BufTy).Contents (Elt Ideal)) (feW1 : FVec Ideal S32x9 .f32) (feb1 : FVec Ideal S9 .f32) (feW2 : FVec Ideal S9x9 .f32) (feb2 : FVec Ideal S9 .f32) (feW3 : FVec Ideal S9x9 .f32) (feb3 : FVec Ideal S9 .f32) (fxW1 : FVec Ideal S25x9 .f32) (fxb1 : FVec Ideal S9 .f32) (fxW2 : FVec Ideal S9x9 .f32) (fxb2 : FVec Ideal S9 .f32) (fxW3 : FVec Ideal S9x16 .f32) (fxb3 : FVec Ideal S16 .f32) (X : FVec Ideal S100000x16 .f32) :
    kerRound src dst feW1 feb1 feW2 feb2 feW3 feb3 fxW1 fxb1 fxW2 fxb2 fxW3 fxb3 X
      = Cert.RefSide.refRound src dst feW1 feb1 feW2 feb2 feW3 feb3 fxW1 fxb1 fxW2 fxb2 fxW3 fxb3 X := by
  unfold kerRound Cert.RefSide.refRound
  rw [node_eq Cert.RefSide.nodeRef Cert.RefSide.nodeRef_apply, edge_eq Cert.RefSide.edgeRef Cert.RefSide.edgeRef_apply]
  rfl

end Cert.Bridge

end
-- ==== Proof.RefRunH.lean ====
import proofs.«127178_j23579370455142_2_alg».proof.Proof.RefSide
import Idealize.ShloMosaic.Lib.Pipeline.Frame
import Idealize.ShloMosaic.Lib.StableHlo.Run

noncomputable section

namespace Cert.RefSide

open Cert.ReferenceIdeal Cert.ReferenceIdeal.Gen Idealize.ShloMosaic Idealize.ShloMosaic.TcCoe Idealize.SL.Sem Idealize.ShloMosaic.StableHlo

variable {F : FTy → Type} [FloatOps F]

/-- What a run asks of one operation, and the one reference `y` it writes. -/
structure Ok (op : HloOp τ sig (Elt F)) (y : Ref sig .tc) : Prop where
  sub : op.bufs ⊆ tcRefs τ sig
  fresh : op.fresh = ∅
  writes : op.writes = {Proc.devRef .tc y}

section
variable {ops : List (HloOp τ sig (Elt F))} {W : List (Ref sig .tc)} (h : List.Forall₂ Ok ops W)
include h

theorem Ok.mem : ∀ op ∈ ops, op.bufs ⊆ tcRefs τ sig ∧ op.fresh = ∅ := by
  induction h with
  | nil => exact fun _ h => nomatch h
  | cons ho _ ih => exact List.forall_mem_cons.2 ⟨⟨ho.sub, ho.fresh⟩, ih⟩

/-- A reference that is no operation's result keeps its contents. -/
theorem Ok.keep (V : Valuation τ sig (Elt F)) {r : Ref sig .tc} (hr : r ∉ W) :
    after ops V (Proc.devRef .tc r) = V (Proc.devRef .tc r) := by
  induction h generalizing V with
  | nil => rfl
  | cons ho _ ih =>
    rw [after_cons, ih _ fun hm => hr (List.mem_cons_of_mem _ hm), HloOp.result_of_not_mem]
    rw [ho.writes, Finset.mem_singleton]
    exact fun e => hr (Proc.devRef_injective _ e ▸ List.mem_cons_self)

end

/-- Four lines run in turn keep what none of them writes. -/
theorem Ok.keep4 {o₁ o₂ o₃ o₄ : List (HloOp τ sig (Elt F))} {W₁ W₂ W₃ W₄ : List (Ref sig .tc)} (h₁ : List.Forall₂ Ok o₁ W₁)
    (h₂ : List.Forall₂ Ok o₂ W₂) (h₃ : List.Forall₂ Ok o₃ W₃) (h₄ : List.Forall₂ Ok o₄ W₄) (V : Valuation τ sig (Elt F))
    {r : Ref sig .tc} (hr : r ∉ W₁ ++ W₂ ++ W₃ ++ W₄) :
    after o₄ (after o₃ (after o₂ (after o₁ V))) (Proc.devRef .tc r) = V (Proc.devRef .tc r) := by
  simp only [← after_append]
  exact Ok.keep (List.rel_append (List.rel_append (List.rel_append h₁ h₂) h₃) h₄) V hr

abbrev r1a : List (HloOp τ sig (Elt F)) :=
  [ nullary main_c (constantI S_ 32 0#32),
    unary main_c main_v0 (broadcastInDim S3200000 ![] bcast_S_S3200000 : (⟨S_, .i32⟩ : BufTy).Contents (Elt F) → (⟨S3200000, .i32⟩ : BufTy).Contents (Elt F)),
    binary main_arg2 main_v0 main_v1 (cmpi .slt : (⟨S3200000, .i32⟩ : BufTy).Contents (Elt F) → (⟨S3200000, .i32⟩ : BufTy).Contents (Elt F) → (⟨S3200000, .i1⟩ : BufTy).Contents (Elt F)),
    nullary main_c_0 (constantI S_ 32 100000#32),
    unary main_c_0 main_v2 (broadcastInDim S3200000 ![] bcast_S_S3200000 : (⟨S_, .i32⟩ : BufTy).Contents (Elt F) → (⟨S3200000, .i32⟩ : BufTy).Contents (Elt F)),
    binary main_arg2 main_v2 main_v3 (addi : (⟨S3200000, .i32⟩ : BufTy).Contents (Elt F) → (⟨S3200000, .i32⟩ : BufTy).Contents (Elt F) → (⟨S3200000, .i32⟩ : BufTy).Contents (Elt F)),
    ternary main_v1 main_v3 main_arg2 main_v4 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v4 main_v5 (broadcastInDim S3200000x1 ![0] bcast_S3200000_S3200000x1_0 : (⟨S3200000, .i32⟩ : BufTy).Contents (Elt F) → (⟨S3200000x1, .i32⟩ : BufTy).Contents (Elt F)),
    binary main_arg0 main_v5 main_v6 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    nullary main_c_1 (constantI S_ 32 0#32),
    unary main_c_1 main_v7 (broadcastInDim S3200000 ![] bcast_S_S3200000 : (⟨S_, .i32⟩ : BufTy).Contents (Elt F) → (⟨S3200000, .i32⟩ : BufTy).Contents (Elt F)),
    binary main_arg1 main_v7 main_v8 (cmpi .slt : (⟨S3200000, .i32⟩ : BufTy).Contents (Elt F) → (⟨S3200000, .i32⟩ : BufTy).Contents (Elt F) → (⟨S3200000, .i1⟩ : BufTy).Contents (Elt F)),
    nullary main_c_2 (constantI S_ 32 100000#32),
    unary main_c_2 main_v9 (broadcastInDim S3200000 ![] bcast_S_S3200000 : (⟨S_, .i32⟩ : BufTy).Contents (Elt F) → (⟨S3200000, .i32⟩ : BufTy).Contents (Elt F)),
    binary main_arg1 main_v9 main_v10 (addi : (⟨S3200000, .i32⟩ : BufTy).Contents (Elt F) → (⟨S3200000, .i32⟩ : BufTy).Contents (Elt F) → (⟨S3200000, .i32⟩ : BufTy).Contents (Elt F)),
    ternary main_v8 main_v10 main_arg1 main_v11 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v11 main_v12 (broadcastInDim S3200000x1 ![0] bcast_S3200000_S3200000x1_0 : (⟨S3200000, .i32⟩ : BufTy).Contents (Elt F) → (⟨S3200000x1, .i32⟩ : BufTy).Contents (Elt F)),
    binary main_arg0 main_v12 main_v13 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)) ]
abbrev r1a_W : List (Ref sig .tc) := [main_c, main_v0, main_v1, main_c_0, main_v2, main_v3, main_v4, main_v5, main_v6, main_c_1, main_v7, main_v8, main_c_2, main_v9, main_v10, main_v11, main_v12, main_v13]
theorem r1a_ok : List.Forall₂ Ok (r1a (F := F)) r1a_W := by
  repeat' constructor
  all_goals simp only [nullary_bufs_sub, unary_bufs_sub, binary_bufs_sub, ternary_bufs_sub]

abbrev r1b : List (HloOp τ sig (Elt F)) :=
  [ binary main_v6 main_v13 main_v14 ((fun a b => concatenate S3200000x32 1 [⟨S3200000x16, a⟩, ⟨S3200000x16, b⟩] concatenates_S3200000x16_S3200000x16_S3200000x32_d1) : (⟨S3200000x16, .f32⟩ : BufTy).Contents (Elt F) → (⟨S3200000x16, .f32⟩ : BufTy).Contents (Elt F) → (⟨S3200000x32, .f32⟩ : BufTy).Contents (Elt F)),
    binary main_v14 main_arg3 main_v15 ((fun l r => Host.dotGeneral dot_S3200000x32_S32x9_S3200000x9_1_0_0_1_n_n none l r) : (⟨S3200000x32, .f32⟩ : BufTy).Contents (Elt F) → (⟨S32x9, .f32⟩ : BufTy).Contents (Elt F) → (⟨S3200000x9, .f32⟩ : BufTy).Contents (Elt F)),
    unary main_arg4 main_v16 (broadcastInDim S1x9 ![1] bcast_S9_S1x9_1 : (⟨S9, .f32⟩ : BufTy).Contents (Elt F) → (⟨S1x9, .f32⟩ : BufTy).Contents (Elt F)),
    unary main_v16 main_v17 (broadcastInDim S3200000x9 ![0, 1] bcast_S1x9_S3200000x9_0_1 : (⟨S1x9, .f32⟩ : BufTy).Contents (Elt F) → (⟨S3200000x9, .f32⟩ : BufTy).Contents (Elt F)),
    binary main_v15 main_v17 main_v18 (addf : (⟨S3200000x9, .f32⟩ : BufTy).Contents (Elt F) → (⟨S3200000x9, .f32⟩ : BufTy).Contents (Elt F) → (⟨S3200000x9, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S3200000x9, .f32⟩) main_call0_v0) (broadcastInDim S3200000x9 ![] bcast_S_S3200000x9),
    TRef.binary (TRef.of (T := ⟨S3200000x9, .f32⟩) main_v18) (TRef.of (T := ⟨S3200000x9, .f32⟩) main_call0_v0) (TRef.of (T := ⟨S3200000x9, .f32⟩) main_v19) maximumf,
    binary main_v19 main_arg5 main_v20 ((fun l r => Host.dotGeneral dot_S3200000x9_S9x9_S3200000x9_1_0_0_1_n_n none l r) : (⟨S3200000x9, .f32⟩ : BufTy).Contents (Elt F) → (⟨S9x9, .f32⟩ : BufTy).Contents (Elt F) → (⟨S3200000x9, .f32⟩ : BufTy).Contents (Elt F)),
    unary main_arg6 main_v21 (broadcastInDim S1x9 ![1] bcast_S9_S1x9_1 : (⟨S9, .f32⟩ : BufTy).Contents (Elt F) → (⟨S1x9, .f32⟩ : BufTy).Contents (Elt F)),
    unary main_v21 main_v22 (broadcastInDim S3200000x9 ![0, 1] bcast_S1x9_S3200000x9_0_1 : (⟨S1x9, .f32⟩ : BufTy).Contents (Elt F) → (⟨S3200000x9, .f32⟩ : BufTy).Contents (Elt F)),
    binary main_v20 main_v22 main_v23 (addf : (⟨S3200000x9, .f32⟩ : BufTy).Contents (Elt F) → (⟨S3200000x9, .f32⟩ : BufTy).Contents (Elt F) → (⟨S3200000x9, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S3200000x9, .f32⟩) main_call1_v0) (broadcastInDim S3200000x9 ![] bcast_S_S3200000x9),
    TRef.binary (TRef.of (T := ⟨S3200000x9, .f32⟩) main_v23) (TRef.of (T := ⟨S3200000x9, .f32⟩) main_call1_v0) (TRef.of (T := ⟨S3200000x9, .f32⟩) main_v24) maximumf,
    binary main_v24 main_arg7 main_v25 ((fun l r => Host.dotGeneral dot_S3200000x9_S9x9_S3200000x9_1_0_0_1_n_n none l r) : (⟨S3200000x9, .f32⟩ : BufTy).Contents (Elt F) → (⟨S9x9, .f32⟩ : BufTy).Contents (Elt F) → (⟨S3200000x9, .f32⟩ : BufTy).Contents (Elt F)),
    unary main_arg8 main_v26 (broadcastInDim S1x9 ![1] bcast_S9_S1x9_1 : (⟨S9, .f32⟩ : BufTy).Contents (Elt F) → (⟨S1x9, .f32⟩ : BufTy).Contents (Elt F)),
    unary main_v26 main_v27 (broadcastInDim S3200000x9 ![0, 1] bcast_S1x9_S3200000x9_0_1 : (⟨S1x9, .f32⟩ : BufTy).Contents (Elt F) → (⟨S3200000x9, .f32⟩ : BufTy).Contents (Elt F)),
    binary main_v25 main_v27 main_v28 (addf : (⟨S3200000x9, .f32⟩ : BufTy).Contents (Elt F) → (⟨S3200000x9, .f32⟩ : BufTy).Contents (Elt F) → (⟨S3200000x9, .f32⟩ : BufTy).Contents (Elt F)),
    nullary main_cst (constant S_ .f32 0x00000000#32),
    unary main_cst main_v29 (broadcastInDim S100000x9 ![] bcast_S_S100000x9 : (⟨S_, .f32⟩ : BufTy).Contents (Elt F) → (⟨S100000x9, .f32⟩ : BufTy).Contents (Elt F)),
    unary main_arg2 main_v30 (broadcastInDim S3200000x1 ![0] bcast_S3200000_S3200000x1_0 : (⟨S3200000, .i32⟩ : BufTy).Contents (Elt F) → (⟨S3200000x1, .i32⟩ : BufTy).Contents (Elt F)),
    ternary main_v29 main_v30 main_v28 main_v31 ((fun x i u => Host.scatterAdd scatter_S100000x9_S3200000x1_S3200000x9_1_0_0_1 x i u) : (⟨S100000x9, .f32⟩ : BufTy).Contents (Elt F) → (⟨S3200000x1, .i32⟩ : BufTy).Contents (Elt F) → (⟨S3200000x9, .f32⟩ : BufTy).Contents (Elt F) → (⟨S100000x9, .f32⟩ : BufTy).Contents (Elt F)) ]
abbrev r1b_W : List (Ref sig .tc) := [main_v14, main_v15, main_v16, main_v17, main_v18, main_call0_cst, main_call0_v0, main_v19, main_v20, main_v21, main_v22, main_v23, main_call1_cst, main_call1_v0, main_v24, main_v25, main_v26, main_v27, main_v28, main_cst, main_v29, main_v30, main_v31]
theorem r1b_ok : List.Forall₂ Ok (r1b (F := F)) r1b_W := by
  repeat' constructor
  all_goals simp only [nullary_bufs_sub, unary_bufs_sub, binary_bufs_sub, ternary_bufs_sub]

abbrev r1c : List (HloOp τ sig (Elt F)) :=
  [ binary main_arg0 main_v31 main_v32 ((fun a b => concatenate S100000x25 1 [⟨S100000x16, a⟩, ⟨S100000x9, b⟩] concatenates_S100000x16_S100000x9_S100000x25_d1) : (⟨S100000x16, .f32⟩ : BufTy).Contents (Elt F) → (⟨S100000x9, .f32⟩ : BufTy).Contents (Elt F) → (⟨S100000x25, .f32⟩ : BufTy).Contents (Elt F)),
    binary main_v32 main_arg9 main_v33 ((fun l r => Host.dotGeneral dot_S100000x25_S25x9_S100000x9_1_0_0_1_n_n none l r) : (⟨S100000x25, .f32⟩ : BufTy).Contents (Elt F) → (⟨S25x9, .f32⟩ : BufTy).Contents (Elt F) → (⟨S100000x9, .f32⟩ : BufTy).Contents (Elt F)),
    unary main_arg10 main_v34 (broadcastInDim S1x9 ![1] bcast_S9_S1x9_1 : (⟨S9, .f32⟩ : BufTy).Contents (Elt F) → (⟨S1x9, .f32⟩ : BufTy).Contents (Elt F)),
    unary main_v34 main_v35 (broadcastInDim S100000x9 ![0, 1] bcast_S1x9_S100000x9_0_1 : (⟨S1x9, .f32⟩ : BufTy).Contents (Elt F) → (⟨S100000x9, .f32⟩ : BufTy).Contents (Elt F)),
    binary main_v33 main_v35 main_v36 (addf : (⟨S100000x9, .f32⟩ : BufTy).Contents (Elt F) → (⟨S100000x9, .f32⟩ : BufTy).Contents (Elt F) → (⟨S100000x9, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x9, .f32⟩) main_call2_v0) (broadcastInDim S100000x9 ![] bcast_S_S100000x9),
    TRef.binary (TRef.of (T := ⟨S100000x9, .f32⟩) main_v36) (TRef.of (T := ⟨S100000x9, .f32⟩) main_call2_v0) (TRef.of (T := ⟨S100000x9, .f32⟩) main_v37) maximumf,
    binary main_v37 main_arg11 main_v38 ((fun l r => Host.dotGeneral dot_S100000x9_S9x9_S100000x9_1_0_0_1_n_n none l r) : (⟨S100000x9, .f32⟩ : BufTy).Contents (Elt F) → (⟨S9x9, .f32⟩ : BufTy).Contents (Elt F) → (⟨S100000x9, .f32⟩ : BufTy).Contents (Elt F)),
    unary main_arg12 main_v39 (broadcastInDim S1x9 ![1] bcast_S9_S1x9_1 : (⟨S9, .f32⟩ : BufTy).Contents (Elt F) → (⟨S1x9, .f32⟩ : BufTy).Contents (Elt F)),
    unary main_v39 main_v40 (broadcastInDim S100000x9 ![0, 1] bcast_S1x9_S100000x9_0_1 : (⟨S1x9, .f32⟩ : BufTy).Contents (Elt F) → (⟨S100000x9, .f32⟩ : BufTy).Contents (Elt F)),
    binary main_v38 main_v40 main_v41 (addf : (⟨S100000x9, .f32⟩ : BufTy).Contents (Elt F) → (⟨S100000x9, .f32⟩ : BufTy).Contents (Elt F) → (⟨S100000x9, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x9, .f32⟩) main_call3_v0) (broadcastInDim S100000x9 ![] bcast_S_S100000x9),
    TRef.binary (TRef.of (T := ⟨S100000x9, .f32⟩) main_v41) (TRef.of (T := ⟨S100000x9, .f32⟩) main_call3_v0) (TRef.of (T := ⟨S100000x9, .f32⟩) main_v42) maximumf,
    binary main_v42 main_arg13 main_v43 ((fun l r => Host.dotGeneral dot_S100000x9_S9x16_S100000x16_1_0_0_1_n_n none l r) : (⟨S100000x9, .f32⟩ : BufTy).Contents (Elt F) → (⟨S9x16, .f32⟩ : BufTy).Contents (Elt F) → (⟨S100000x16, .f32⟩ : BufTy).Contents (Elt F)),
    unary main_arg14 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)) ]
abbrev r1c_W : List (Ref sig .tc) := [main_v32, main_v33, main_v34, main_v35, main_v36, main_call2_cst, main_call2_v0, main_v37, main_v38, main_v39, main_v40, main_v41, main_call3_cst, main_call3_v0, main_v42, main_v43, main_v44, main_v45, main_v46]
theorem r1c_ok : List.Forall₂ Ok (r1c (F := F)) r1c_W := by
  repeat' constructor
  all_goals simp only [nullary_bufs_sub, unary_bufs_sub, binary_bufs_sub, ternary_bufs_sub]

abbrev r2a : List (HloOp τ sig (Elt F)) :=
  [ nullary main_c_3 (constantI S_ 32 0#32),
    unary main_c_3 main_v47 (broadcastInDim S3200000 ![] bcast_S_S3200000 : (⟨S_, .i32⟩ : BufTy).Contents (Elt F) → (⟨S3200000, .i32⟩ : BufTy).Contents (Elt F)),
    binary main_arg2 main_v47 main_v48 (cmpi .slt : (⟨S3200000, .i32⟩ : BufTy).Contents (Elt F) → (⟨S3200000, .i32⟩ : BufTy).Contents (Elt F) → (⟨S3200000, .i1⟩ : BufTy).Contents (Elt F)),
    nullary main_c_4 (constantI S_ 32 100000#32),
    unary main_c_4 main_v49 (broadcastInDim S3200000 ![] bcast_S_S3200000 : (⟨S_, .i32⟩ : BufTy).Contents (Elt F) → (⟨S3200000, .i32⟩ : BufTy).Contents (Elt F)),
    binary main_arg2 main_v49 main_v50 (addi : (⟨S3200000, .i32⟩ : BufTy).Contents (Elt F) → (⟨S3200000, .i32⟩ : BufTy).Contents (Elt F) → (⟨S3200000, .i32⟩ : BufTy).Contents (Elt F)),
    ternary main_v48 main_v50 main_arg2 main_v51 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v51 main_v52 (broadcastInDim S3200000x1 ![0] bcast_S3200000_S3200000x1_0 : (⟨S3200000, .i32⟩ : BufTy).Contents (Elt F) → (⟨S3200000x1, .i32⟩ : BufTy).Contents (Elt F)) ]
abbrev r2a_W : List (Ref sig .tc) := [main_c_3, main_v47, main_v48, main_c_4, main_v49, main_v50, main_v51, main_v52]
theorem r2a_ok : List.Forall₂ Ok (r2a (F := F)) r2a_W := by
  repeat' constructor
  all_goals simp only [nullary_bufs_sub, unary_bufs_sub, binary_bufs_sub, ternary_bufs_sub]

abbrev r2g : List (HloOp τ sig (Elt F)) :=
  [ binary main_v46 main_v52 main_v53 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    nullary main_c_5 (constantI S_ 32 0#32),
    unary main_c_5 main_v54 (broadcastInDim S3200000 ![] bcast_S_S3200000 : (⟨S_, .i32⟩ : BufTy).Contents (Elt F) → (⟨S3200000, .i32⟩ : BufTy).Contents (Elt F)),
    binary main_arg1 main_v54 main_v55 (cmpi .slt : (⟨S3200000, .i32⟩ : BufTy).Contents (Elt F) → (⟨S3200000, .i32⟩ : BufTy).Contents (Elt F) → (⟨S3200000, .i1⟩ : BufTy).Contents (Elt F)),
    nullary main_c_6 (constantI S_ 32 100000#32),
    unary main_c_6 main_v56 (broadcastInDim S3200000 ![] bcast_S_S3200000 : (⟨S_, .i32⟩ : BufTy).Contents (Elt F) → (⟨S3200000, .i32⟩ : BufTy).Contents (Elt F)),
    binary main_arg1 main_v56 main_v57 (addi : (⟨S3200000, .i32⟩ : BufTy).Contents (Elt F) → (⟨S3200000, .i32⟩ : BufTy).Contents (Elt F) → (⟨S3200000, .i32⟩ : BufTy).Contents (Elt F)),
    ternary main_v55 main_v57 main_arg1 main_v58 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v58 main_v59 (broadcastInDim S3200000x1 ![0] bcast_S3200000_S3200000x1_0 : (⟨S3200000, .i32⟩ : BufTy).Contents (Elt F) → (⟨S3200000x1, .i32⟩ : BufTy).Contents (Elt F)),
    binary main_v46 main_v59 main_v60 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)) ]
abbrev r2g_W : List (Ref sig .tc) := [main_v53, main_c_5, main_v54, main_v55, main_c_6, main_v56, main_v57, main_v58, main_v59, main_v60]
theorem r2g_ok : List.Forall₂ Ok (r2g (F := F)) r2g_W := by
  repeat' constructor
  all_goals simp only [nullary_bufs_sub, unary_bufs_sub, binary_bufs_sub, ternary_bufs_sub]

abbrev r2b : List (HloOp τ sig (Elt F)) :=
  [ binary main_v53 main_v60 main_v61 ((fun a b => concatenate S3200000x32 1 [⟨S3200000x16, a⟩, ⟨S3200000x16, b⟩] concatenates_S3200000x16_S3200000x16_S3200000x32_d1) : (⟨S3200000x16, .f32⟩ : BufTy).Contents (Elt F) → (⟨S3200000x16, .f32⟩ : BufTy).Contents (Elt F) → (⟨S3200000x32, .f32⟩ : BufTy).Contents (Elt F)),
    binary main_v61 main_arg3 main_v62 ((fun l r => Host.dotGeneral dot_S3200000x32_S32x9_S3200000x9_1_0_0_1_n_n none l r) : (⟨S3200000x32, .f32⟩ : BufTy).Contents (Elt F) → (⟨S32x9, .f32⟩ : BufTy).Contents (Elt F) → (⟨S3200000x9, .f32⟩ : BufTy).Contents (Elt F)),
    unary main_arg4 main_v63 (broadcastInDim S1x9 ![1] bcast_S9_S1x9_1 : (⟨S9, .f32⟩ : BufTy).Contents (Elt F) → (⟨S1x9, .f32⟩ : BufTy).Contents (Elt F)),
    unary main_v63 main_v64 (broadcastInDim S3200000x9 ![0, 1] bcast_S1x9_S3200000x9_0_1 : (⟨S1x9, .f32⟩ : BufTy).Contents (Elt F) → (⟨S3200000x9, .f32⟩ : BufTy).Contents (Elt F)),
    binary main_v62 main_v64 main_v65 (addf : (⟨S3200000x9, .f32⟩ : BufTy).Contents (Elt F) → (⟨S3200000x9, .f32⟩ : BufTy).Contents (Elt F) → (⟨S3200000x9, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S3200000x9, .f32⟩) main_call4_v0) (broadcastInDim S3200000x9 ![] bcast_S_S3200000x9),
    TRef.binary (TRef.of (T := ⟨S3200000x9, .f32⟩) main_v65) (TRef.of (T := ⟨S3200000x9, .f32⟩) main_call4_v0) (TRef.of (T := ⟨S3200000x9, .f32⟩) main_v66) maximumf,
    binary main_v66 main_arg5 main_v67 ((fun l r => Host.dotGeneral dot_S3200000x9_S9x9_S3200000x9_1_0_0_1_n_n none l r) : (⟨S3200000x9, .f32⟩ : BufTy).Contents (Elt F) → (⟨S9x9, .f32⟩ : BufTy).Contents (Elt F) → (⟨S3200000x9, .f32⟩ : BufTy).Contents (Elt F)),
    unary main_arg6 main_v68 (broadcastInDim S1x9 ![1] bcast_S9_S1x9_1 : (⟨S9, .f32⟩ : BufTy).Contents (Elt F) → (⟨S1x9, .f32⟩ : BufTy).Contents (Elt F)),
    unary main_v68 main_v69 (broadcastInDim S3200000x9 ![0, 1] bcast_S1x9_S3200000x9_0_1 : (⟨S1x9, .f32⟩ : BufTy).Contents (Elt F) → (⟨S3200000x9, .f32⟩ : BufTy).Contents (Elt F)),
    binary main_v67 main_v69 main_v70 (addf : (⟨S3200000x9, .f32⟩ : BufTy).Contents (Elt F) → (⟨S3200000x9, .f32⟩ : BufTy).Contents (Elt F) → (⟨S3200000x9, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S3200000x9, .f32⟩) main_call5_v0) (broadcastInDim S3200000x9 ![] bcast_S_S3200000x9),
    TRef.binary (TRef.of (T := ⟨S3200000x9, .f32⟩) main_v70) (TRef.of (T := ⟨S3200000x9, .f32⟩) main_call5_v0) (TRef.of (T := ⟨S3200000x9, .f32⟩) main_v71) maximumf,
    binary main_v71 main_arg7 main_v72 ((fun l r => Host.dotGeneral dot_S3200000x9_S9x9_S3200000x9_1_0_0_1_n_n none l r) : (⟨S3200000x9, .f32⟩ : BufTy).Contents (Elt F) → (⟨S9x9, .f32⟩ : BufTy).Contents (Elt F) → (⟨S3200000x9, .f32⟩ : BufTy).Contents (Elt F)),
    unary main_arg8 main_v73 (broadcastInDim S1x9 ![1] bcast_S9_S1x9_1 : (⟨S9, .f32⟩ : BufTy).Contents (Elt F) → (⟨S1x9, .f32⟩ : BufTy).Contents (Elt F)),
    unary main_v73 main_v74 (broadcastInDim S3200000x9 ![0, 1] bcast_S1x9_S3200000x9_0_1 : (⟨S1x9, .f32⟩ : BufTy).Contents (Elt F) → (⟨S3200000x9, .f32⟩ : BufTy).Contents (Elt F)),
    binary main_v72 main_v74 main_v75 (addf : (⟨S3200000x9, .f32⟩ : BufTy).Contents (Elt F) → (⟨S3200000x9, .f32⟩ : BufTy).Contents (Elt F) → (⟨S3200000x9, .f32⟩ : BufTy).Contents (Elt F)),
    nullary main_cst_7 (constant S_ .f32 0x00000000#32),
    unary main_cst_7 main_v76 (broadcastInDim S100000x9 ![] bcast_S_S100000x9 : (⟨S_, .f32⟩ : BufTy).Contents (Elt F) → (⟨S100000x9, .f32⟩ : BufTy).Contents (Elt F)),
    unary main_arg2 main_v77 (broadcastInDim S3200000x1 ![0] bcast_S3200000_S3200000x1_0 : (⟨S3200000, .i32⟩ : BufTy).Contents (Elt F) → (⟨S3200000x1, .i32⟩ : BufTy).Contents (Elt F)),
    ternary main_v76 main_v77 main_v75 main_v78 ((fun x i u => Host.scatterAdd scatter_S100000x9_S3200000x1_S3200000x9_1_0_0_1 x i u) : (⟨S100000x9, .f32⟩ : BufTy).Contents (Elt F) → (⟨S3200000x1, .i32⟩ : BufTy).Contents (Elt F) → (⟨S3200000x9, .f32⟩ : BufTy).Contents (Elt F) → (⟨S100000x9, .f32⟩ : BufTy).Contents (Elt F)) ]
abbrev r2b_W : List (Ref sig .tc) := [main_v61, main_v62, main_v63, main_v64, main_v65, main_call4_cst, main_call4_v0, main_v66, main_v67, main_v68, main_v69, main_v70, main_call5_cst, main_call5_v0, main_v71, main_v72, main_v73, main_v74, main_v75, main_cst_7, main_v76, main_v77, main_v78]
theorem r2b_ok : List.Forall₂ Ok (r2b (F := F)) r2b_W := by
  repeat' constructor
  all_goals simp only [nullary_bufs_sub, unary_bufs_sub, binary_bufs_sub, ternary_bufs_sub]

abbrev r2c : List (HloOp τ sig (Elt F)) :=
  [ binary main_v46 main_v78 main_v79 ((fun a b => concatenate S100000x25 1 [⟨S100000x16, a⟩, ⟨S100000x9, b⟩] concatenates_S100000x16_S100000x9_S100000x25_d1) : (⟨S100000x16, .f32⟩ : BufTy).Contents (Elt F) → (⟨S100000x9, .f32⟩ : BufTy).Contents (Elt F) → (⟨S100000x25, .f32⟩ : BufTy).Contents (Elt F)),
    binary main_v79 main_arg9 main_v80 ((fun l r => Host.dotGeneral dot_S100000x25_S25x9_S100000x9_1_0_0_1_n_n none l r) : (⟨S100000x25, .f32⟩ : BufTy).Contents (Elt F) → (⟨S25x9, .f32⟩ : BufTy).Contents (Elt F) → (⟨S100000x9, .f32⟩ : BufTy).Contents (Elt F)),
    unary main_arg10 main_v81 (broadcastInDim S1x9 ![1] bcast_S9_S1x9_1 : (⟨S9, .f32⟩ : BufTy).Contents (Elt F) → (⟨S1x9, .f32⟩ : BufTy).Contents (Elt F)),
    unary main_v81 main_v82 (broadcastInDim S100000x9 ![0, 1] bcast_S1x9_S100000x9_0_1 : (⟨S1x9, .f32⟩ : BufTy).Contents (Elt F) → (⟨S100000x9, .f32⟩ : BufTy).Contents (Elt F)),
    binary main_v80 main_v82 main_v83 (addf : (⟨S100000x9, .f32⟩ : BufTy).Contents (Elt F) → (⟨S100000x9, .f32⟩ : BufTy).Contents (Elt F) → (⟨S100000x9, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S100000x9, .f32⟩) main_call6_v0) (broadcastInDim S100000x9 ![] bcast_S_S100000x9),
    TRef.binary (TRef.of (T := ⟨S100000x9, .f32⟩) main_v83) (TRef.of (T := ⟨S100000x9, .f32⟩) main_call6_v0) (TRef.of (T := ⟨S100000x9, .f32⟩) main_v84) maximumf,
    binary main_v84 main_arg11 main_v85 ((fun l r => Host.dotGeneral dot_S100000x9_S9x9_S100000x9_1_0_0_1_n_n none l r) : (⟨S100000x9, .f32⟩ : BufTy).Contents (Elt F) → (⟨S9x9, .f32⟩ : BufTy).Contents (Elt F) → (⟨S100000x9, .f32⟩ : BufTy).Contents (Elt F)),
    unary main_arg12 main_v86 (broadcastInDim S1x9 ![1] bcast_S9_S1x9_1 : (⟨S9, .f32⟩ : BufTy).Contents (Elt F) → (⟨S1x9, .f32⟩ : BufTy).Contents (Elt F)),
    unary main_v86 main_v87 (broadcastInDim S100000x9 ![0, 1] bcast_S1x9_S100000x9_0_1 : (⟨S1x9, .f32⟩ : BufTy).Contents (Elt F) → (⟨S100000x9, .f32⟩ : BufTy).Contents (Elt F)),
    binary main_v85 main_v87 main_v88 (addf : (⟨S100000x9, .f32⟩ : BufTy).Contents (Elt F) → (⟨S100000x9, .f32⟩ : BufTy).Contents (Elt F) → (⟨S100000x9, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S100000x9, .f32⟩) main_call7_v0) (broadcastInDim S100000x9 ![] bcast_S_S100000x9),
    TRef.binary (TRef.of (T := ⟨S100000x9, .f32⟩) main_v88) (TRef.of (T := ⟨S100000x9, .f32⟩) main_call7_v0) (TRef.of (T := ⟨S100000x9, .f32⟩) main_v89) maximumf,
    binary main_v89 main_arg13 main_v90 ((fun l r => Host.dotGeneral dot_S100000x9_S9x16_S100000x16_1_0_0_1_n_n none l r) : (⟨S100000x9, .f32⟩ : BufTy).Contents (Elt F) → (⟨S9x16, .f32⟩ : BufTy).Contents (Elt F) → (⟨S100000x16, .f32⟩ : BufTy).Contents (Elt F)),
    unary main_arg14 main_v91 (broadcastInDim S1x16 ![1] bcast_S16_S1x16_1 : (⟨S16, .f32⟩ : BufTy).Contents (Elt F) → (⟨S1x16, .f32⟩ : BufTy).Contents (Elt F)),
    unary main_v91 main_v92 (broadcastInDim S100000x16 ![0, 1] bcast_S1x16_S100000x16_0_1 : (⟨S1x16, .f32⟩ : BufTy).Contents (Elt F) → (⟨S100000x16, .f32⟩ : BufTy).Contents (Elt F)),
    binary main_v90 main_v92 main_v93 (addf : (⟨S100000x16, .f32⟩ : BufTy).Contents (Elt F) → (⟨S100000x16, .f32⟩ : BufTy).Contents (Elt F) → (⟨S100000x16, .f32⟩ : BufTy).Contents (Elt F)) ]
abbrev r2c_W : List (Ref sig .tc) := [main_v79, main_v80, main_v81, main_v82, main_v83, main_call6_cst, main_call6_v0, main_v84, main_v85, main_v86, main_v87, main_v88, main_call7_cst, main_call7_v0, main_v89, main_v90, main_v91, main_v92, main_v93]
theorem r2c_ok : List.Forall₂ Ok (r2c (F := F)) r2c_W := by
  repeat' constructor
  all_goals simp only [nullary_bufs_sub, unary_bufs_sub, binary_bufs_sub, ternary_bufs_sub]

abbrev r3a : List (HloOp τ sig (Elt F)) :=
  [ nullary main_c_8 (constantI S_ 32 0#32),
    unary main_c_8 main_v94 (broadcastInDim S3200000 ![] bcast_S_S3200000 : (⟨S_, .i32⟩ : BufTy).Contents (Elt F) → (⟨S3200000, .i32⟩ : BufTy).Contents (Elt F)),
    binary main_arg2 main_v94 main_v95 (cmpi .slt : (⟨S3200000, .i32⟩ : BufTy).Contents (Elt F) → (⟨S3200000, .i32⟩ : BufTy).Contents (Elt F) → (⟨S3200000, .i1⟩ : BufTy).Contents (Elt F)),
    nullary main_c_9 (constantI S_ 32 100000#32),
    unary main_c_9 main_v96 (broadcastInDim S3200000 ![] bcast_S_S3200000 : (⟨S_, .i32⟩ : BufTy).Contents (Elt F) → (⟨S3200000, .i32⟩ : BufTy).Contents (Elt F)),
    binary main_arg2 main_v96 main_v97 (addi : (⟨S3200000, .i32⟩ : BufTy).Contents (Elt F) → (⟨S3200000, .i32⟩ : BufTy).Contents (Elt F) → (⟨S3200000, .i32⟩ : BufTy).Contents (Elt F)),
    ternary main_v95 main_v97 main_arg2 main_v98 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    unary main_v98 main_v99 (broadcastInDim S3200000x1 ![0] bcast_S3200000_S3200000x1_0 : (⟨S3200000, .i32⟩ : BufTy).Contents (Elt F) → (⟨S3200000x1, .i32⟩ : BufTy).Contents (Elt F)),
    binary main_v93 main_v99 main_v100 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    nullary main_c_10 (constantI S_ 32 0#32),
    unary main_c_10 main_v101 (broadcastInDim S3200000 ![] bcast_S_S3200000 : (⟨S_, .i32⟩ : BufTy).Contents (Elt F) → (⟨S3200000, .i32⟩ : BufTy).Contents (Elt F)),
    binary main_arg1 main_v101 main_v102 (cmpi .slt : (⟨S3200000, .i32⟩ : BufTy).Contents (Elt F) → (⟨S3200000, .i32⟩ : BufTy).Contents (Elt F) → (⟨S3200000, .i1⟩ : BufTy).Contents (Elt F)),
    nullary main_c_11 (constantI S_ 32 100000#32),
    unary main_c_11 main_v103 (broadcastInDim S3200000 ![] bcast_S_S3200000 : (⟨S_, .i32⟩ : BufTy).Contents (Elt F) → (⟨S3200000, .i32⟩ : BufTy).Contents (Elt F)),
    binary main_arg1 main_v103 main_v104 (addi : (⟨S3200000, .i32⟩ : BufTy).Contents (Elt F) → (⟨S3200000, .i32⟩ : BufTy).Contents (Elt F) → (⟨S3200000, .i32⟩ : BufTy).Contents (Elt F)),
    ternary main_v102 main_v104 main_arg1 main_v105 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)) ]
abbrev r3a_W : List (Ref sig .tc) := [main_c_8, main_v94, main_v95, main_c_9, main_v96, main_v97, main_v98, main_v99, main_v100, main_c_10, main_v101, main_v102, main_c_11, main_v103, main_v104, main_v105]
theorem r3a_ok : List.Forall₂ Ok (r3a (F := F)) r3a_W := by
  repeat' constructor
  all_goals simp only [nullary_bufs_sub, unary_bufs_sub, binary_bufs_sub, ternary_bufs_sub]

abbrev r3g : List (HloOp τ sig (Elt F)) :=
  [ unary main_v105 main_v106 (broadcastInDim S3200000x1 ![0] bcast_S3200000_S3200000x1_0 : (⟨S3200000, .i32⟩ : BufTy).Contents (Elt F) → (⟨S3200000x1, .i32⟩ : BufTy).Contents (Elt F)),
    binary main_v93 main_v106 main_v107 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)) ]
abbrev r3g_W : List (Ref sig .tc) := [main_v106, main_v107]
theorem r3g_ok : List.Forall₂ Ok (r3g (F := F)) r3g_W := by
  repeat' constructor
  all_goals simp only [nullary_bufs_sub, unary_bufs_sub, binary_bufs_sub, ternary_bufs_sub]

abbrev r3b : List (HloOp τ sig (Elt F)) :=
  [ binary main_v100 main_v107 main_v108 ((fun a b => concatenate S3200000x32 1 [⟨S3200000x16, a⟩, ⟨S3200000x16, b⟩] concatenates_S3200000x16_S3200000x16_S3200000x32_d1) : (⟨S3200000x16, .f32⟩ : BufTy).Contents (Elt F) → (⟨S3200000x16, .f32⟩ : BufTy).Contents (Elt F) → (⟨S3200000x32, .f32⟩ : BufTy).Contents (Elt F)),
    binary main_v108 main_arg3 main_v109 ((fun l r => Host.dotGeneral dot_S3200000x32_S32x9_S3200000x9_1_0_0_1_n_n none l r) : (⟨S3200000x32, .f32⟩ : BufTy).Contents (Elt F) → (⟨S32x9, .f32⟩ : BufTy).Contents (Elt F) → (⟨S3200000x9, .f32⟩ : BufTy).Contents (Elt F)),
    unary main_arg4 main_v110 (broadcastInDim S1x9 ![1] bcast_S9_S1x9_1 : (⟨S9, .f32⟩ : BufTy).Contents (Elt F) → (⟨S1x9, .f32⟩ : BufTy).Contents (Elt F)),
    unary main_v110 main_v111 (broadcastInDim S3200000x9 ![0, 1] bcast_S1x9_S3200000x9_0_1 : (⟨S1x9, .f32⟩ : BufTy).Contents (Elt F) → (⟨S3200000x9, .f32⟩ : BufTy).Contents (Elt F)),
    binary main_v109 main_v111 main_v112 (addf : (⟨S3200000x9, .f32⟩ : BufTy).Contents (Elt F) → (⟨S3200000x9, .f32⟩ : BufTy).Contents (Elt F) → (⟨S3200000x9, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S3200000x9, .f32⟩) main_call8_v0) (broadcastInDim S3200000x9 ![] bcast_S_S3200000x9),
    TRef.binary (TRef.of (T := ⟨S3200000x9, .f32⟩) main_v112) (TRef.of (T := ⟨S3200000x9, .f32⟩) main_call8_v0) (TRef.of (T := ⟨S3200000x9, .f32⟩) main_v113) maximumf,
    binary main_v113 main_arg5 main_v114 ((fun l r => Host.dotGeneral dot_S3200000x9_S9x9_S3200000x9_1_0_0_1_n_n none l r) : (⟨S3200000x9, .f32⟩ : BufTy).Contents (Elt F) → (⟨S9x9, .f32⟩ : BufTy).Contents (Elt F) → (⟨S3200000x9, .f32⟩ : BufTy).Contents (Elt F)),
    unary main_arg6 main_v115 (broadcastInDim S1x9 ![1] bcast_S9_S1x9_1 : (⟨S9, .f32⟩ : BufTy).Contents (Elt F) → (⟨S1x9, .f32⟩ : BufTy).Contents (Elt F)),
    unary main_v115 main_v116 (broadcastInDim S3200000x9 ![0, 1] bcast_S1x9_S3200000x9_0_1 : (⟨S1x9, .f32⟩ : BufTy).Contents (Elt F) → (⟨S3200000x9, .f32⟩ : BufTy).Contents (Elt F)),
    binary main_v114 main_v116 main_v117 (addf : (⟨S3200000x9, .f32⟩ : BufTy).Contents (Elt F) → (⟨S3200000x9, .f32⟩ : BufTy).Contents (Elt F) → (⟨S3200000x9, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S3200000x9, .f32⟩) main_call9_v0) (broadcastInDim S3200000x9 ![] bcast_S_S3200000x9),
    TRef.binary (TRef.of (T := ⟨S3200000x9, .f32⟩) main_v117) (TRef.of (T := ⟨S3200000x9, .f32⟩) main_call9_v0) (TRef.of (T := ⟨S3200000x9, .f32⟩) main_v118) maximumf,
    binary main_v118 main_arg7 main_v119 ((fun l r => Host.dotGeneral dot_S3200000x9_S9x9_S3200000x9_1_0_0_1_n_n none l r) : (⟨S3200000x9, .f32⟩ : BufTy).Contents (Elt F) → (⟨S9x9, .f32⟩ : BufTy).Contents (Elt F) → (⟨S3200000x9, .f32⟩ : BufTy).Contents (Elt F)),
    unary main_arg8 main_v120 (broadcastInDim S1x9 ![1] bcast_S9_S1x9_1 : (⟨S9, .f32⟩ : BufTy).Contents (Elt F) → (⟨S1x9, .f32⟩ : BufTy).Contents (Elt F)),
    unary main_v120 main_v121 (broadcastInDim S3200000x9 ![0, 1] bcast_S1x9_S3200000x9_0_1 : (⟨S1x9, .f32⟩ : BufTy).Contents (Elt F) → (⟨S3200000x9, .f32⟩ : BufTy).Contents (Elt F)),
    binary main_v119 main_v121 main_v122 (addf : (⟨S3200000x9, .f32⟩ : BufTy).Contents (Elt F) → (⟨S3200000x9, .f32⟩ : BufTy).Contents (Elt F) → (⟨S3200000x9, .f32⟩ : BufTy).Contents (Elt F)),
    nullary main_cst_12 (constant S_ .f32 0x00000000#32),
    unary main_cst_12 main_v123 (broadcastInDim S100000x9 ![] bcast_S_S100000x9 : (⟨S_, .f32⟩ : BufTy).Contents (Elt F) → (⟨S100000x9, .f32⟩ : BufTy).Contents (Elt F)),
    unary main_arg2 main_v124 (broadcastInDim S3200000x1 ![0] bcast_S3200000_S3200000x1_0 : (⟨S3200000, .i32⟩ : BufTy).Contents (Elt F) → (⟨S3200000x1, .i32⟩ : BufTy).Contents (Elt F)),
    ternary main_v123 main_v124 main_v122 main_v125 ((fun x i u => Host.scatterAdd scatter_S100000x9_S3200000x1_S3200000x9_1_0_0_1 x i u) : (⟨S100000x9, .f32⟩ : BufTy).Contents (Elt F) → (⟨S3200000x1, .i32⟩ : BufTy).Contents (Elt F) → (⟨S3200000x9, .f32⟩ : BufTy).Contents (Elt F) → (⟨S100000x9, .f32⟩ : BufTy).Contents (Elt F)) ]
abbrev r3b_W : List (Ref sig .tc) := [main_v108, main_v109, main_v110, main_v111, main_v112, main_call8_cst, main_call8_v0, main_v113, main_v114, main_v115, main_v116, main_v117, main_call9_cst, main_call9_v0, main_v118, main_v119, main_v120, main_v121, main_v122, main_cst_12, main_v123, main_v124, main_v125]
theorem r3b_ok : List.Forall₂ Ok (r3b (F := F)) r3b_W := by
  repeat' constructor
  all_goals simp only [nullary_bufs_sub, unary_bufs_sub, binary_bufs_sub, ternary_bufs_sub]

abbrev r3c : List (HloOp τ sig (Elt F)) :=
  [ binary main_v93 main_v125 main_v126 ((fun a b => concatenate S100000x25 1 [⟨S100000x16, a⟩, ⟨S100000x9, b⟩] concatenates_S100000x16_S100000x9_S100000x25_d1) : (⟨S100000x16, .f32⟩ : BufTy).Contents (Elt F) → (⟨S100000x9, .f32⟩ : BufTy).Contents (Elt F) → (⟨S100000x25, .f32⟩ : BufTy).Contents (Elt F)),
    binary main_v126 main_arg9 main_v127 ((fun l r => Host.dotGeneral dot_S100000x25_S25x9_S100000x9_1_0_0_1_n_n none l r) : (⟨S100000x25, .f32⟩ : BufTy).Contents (Elt F) → (⟨S25x9, .f32⟩ : BufTy).Contents (Elt F) → (⟨S100000x9, .f32⟩ : BufTy).Contents (Elt F)),
    unary main_arg10 main_v128 (broadcastInDim S1x9 ![1] bcast_S9_S1x9_1 : (⟨S9, .f32⟩ : BufTy).Contents (Elt F) → (⟨S1x9, .f32⟩ : BufTy).Contents (Elt F)),
    unary main_v128 main_v129 (broadcastInDim S100000x9 ![0, 1] bcast_S1x9_S100000x9_0_1 : (⟨S1x9, .f32⟩ : BufTy).Contents (Elt F) → (⟨S100000x9, .f32⟩ : BufTy).Contents (Elt F)),
    binary main_v127 main_v129 main_v130 (addf : (⟨S100000x9, .f32⟩ : BufTy).Contents (Elt F) → (⟨S100000x9, .f32⟩ : BufTy).Contents (Elt F) → (⟨S100000x9, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S100000x9, .f32⟩) main_call10_v0) (broadcastInDim S100000x9 ![] bcast_S_S100000x9),
    TRef.binary (TRef.of (T := ⟨S100000x9, .f32⟩) main_v130) (TRef.of (T := ⟨S100000x9, .f32⟩) main_call10_v0) (TRef.of (T := ⟨S100000x9, .f32⟩) main_v131) maximumf,
    binary main_v131 main_arg11 main_v132 ((fun l r => Host.dotGeneral dot_S100000x9_S9x9_S100000x9_1_0_0_1_n_n none l r) : (⟨S100000x9, .f32⟩ : BufTy).Contents (Elt F) → (⟨S9x9, .f32⟩ : BufTy).Contents (Elt F) → (⟨S100000x9, .f32⟩ : BufTy).Contents (Elt F)),
    unary main_arg12 main_v133 (broadcastInDim S1x9 ![1] bcast_S9_S1x9_1 : (⟨S9, .f32⟩ : BufTy).Contents (Elt F) → (⟨S1x9, .f32⟩ : BufTy).Contents (Elt F)),
    unary main_v133 main_v134 (broadcastInDim S100000x9 ![0, 1] bcast_S1x9_S100000x9_0_1 : (⟨S1x9, .f32⟩ : BufTy).Contents (Elt F) → (⟨S100000x9, .f32⟩ : BufTy).Contents (Elt F)),
    binary main_v132 main_v134 main_v135 (addf : (⟨S100000x9, .f32⟩ : BufTy).Contents (Elt F) → (⟨S100000x9, .f32⟩ : BufTy).Contents (Elt F) → (⟨S100000x9, .f32⟩ : BufTy).Contents (Elt F)),
    TRef.nullary (TRef.of (T := ⟨S_, .f32⟩) main_call11_cst) (constant S_ .f32 0x00000000#32),
    TRef.unary (TRef.of (T := ⟨S_, .f32⟩) main_call11_cst) (TRef.of (T := ⟨S100000x9, .f32⟩) main_call11_v0) (broadcastInDim S100000x9 ![] bcast_S_S100000x9),
    TRef.binary (TRef.of (T := ⟨S100000x9, .f32⟩) main_v135) (TRef.of (T := ⟨S100000x9, .f32⟩) main_call11_v0) (TRef.of (T := ⟨S100000x9, .f32⟩) main_v136) maximumf,
    binary main_v136 main_arg13 main_v137 ((fun l r => Host.dotGeneral dot_S100000x9_S9x16_S100000x16_1_0_0_1_n_n none l r) : (⟨S100000x9, .f32⟩ : BufTy).Contents (Elt F) → (⟨S9x16, .f32⟩ : BufTy).Contents (Elt F) → (⟨S100000x16, .f32⟩ : BufTy).Contents (Elt F)),
    unary main_arg14 main_v138 (broadcastInDim S1x16 ![1] bcast_S16_S1x16_1 : (⟨S16, .f32⟩ : BufTy).Contents (Elt F) → (⟨S1x16, .f32⟩ : BufTy).Contents (Elt F)),
    unary main_v138 main_v139 (broadcastInDim S100000x16 ![0, 1] bcast_S1x16_S100000x16_0_1 : (⟨S1x16, .f32⟩ : BufTy).Contents (Elt F) → (⟨S100000x16, .f32⟩ : BufTy).Contents (Elt F)),
    binary main_v137 main_v139 main_v140 (addf : (⟨S100000x16, .f32⟩ : BufTy).Contents (Elt F) → (⟨S100000x16, .f32⟩ : BufTy).Contents (Elt F) → (⟨S100000x16, .f32⟩ : BufTy).Contents (Elt F)) ]
abbrev r3c_W : List (Ref sig .tc) := [main_v126, main_v127, main_v128, main_v129, main_v130, main_call10_cst, main_call10_v0, main_v131, main_v132, main_v133, main_v134, main_v135, main_call11_cst, main_call11_v0, main_v136, main_v137, main_v138, main_v139, main_v140]
theorem r3c_ok : List.Forall₂ Ok (r3c (F := F)) r3c_W := by
  repeat' constructor
  all_goals simp only [nullary_bufs_sub, unary_bufs_sub, binary_bufs_sub, ternary_bufs_sub]

abbrev opsW0 : List (HloOp τ sig (Elt F)) := r1a ++ (r1b ++ (r1c ++ (r2a)))

abbrev opsW1 : List (HloOp τ sig (Elt F)) := r2g ++ (r2b ++ (r2c ++ (r3a)))

abbrev opsW2 : List (HloOp τ sig (Elt F)) := r3g ++ (r3b ++ (r3c))

abbrev opsAll : List (HloOp τ sig (Elt F)) := opsW0 ++ (opsW1 ++ opsW2)

set_option maxRecDepth 8192 in
set_option maxHeartbeats 4000000 in
theorem main_part0_eq (c : Dev nD) : main_part0 (F := F) c = seq opsW0 := rfl
set_option maxRecDepth 8192 in
set_option maxHeartbeats 4000000 in
theorem main_part1_eq (c : Dev nD) : main_part1 (F := F) c = seq opsW1 := rfl
set_option maxRecDepth 8192 in
set_option maxHeartbeats 4000000 in
theorem main_part2_eq (c : Dev nD) : main_part2 (F := F) c = seq opsW2 := rfl

theorem main_eq (c : Dev nD) : main (F := F) c = seq opsAll := by
  rw [opsAll, seq_append opsW0 (opsW1 ++ opsW2), seq_append opsW1 opsW2, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

abbrev allW : List (Ref sig .tc) := (r1a_W ++ (r1b_W ++ (r1c_W ++ r2a_W))) ++ ((r2g_W ++ (r2b_W ++ (r2c_W ++ r3a_W))) ++ (r3g_W ++ (r3b_W ++ r3c_W)))

theorem opsAll_ok : List.Forall₂ Ok (opsAll (F := F)) allW :=
  List.rel_append (List.rel_append r1a_ok (List.rel_append r1b_ok (List.rel_append r1c_ok r2a_ok))) (List.rel_append (List.rel_append r2g_ok (List.rel_append r2b_ok (List.rel_append r2c_ok r3a_ok))) (List.rel_append r3g_ok (List.rel_append r3b_ok r3c_ok)))

theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after opsAll (launchContents m c) (Proc.devRef .tc b) :=
  run_seq scopedRefs_eq scopedSems_eq defs main (fun _ => opsAll) main_eq
    (fun _ => List.forall_iff_forall_mem.2 fun op h => (Ok.mem opsAll_ok op h).1) m ρ (fun _ op h => (Ok.mem opsAll_ok op h).2)

/-- A negative index counts from the end. -/
def wrap (i : (⟨S3200000, .i32⟩ : BufTy).Contents (Elt Ideal)) : (⟨S3200000, .i32⟩ : BufTy).Contents (Elt Ideal) :=
  select (cmpi .slt i (broadcastInDim S3200000 ![] bcast_S_S3200000 (constantI S_ 32 0#32))) (addi i (broadcastInDim S3200000 ![] bcast_S_S3200000 (constantI S_ 32 100000#32))) i

section
variable (W : Valuation τ sig (Elt Ideal))

/-- The edge messages of the two gathered halves, summed into their destination nodes; the weights are read from `W`. -/
def msg (x y : (⟨S3200000x16, .f32⟩ : BufTy).Contents (Elt Ideal)) : (⟨S100000x9, .f32⟩ : BufTy).Contents (Elt Ideal) :=
  Host.scatterAdd scatter_S100000x9_S3200000x1_S3200000x9_1_0_0_1 (broadcastInDim S100000x9 ![] bcast_S_S100000x9 (constant (F := Ideal) S_ .f32 0x00000000#32)) (broadcastInDim S3200000x1 ![0] bcast_S3200000_S3200000x1_0 (W (Proc.devRef .tc main_arg2))) (edgeRef (concatenate S3200000x32 1 [⟨S3200000x16, x⟩, ⟨S3200000x16, y⟩] concatenates_S3200000x16_S3200000x16_S3200000x32_d1) (W (Proc.devRef .tc main_arg3)) (W (Proc.devRef .tc main_arg4)) (W (Proc.devRef .tc main_arg5)) (W (Proc.devRef .tc main_arg6)) (W (Proc.devRef .tc main_arg7)) (W (Proc.devRef .tc main_arg8)))

/-- The node update from the state and the summed messages. -/
def out (x : (⟨S100000x16, .f32⟩ : BufTy).Contents (Elt Ideal)) (s : (⟨S100000x9, .f32⟩ : BufTy).Contents (Elt Ideal)) : (⟨S100000x16, .f32⟩ : BufTy).Contents (Elt Ideal) :=
  nodeRef (concatenate S100000x25 1 [⟨S100000x16, x⟩, ⟨S100000x9, s⟩] concatenates_S100000x16_S100000x9_S100000x25_d1) (W (Proc.devRef .tc main_arg9)) (W (Proc.devRef .tc main_arg10)) (W (Proc.devRef .tc main_arg11)) (W (Proc.devRef .tc main_arg12)) (W (Proc.devRef .tc main_arg13)) (W (Proc.devRef .tc main_arg14))

/-- One round from state `x`, every other argument read from `W`. -/
def roundAt (x : (⟨S100000x16, .f32⟩ : BufTy).Contents (Elt Ideal)) : (⟨S100000x16, .f32⟩ : BufTy).Contents (Elt Ideal) :=
  refRound (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) (W (Proc.devRef .tc main_arg12)) (W (Proc.devRef .tc main_arg13)) (W (Proc.devRef .tc main_arg14)) x

end

section
variable (W : Valuation τ sig (Elt Ideal))

theorem r1a_dst :
    after r1a W (Proc.devRef .tc main_v6) = Host.gather gather_S100000x16_S3200000x1_S3200000x16_1_0_n_n_0_1_116 (W (Proc.devRef .tc main_arg0)) (broadcastInDim S3200000x1 ![0] bcast_S3200000_S3200000x1_0 (wrap (W (Proc.devRef .tc main_arg2)))) := by
  after_results_simp <;> rfl

theorem r1a_src :
    after r1a W (Proc.devRef .tc main_v13) = Host.gather gather_S100000x16_S3200000x1_S3200000x16_1_0_n_n_0_1_116 (W (Proc.devRef .tc main_arg0)) (broadcastInDim S3200000x1 ![0] bcast_S3200000_S3200000x1_0 (wrap (W (Proc.devRef .tc main_arg1)))) := by
  after_results_simp <;> rfl

theorem r1b_msg :
    after r1b W (Proc.devRef .tc main_v31) = msg W (W (Proc.devRef .tc main_v6)) (W (Proc.devRef .tc main_v13)) := by
  unfold msg edgeRef
  after_results_simp <;> rfl

theorem r1c_out :
    after r1c W (Proc.devRef .tc main_v46) = out W (W (Proc.devRef .tc main_arg0)) (W (Proc.devRef .tc main_v31)) := by
  unfold out nodeRef
  after_results_simp <;> rfl

theorem r2a_idx :
    after r2a W (Proc.devRef .tc main_v52) = broadcastInDim S3200000x1 ![0] bcast_S3200000_S3200000x1_0 (wrap (W (Proc.devRef .tc main_arg2))) := by
  after_results_simp <;> rfl

theorem r2g_dst :
    after r2g W (Proc.devRef .tc main_v53) = Host.gather gather_S100000x16_S3200000x1_S3200000x16_1_0_n_n_0_1_116 (W (Proc.devRef .tc main_v46)) (W (Proc.devRef .tc main_v52)) := by
  after_results_simp <;> rfl

theorem r2g_src :
    after r2g W (Proc.devRef .tc main_v60) = Host.gather gather_S100000x16_S3200000x1_S3200000x16_1_0_n_n_0_1_116 (W (Proc.devRef .tc main_v46)) (broadcastInDim S3200000x1 ![0] bcast_S3200000_S3200000x1_0 (wrap (W (Proc.devRef .tc main_arg1)))) := by
  after_results_simp <;> rfl

theorem r2b_msg :
    after r2b W (Proc.devRef .tc main_v78) = msg W (W (Proc.devRef .tc main_v53)) (W (Proc.devRef .tc main_v60)) := by
  unfold msg edgeRef
  after_results_simp <;> rfl

theorem r2c_out :
    after r2c W (Proc.devRef .tc main_v93) = out W (W (Proc.devRef .tc main_v46)) (W (Proc.devRef .tc main_v78)) := by
  unfold out nodeRef
  after_results_simp <;> rfl

theorem r3a_dst :
    after r3a W (Proc.devRef .tc main_v100) = Host.gather gather_S100000x16_S3200000x1_S3200000x16_1_0_n_n_0_1_116 (W (Proc.devRef .tc main_v93)) (broadcastInDim S3200000x1 ![0] bcast_S3200000_S3200000x1_0 (wrap (W (Proc.devRef .tc main_arg2)))) := by
  after_results_simp <;> rfl

theorem r3a_idx :
    after r3a W (Proc.devRef .tc main_v105) = wrap (W (Proc.devRef .tc main_arg1)) := by
  after_results_simp <;> rfl

theorem r3g_src :
    after r3g W (Proc.devRef .tc main_v107) = Host.gather gather_S100000x16_S3200000x1_S3200000x16_1_0_n_n_0_1_116 (W (Proc.devRef .tc main_v93)) (broadcastInDim S3200000x1 ![0] bcast_S3200000_S3200000x1_0 (W (Proc.devRef .tc main_v105))) := by
  after_results_simp <;> rfl

theorem r3b_msg :
    after r3b W (Proc.devRef .tc main_v125) = msg W (W (Proc.devRef .tc main_v100)) (W (Proc.devRef .tc main_v107)) := by
  unfold msg edgeRef
  after_results_simp <;> rfl

theorem r3c_out :
    after r3c W (Proc.devRef .tc main_v140) = out W (W (Proc.devRef .tc main_v93)) (W (Proc.devRef .tc main_v125)) := by
  unfold out nodeRef
  after_results_simp <;> rfl

theorem round1_val :
    after r1c (after r1b (after r1a W)) (Proc.devRef .tc main_v46)
      = roundAt W (W (Proc.devRef .tc main_arg0)) := by
  repeat (first
    | rw [r1c_out] | rw [r1b_msg] | rw [r1a_dst] | rw [r1a_src]
    | (rw [Ok.keep r1b_ok]; rotate_left; decide)
    | (rw [Ok.keep r1a_ok]; rotate_left; decide))
  unfold roundAt refRound
  rfl

theorem round2_val :
    after r2c (after r2b (after r2g (after r2a W))) (Proc.devRef .tc main_v93)
      = roundAt W (W (Proc.devRef .tc main_v46)) := by
  repeat (first
    | rw [r2c_out] | rw [r2b_msg] | rw [r2g_dst] | rw [r2g_src] | rw [r2a_idx]
    | (rw [Ok.keep r2b_ok]; rotate_left; decide)
    | (rw [Ok.keep r2g_ok]; rotate_left; decide)
    | (rw [Ok.keep r2a_ok]; rotate_left; decide))
  unfold roundAt refRound
  rfl

theorem round3_val :
    after r3c (after r3b (after r3g (after r3a W))) (Proc.devRef .tc main_v140)
      = roundAt W (W (Proc.devRef .tc main_v93)) := by
  repeat (first
    | rw [r3c_out] | rw [r3b_msg] | rw [r3g_src] | rw [r3a_dst] | rw [r3a_idx]
    | (rw [Ok.keep r3b_ok]; rotate_left; decide)
    | (rw [Ok.keep r3g_ok]; rotate_left; decide)
    | (rw [Ok.keep r3a_ok]; rotate_left; decide))
  unfold roundAt refRound
  rfl

end

def result3 (m : (ℓ : Loc nD τ sig) → Buf (Elt Ideal) ℓ) (c : Dev nD) : Buf (Elt Ideal) ((c.tc : Thread nD τ).loc main_v140) :=
  refRound (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
    (refRound (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      (refRound (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
        (m ((c.tc : Thread nD τ).loc main_arg0))))

theorem res_val (m : (ℓ : Loc nD τ sig) → Buf (Elt Ideal) ℓ) (c : Dev nD) :
    after (opsAll (F := Ideal)) (launchContents m c) (Proc.devRef .tc main_v140) = result3 m c := by
  simp only [opsAll, opsW0, opsW1, opsW2, after_append]
  rw [round3_val]; unfold roundAt
  repeat (first
    | (rw [Ok.keep4 r2a_ok r2g_ok r2b_ok r2c_ok]; rotate_left; decide)
    | rw [round2_val])
  unfold roundAt
  repeat (first
    | (rw [Ok.keep4 .nil r1a_ok r1b_ok r1c_ok]; rotate_left; decide)
    | rw [round1_val])
  rfl

theorem arg_val (m : (ℓ : Loc nD τ sig) → Buf (Elt Ideal) ℓ) (c : Dev nD) (r : Ref sig .tc) (h : r ∉ allW) :
    after (opsAll (F := Ideal)) (launchContents m c) (Proc.devRef .tc r) = m ((c.tc : Thread nD τ).loc r) :=
  Ok.keep opsAll_ok _ h

theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v140) = result3 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => by
      have A := fun b hb => (h c b).trans (arg_val m c b hb)
      exact ⟨(h c main_v140).trans (res_val m c), A main_arg0 (by decide), A main_arg1 (by decide), A main_arg2 (by decide), A main_arg3 (by decide), A main_arg4 (by decide), A main_arg5 (by decide), A main_arg6 (by decide), A main_arg7 (by decide), A main_arg8 (by decide), A main_arg9 (by decide), A main_arg10 (by decide), A main_arg11 (by decide), A main_arg12 (by decide), A main_arg13 (by decide), A main_arg14 (by decide)⟩)
    (run_all m ρ)

end Cert.RefSide

end
-- ==== Proof.Value.lean ====
import proofs.«127178_j23579370455142_2_alg».proof.Proof.KI.Run
import proofs.«127178_j23579370455142_2_alg».proof.Proof.KI.ChainVal
import proofs.«127178_j23579370455142_2_alg».proof.Proof.KI.EdgeVal0
import proofs.«127178_j23579370455142_2_alg».proof.Proof.KI.EdgeVal2
import proofs.«127178_j23579370455142_2_alg».proof.Proof.KI.EdgeVal4
import proofs.«127178_j23579370455142_2_alg».proof.Proof.KI.NodeVal1
import proofs.«127178_j23579370455142_2_alg».proof.Proof.KI.NodeVal3
import proofs.«127178_j23579370455142_2_alg».proof.Proof.KI.NodeVal5
import proofs.«127178_j23579370455142_2_alg».proof.Proof.KerRound
import proofs.«127178_j23579370455142_2_alg».proof.Proof.RefRunH

noncomputable section

namespace Cert.Value

open Idealize.ShloMosaic Idealize.ShloMosaic.TcCoe Idealize.SL.Sem

def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v92) :=
  Cert.KernelIdeal.RunV.roundAt m c (Cert.KernelIdeal.RunV.roundAt m c (Cert.KernelIdeal.RunV.roundAt m c (m ((c.tc : Thread Cert.KernelIdeal.nD Cert.KernelIdeal.τ).loc Cert.KernelIdeal.main_arg0))))

theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v92) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)) :=
  (θ_run (Cert.KernelIdeal.defs (F := Ideal)) _ _).mono (fun r h c =>
    ⟨(h c _ (Cert.KernelIdeal.RunV.mem_uc Cert.KernelIdeal.main_v92 (by decide))).trans
        (Cert.KernelIdeal.RunV.result_eq m ρ c),
      (h c _ (Cert.KernelIdeal.RunV.mem_uc Cert.KernelIdeal.main_arg0 (by decide))).trans (Cert.KernelIdeal.RunV.W13_arg m ρ c Cert.KernelIdeal.main_arg0 (by simp)),
      (h c _ (Cert.KernelIdeal.RunV.mem_uc Cert.KernelIdeal.main_arg1 (by decide))).trans (Cert.KernelIdeal.RunV.W13_arg m ρ c Cert.KernelIdeal.main_arg1 (by simp)),
      (h c _ (Cert.KernelIdeal.RunV.mem_uc Cert.KernelIdeal.main_arg2 (by decide))).trans (Cert.KernelIdeal.RunV.W13_arg m ρ c Cert.KernelIdeal.main_arg2 (by simp)),
      (h c _ (Cert.KernelIdeal.RunV.mem_uc Cert.KernelIdeal.main_arg3 (by decide))).trans (Cert.KernelIdeal.RunV.W13_arg m ρ c Cert.KernelIdeal.main_arg3 (by simp)),
      (h c _ (Cert.KernelIdeal.RunV.mem_uc Cert.KernelIdeal.main_arg4 (by decide))).trans (Cert.KernelIdeal.RunV.W13_arg m ρ c Cert.KernelIdeal.main_arg4 (by simp)),
      (h c _ (Cert.KernelIdeal.RunV.mem_uc Cert.KernelIdeal.main_arg5 (by decide))).trans (Cert.KernelIdeal.RunV.W13_arg m ρ c Cert.KernelIdeal.main_arg5 (by simp)),
      (h c _ (Cert.KernelIdeal.RunV.mem_uc Cert.KernelIdeal.main_arg6 (by decide))).trans (Cert.KernelIdeal.RunV.W13_arg m ρ c Cert.KernelIdeal.main_arg6 (by simp)),
      (h c _ (Cert.KernelIdeal.RunV.mem_uc Cert.KernelIdeal.main_arg7 (by decide))).trans (Cert.KernelIdeal.RunV.W13_arg m ρ c Cert.KernelIdeal.main_arg7 (by simp)),
      (h c _ (Cert.KernelIdeal.RunV.mem_uc Cert.KernelIdeal.main_arg8 (by decide))).trans (Cert.KernelIdeal.RunV.W13_arg m ρ c Cert.KernelIdeal.main_arg8 (by simp)),
      (h c _ (Cert.KernelIdeal.RunV.mem_uc Cert.KernelIdeal.main_arg9 (by decide))).trans (Cert.KernelIdeal.RunV.W13_arg m ρ c Cert.KernelIdeal.main_arg9 (by simp)),
      (h c _ (Cert.KernelIdeal.RunV.mem_uc Cert.KernelIdeal.main_arg10 (by decide))).trans (Cert.KernelIdeal.RunV.W13_arg m ρ c Cert.KernelIdeal.main_arg10 (by simp)),
      (h c _ (Cert.KernelIdeal.RunV.mem_uc Cert.KernelIdeal.main_arg11 (by decide))).trans (Cert.KernelIdeal.RunV.W13_arg m ρ c Cert.KernelIdeal.main_arg11 (by simp)),
      (h c _ (Cert.KernelIdeal.RunV.mem_uc Cert.KernelIdeal.main_arg12 (by decide))).trans (Cert.KernelIdeal.RunV.W13_arg m ρ c Cert.KernelIdeal.main_arg12 (by simp)),
      (h c _ (Cert.KernelIdeal.RunV.mem_uc Cert.KernelIdeal.main_arg13 (by decide))).trans (Cert.KernelIdeal.RunV.W13_arg m ρ c Cert.KernelIdeal.main_arg13 (by simp)),
      (h c _ (Cert.KernelIdeal.RunV.mem_uc Cert.KernelIdeal.main_arg14 (by decide))).trans (Cert.KernelIdeal.RunV.W13_arg m ρ c Cert.KernelIdeal.main_arg14 (by simp))⟩)
    (Cert.KernelIdeal.RunV.run_all m ρ)

theorem ref_result (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (c : Dev Cert.KernelIdeal.nD) :
    Cert.RefSide.result3 m' c = result m c := by
  obtain ⟨h0, h1, h2, h3, h4, h5, h6, h7, h8, h9, h10, h11, h12, h13, h14⟩ := hagree c
  unfold Cert.RefSide.result3 result Cert.KernelIdeal.RunV.roundAt
  rw [h0, h1, h2, h3, h4, h5, h6, h7, h8, h9, h10, h11, h12, h13, h14]
  rw [Cert.Bridge.kerRound_eq, Cert.Bridge.kerRound_eq, Cert.Bridge.kerRound_eq]

end Cert.Value

end
-- ==== Proof.lean ====
/-
  Three rounds of X ↦ node(X ‖ Σ_dst edge(X[dst] ‖ X[src])), where edge and node are three-layer perceptrons with the
  positive part after the first two layers. The reference applies them row by row (x·W + b), the kernel column by column
  to the transposed array (Wᵀ·xᵀ + b); finite sums over the extended reals commute, so the two are one function.
-/
import proofs.«127178_j23579370455142_2_alg».proof.Defs
import proofs.«127178_j23579370455142_2_alg».proof.Proof.Gen.Kernel
import proofs.«127178_j23579370455142_2_alg».proof.Proof.Gen.KernelIdeal
import proofs.«127178_j23579370455142_2_alg».proof.Proof.Gen.ReferenceIdeal
import proofs.«127178_j23579370455142_2_alg».proof.Proof.Gen.Pre_finite_inputs
import proofs.«127178_j23579370455142_2_alg».proof.Proof.K.Frame
import proofs.«127178_j23579370455142_2_alg».proof.Proof.Value
import Idealize.ShloMosaic.Adequacy
import Idealize.ShloMosaic.Init

noncomputable section

namespace Cert.Proof

open Idealize.ShloMosaic Idealize.SL.Sem

theorem frame_k : Cert.frame_Kernel := fun m ρ _ => Cert.Kernel.Fr.frame (F := Bits) m ρ

theorem frame_ki : Cert.frame_KernelIdeal := fun m ρ _ =>
  (θ_run Cert.KernelIdeal.defs _ _).mono (fun _ h c => (h c).2) (Cert.Value.run_kernel m ρ)

theorem frame_ri : Cert.frame_ReferenceIdeal := fun m ρ _ =>
  (θ_run Cert.ReferenceIdeal.defs _ _).mono (fun _ h c => (h c).2) (Cert.RefSide.ref_run m ρ)

theorem algebraic : Cert.algebraic_KernelIdeal_ReferenceIdeal := by
  intro m ρ m' ρ' _ hagree
  refine ⟨fun c => Cert.Value.result m c, Cert.Value.run_kernel m ρ, ?_⟩
  refine (θ_run Cert.ReferenceIdeal.defs _ _).mono (fun _ h c => ⟨(h c).1.trans (Cert.Value.ref_result m m' hagree c), (h c).2⟩)
    (Cert.RefSide.ref_run m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
